-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3200 : Shape := ⟨2, ![256, 3200]⟩
abbrev S8192x128 : Shape := ⟨2, ![8192, 128]⟩
abbrev S8192 : Shape := ⟨1, ![8192]⟩
abbrev S4096x128 : Shape := ⟨2, ![4096, 128]⟩
abbrev S4096 : Shape := ⟨1, ![4096]⟩
abbrev S_ : Shape := ⟨0, ![]⟩

class Facts : Prop where
  bcast_S_S256x3200 : S_.BroadcastsInDim S256x3200 (![] : Fin 0 → Fin S256x3200.rank)
  reducesTo_S256x3200_S_d0_1 : S256x3200.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192 : S_.BroadcastsInDim S8192 (![] : Fin 0 → Fin S8192.rank)
  reducesTo_S8192_S_d0 : S8192.ReducesTo [0] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg11 : IVec S4096x128 32) (main_v67 : IVec S_ 1) : IVec S_ 1 :=
  let main_c_26 : IVec S_ 32 := constantI S_ 32 0#32
  let main_v68 : IVec S4096x128 32 := broadcastInDim S4096x128 ![] bcast_S_S4096x128 main_c_26
  let main_v69 : IVec S4096x128 1 := cmpi .sge main_arg11 main_v68
  let main_c_27 : IVec S_ 32 := constantI S_ 32 8192#32
  let main_v70 : IVec S4096x128 32 := broadcastInDim S4096x128 ![] bcast_S_S4096x128 main_c_27
  let main_v71 : IVec S4096x128 1 := cmpi .slt main_arg11 main_v70
  let main_v72 : IVec S4096x128 1 := andi main_v69 main_v71
  let main_c_28 : IVec S_ 1 := constantI S_ 1 1#1
  let main_v73 : IVec S_ 1 := (fun x v => Host.reduce IntOp.andi x v reducesTo_S4096x128_S_d0_1 h_S_) main_v72 main_c_28
  let main_v74 : IVec S_ 1 := andi main_v67 main_v73
  main_v74

def fn_part3 {F : FTy → Type} [FloatOps F] (main_arg1 : IVec S8192x128 32) (main_arg6 : IVec S8192x128 32) (main_arg11 : IVec S4096x128 32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_c_20 : IVec S_ 32 := constantI S_ 32 0#32
  let main_v54 : IVec S8192x128 32 := broadcastInDim S8192x128 ![] bcast_S_S8192x128 main_c_20
  let main_v55 : IVec S8192x128 1 := cmpi .sge main_arg1 main_v54
  let main_c_21 : IVec S_ 32 := constantI S_ 32 3200#32
  let main_v56 : IVec S8192x128 32 := broadcastInDim S8192x128 ![] bcast_S_S8192x128 main_c_21
  let main_v57 : IVec S8192x128 1 := cmpi .slt main_arg1 main_v56
  let main_v58 : IVec S8192x128 1 := andi main_v55 main_v57
  let main_c_22 : IVec S_ 1 := constantI S_ 1 1#1
  let main_v59 : IVec S_ 1 := (fun x v => Host.reduce IntOp.andi x v reducesTo_S8192x128_S_d0_1 h_S_) main_v58 main_c_22
  let main_v60 : IVec S_ 1 := andi main_v53 main_v59
  let main_c_23 : IVec S_ 32 := constantI S_ 32 0#32
  let main_v61 : IVec S8192x128 32 := broadcastInDim S8192x128 ![] bcast_S_S8192x128 main_c_23
  let main_v62 : IVec S8192x128 1 := cmpi .sge main_arg6 main_v61
  let main_c_24 : IVec S_ 32 := constantI S_ 32 8192#32
  let main_v63 : IVec S8192x128 32 := broadcastInDim S8192x128 ![] bcast_S_S8192x128 main_c_24
  let main_v64 : IVec S8192x128 1 := cmpi .slt main_arg6 main_v63
  let main_v65 : IVec S8192x128 1 := andi main_v62 main_v64
  let main_c_25 : IVec S_ 1 := constantI S_ 1 1#1
  let main_v66 : IVec S_ 1 := (fun x v => Host.reduce IntOp.andi x v reducesTo_S8192x128_S_d0_1 h_S_) main_v65 main_c_25
  let main_v67 : IVec S_ 1 := andi main_v60 main_v66
  fn_part4 (F := F) main_arg11 main_v67

def fn_part2 {F : FTy → Type} [FloatOps F] (main_arg1 : IVec S8192x128 32) (main_arg6 : IVec S8192x128 32) (main_arg9 : FVec F S8192 .f32) (main_arg10 : FVec F S8192 .f32) (main_arg11 : IVec S4096x128 32) (main_arg12 : FVec F S4096x128 .f32) (main_arg13 : FVec F S4096 .f32) (main_v33 : IVec S_ 1) : IVec S_ 1 :=
  let main_v34 : FVec F S8192 .f32 := Host.absf main_arg9
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192 .f32 := Host.absf main_arg10
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S4096x128 .f32 := Host.absf main_arg12
  let main_cst_16 : FVec F S_ .f32 := constant S_ .f32 0x7F800000#32
  let main_v45 : FVec F S4096x128 .f32 := broadcastInDim S4096x128 ![] bcast_S_S4096x128 main_cst_16
  let main_v46 : IVec S4096x128 1 := cmpf .olt main_v44 main_v45
  let main_c_17 : IVec S_ 1 := constantI S_ 1 1#1
  let main_v47 : IVec S_ 1 := (fun x v => Host.reduce IntOp.andi x v reducesTo_S4096x128_S_d0_1 h_S_) main_v46 main_c_17
  let main_v48 : IVec S_ 1 := andi main_v43 main_v47
  let main_v49 : FVec F S4096 .f32 := Host.absf main_arg13
  let main_cst_18 : FVec F S_ .f32 := constant S_ .f32 0x7F800000#32
  let main_v50 : FVec F S4096 .f32 := broadcastInDim S4096 ![] bcast_S_S4096 main_cst_18
  fn_part3 (F := F) main_arg1 main_arg6 main_arg11 main_v48 main_v49 main_v50

def fn_part1 {F : FTy → Type} [FloatOps F] (main_arg1 : IVec S8192x128 32) (main_arg5 : FVec F S8192 .f32) (main_arg6 : IVec S8192x128 32) (main_arg7 : FVec F S8192x128 .f32) (main_arg8 : FVec F S8192 .f32) (main_arg9 : FVec F S8192 .f32) (main_arg10 : FVec F S8192 .f32) (main_arg11 : IVec S4096x128 32) (main_arg12 : FVec F S4096x128 .f32) (main_arg13 : FVec F S4096 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x128 .f32 := Host.absf main_arg7
  let main_cst_8 : FVec F S_ .f32 := constant S_ .f32 0x7F800000#32
  let main_v25 : FVec F S8192x128 .f32 := broadcastInDim S8192x128 ![] bcast_S_S8192x128 main_cst_8
  let main_v26 : IVec S8192x128 1 := cmpf .olt main_v24 main_v25
  let main_c_9 : IVec S_ 1 := constantI S_ 1 1#1
  let main_v27 : IVec S_ 1 := (fun x v => Host.reduce IntOp.andi x v reducesTo_S8192x128_S_d0_1 h_S_) main_v26 main_c_9
  let main_v28 : IVec S_ 1 := andi main_v23 main_v27
  let main_v29 : FVec F S8192 .f32 := Host.absf main_arg8
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg1 main_arg6 main_arg9 main_arg10 main_arg11 main_arg12 main_arg13 main_v33

def fn {F : FTy → Type} [FloatOps F] (main_arg0 : FVec F S256x3200 .f32) (main_arg1 : IVec S8192x128 32) (main_arg2 : FVec F S8192x128 .f32) (main_arg3 : FVec F S8192 .f32) (main_arg4 : FVec F S8192 .f32) (main_arg5 : FVec F S8192 .f32) (main_arg6 : IVec S8192x128 32) (main_arg7 : FVec F S8192x128 .f32) (main_arg8 : FVec F S8192 .f32) (main_arg9 : FVec F S8192 .f32) (main_arg10 : FVec F S8192 .f32) (main_arg11 : IVec S4096x128 32) (main_arg12 : FVec F S4096x128 .f32) (main_arg13 : FVec F S4096 .f32) : IVec S_ 1 :=
  let main_v0 : FVec F S256x3200 .f32 := Host.absf main_arg0
  let main_cst : FVec F S_ .f32 := constant S_ .f32 0x7F800000#32
  let main_v1 : FVec F S256x3200 .f32 := broadcastInDim S256x3200 ![] bcast_S_S256x3200 main_cst
  let main_v2 : IVec S256x3200 1 := cmpf .olt main_v0 main_v1
  let main_c : IVec S_ 1 := constantI S_ 1 1#1
  let main_v3 : IVec S_ 1 := (fun x v => Host.reduce IntOp.andi x v reducesTo_S256x3200_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg1 main_arg5 main_arg6 main_arg7 main_arg8 main_arg9 main_arg10 main_arg11 main_arg12 main_arg13 main_v13 main_v16
-- ==== Kernel.lean ====
abbrev S256x3200 : Shape := ⟨2, ![256, 3200]⟩
abbrev S8192x128 : Shape := ⟨2, ![8192, 128]⟩
abbrev S8192 : Shape := ⟨1, ![8192]⟩
abbrev S4096x128 : Shape := ⟨2, ![4096, 128]⟩
abbrev S4096 : Shape := ⟨1, ![4096]⟩
abbrev S256x8192 : Shape := ⟨2, ![256, 8192]⟩
abbrev S256x128 : Shape := ⟨2, ![256, 128]⟩
abbrev S256 : Shape := ⟨1, ![256]⟩
abbrev S256x256 : Shape := ⟨2, ![256, 256]⟩
abbrev S256x1 : Shape := ⟨2, ![256, 1]⟩
abbrev S1x256 : Shape := ⟨2, ![1, 256]⟩
abbrev S128x8192 : Shape := ⟨2, ![128, 8192]⟩
abbrev S128 : Shape := ⟨1, ![128]⟩
abbrev S128x1 : Shape := ⟨2, ![128, 1]⟩
abbrev S1x8192 : Shape := ⟨2, ![1, 8192]⟩
abbrev S256x4096 : Shape := ⟨2, ![256, 4096]⟩
abbrev S256x256x16 : Shape := ⟨3, ![256, 256, 16]⟩
abbrev S_ : Shape := ⟨0, ![]⟩

abbrev nBuf : Space → Nat
  | .hbm => 25
  | .vmem => 45
  | .smem => 0
  | _ => 0

abbrev bufTy : (tb : Table) → Fin (tcTables nBuf tb) → BufTy
  | .hbm, ⟨0, _⟩ => ⟨S256x3200, .f32⟩
  | .hbm, ⟨1, _⟩ => ⟨S8192x128, .i32⟩
  | .hbm, ⟨2, _⟩ => ⟨S8192x128, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192x128, .i32⟩
  | .hbm, ⟨7, _⟩ => ⟨S8192x128, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S4096x128, .i32⟩
  | .hbm, ⟨12, _⟩ => ⟨S4096x128, .f32⟩
  | .hbm, ⟨13, _⟩ => ⟨S4096, .f32⟩
  | .hbm, ⟨14, _⟩ => ⟨S256x8192, .f32⟩
  | .hbm, ⟨15, _⟩ => ⟨S256x8192, .f32⟩
  | .hbm, ⟨16, _⟩ => ⟨S256x8192, .f32⟩
  | .hbm, ⟨17, _⟩ => ⟨S256x8192, .f32⟩
  | .hbm, ⟨18, _⟩ => ⟨S256x4096, .f32⟩
  | .hbm, ⟨19, _⟩ => ⟨S256x256x16, .f32⟩
  | .hbm, ⟨20, _⟩ => ⟨S_, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .local _ .vmem, ⟨0, _⟩ => ⟨S256x128, .f32⟩
  | .local _ .vmem, ⟨1, _⟩ => ⟨S256x128, .f32⟩
  | .local _ .vmem, ⟨2, _⟩ => ⟨S256x128, .i32⟩
  | .local _ .vmem, ⟨3, _⟩ => ⟨S256x128, .i32⟩
  | .local _ .vmem, ⟨4, _⟩ => ⟨S256x128, .f32⟩
  | .local _ .vmem, ⟨5, _⟩ => ⟨S256x128, .f32⟩
  | .local _ .vmem, ⟨6, _⟩ => ⟨S256, .f32⟩
  | .local _ .vmem, ⟨7, _⟩ => ⟨S256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S128x8192, .f32⟩
  | .local _ .vmem, ⟨12, _⟩ => ⟨S128x8192, .f32⟩
  | .local _ .vmem, ⟨13, _⟩ => ⟨S8192, .f32⟩
  | .local _ .vmem, ⟨14, _⟩ => ⟨S8192, .f32⟩
  | .local _ .vmem, ⟨15, _⟩ => ⟨S128x8192, .f32⟩
  | .local _ .vmem, ⟨16, _⟩ => ⟨S128x8192, .f32⟩
  | .local _ .vmem, ⟨17, _⟩ => ⟨S256x128, .f32⟩
  | .local _ .vmem, ⟨18, _⟩ => ⟨S256x128, .f32⟩
  | .local _ .vmem, ⟨19, _⟩ => ⟨S256x128, .i32⟩
  | .local _ .vmem, ⟨20, _⟩ => ⟨S256x128, .i32⟩
  | .local _ .vmem, ⟨21, _⟩ => ⟨S256x128, .f32⟩
  | .local _ .vmem, ⟨22, _⟩ => ⟨S256x128, .f32⟩
  | .local _ .vmem, ⟨23, _⟩ => ⟨S256, .f32⟩
  | .local _ .vmem, ⟨24, _⟩ => ⟨S256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S128x8192, .f32⟩
  | .local _ .vmem, ⟨29, _⟩ => ⟨S128x8192, .f32⟩
  | .local _ .vmem, ⟨30, _⟩ => ⟨S8192, .f32⟩
  | .local _ .vmem, ⟨31, _⟩ => ⟨S8192, .f32⟩
  | .local _ .vmem, ⟨32, _⟩ => ⟨S128x8192, .f32⟩
  | .local _ .vmem, ⟨33, _⟩ => ⟨S128x8192, .f32⟩
  | .local _ .vmem, ⟨34, _⟩ => ⟨S256x128, .f32⟩
  | .local _ .vmem, ⟨35, _⟩ => ⟨S256x128, .f32⟩
  | .local _ .vmem, ⟨36, _⟩ => ⟨S256x128, .i32⟩
  | .local _ .vmem, ⟨37, _⟩ => ⟨S256x128, .i32⟩
  | .local _ .vmem, ⟨38, _⟩ => ⟨S256x128, .f32⟩
  | .local _ .vmem, ⟨39, _⟩ => ⟨S256x128, .f32⟩
  | .local _ .vmem, ⟨40, _⟩ => ⟨S256, .f32⟩
  | .local _ .vmem, ⟨41, _⟩ => ⟨S256, .f32⟩
  | .local _ .vmem, ⟨42, _⟩ => ⟨S256x256, .f32⟩
  | .local _ .vmem, ⟨43, _⟩ => ⟨S256x256, .f32⟩
  | .local _ .vmem, ⟨44, _⟩ => ⟨S256x256, .f32⟩
  | _, _ => ⟨S256x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41

abbrev nD : Nat := 1
abbrev τ : Topo := Topo.v7x

variable {F : FTy → Type} [FloatOps F]

abbrev grid0 : Pipeline.Grid := ⟨2, ![32, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![32, 64], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S256x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S128x8192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![16, 64], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S256x128 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S256x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  iota_S256x128_d1_w32 : S256x128.Iotas .tc 32 [1]
  slices_S256x128_o0_0_S256x1 : S256x128.Slices ![0, 0] S256x1
  broadcasts_S256x1_S256x128 : S256x1.Broadcasts S256x128
  shapeCasts_S256x1_S256x1 : S256x1.ShapeCasts S256x1
  slices_S256x128_o0_1_S256x1 : S256x128.Slices ![0, 1] S256x1
  slices_S256x128_o0_2_S256x1 : S256x128.Slices ![0, 2] S256x1
  slices_S256x128_o0_3_S256x1 : S256x128.Slices ![0, 3] S256x1
  slices_S256x128_o0_4_S256x1 : S256x128.Slices ![0, 4] S256x1
  slices_S256x128_o0_5_S256x1 : S256x128.Slices ![0, 5] S256x1
  slices_S256x128_o0_6_S256x1 : S256x128.Slices ![0, 6] S256x1
  slices_S256x128_o0_7_S256x1 : S256x128.Slices ![0, 7] S256x1
  slices_S256x128_o0_8_S256x1 : S256x128.Slices ![0, 8] S256x1
  slices_S256x128_o0_9_S256x1 : S256x128.Slices ![0, 9] S256x1
  slices_S256x128_o0_10_S256x1 : S256x128.Slices ![0, 10] S256x1
  slices_S256x128_o0_11_S256x1 : S256x128.Slices ![0, 11] S256x1
  slices_S256x128_o0_12_S256x1 : S256x128.Slices ![0, 12] S256x1
  slices_S256x128_o0_13_S256x1 : S256x128.Slices ![0, 13] S256x1
  slices_S256x128_o0_14_S256x1 : S256x128.Slices ![0, 14] S256x1
  slices_S256x128_o0_15_S256x1 : S256x128.Slices ![0, 15] S256x1
  slices_S256x128_o0_16_S256x1 : S256x128.Slices ![0, 16] S256x1
  slices_S256x128_o0_17_S256x1 : S256x128.Slices ![0, 17] S256x1
  slices_S256x128_o0_18_S256x1 : S256x128.Slices ![0, 18] S256x1
  slices_S256x128_o0_19_S256x1 : S256x128.Slices ![0, 19] S256x1
  slices_S256x128_o0_20_S256x1 : S256x128.Slices ![0, 20] S256x1
  slices_S256x128_o0_21_S256x1 : S256x128.Slices ![0, 21] S256x1
  slices_S256x128_o0_22_S256x1 : S256x128.Slices ![0, 22] S256x1
  slices_S256x128_o0_23_S256x1 : S256x128.Slices ![0, 23] S256x1
  slices_S256x128_o0_24_S256x1 : S256x128.Slices ![0, 24] S256x1
  slices_S256x128_o0_25_S256x1 : S256x128.Slices ![0, 25] S256x1
  slices_S256x128_o0_26_S256x1 : S256x128.Slices ![0, 26] S256x1
  slices_S256x128_o0_27_S256x1 : S256x128.Slices ![0, 27] S256x1
  slices_S256x128_o0_28_S256x1 : S256x128.Slices ![0, 28] S256x1
  slices_S256x128_o0_29_S256x1 : S256x128.Slices ![0, 29] S256x1
  slices_S256x128_o0_30_S256x1 : S256x128.Slices ![0, 30] S256x1
  slices_S256x128_o0_31_S256x1 : S256x128.Slices ![0, 31] S256x1
  slices_S256x128_o0_32_S256x1 : S256x128.Slices ![0, 32] S256x1
  slices_S256x128_o0_33_S256x1 : S256x128.Slices ![0, 33] S256x1
  slices_S256x128_o0_34_S256x1 : S256x128.Slices ![0, 34] S256x1
  slices_S256x128_o0_35_S256x1 : S256x128.Slices ![0, 35] S256x1
  slices_S256x128_o0_36_S256x1 : S256x128.Slices ![0, 36] S256x1
  slices_S256x128_o0_37_S256x1 : S256x128.Slices ![0, 37] S256x1
  slices_S256x128_o0_38_S256x1 : S256x128.Slices ![0, 38] S256x1
  slices_S256x128_o0_39_S256x1 : S256x128.Slices ![0, 39] S256x1
  slices_S256x128_o0_40_S256x1 : S256x128.Slices ![0, 40] S256x1
  slices_S256x128_o0_41_S256x1 : S256x128.Slices ![0, 41] S256x1
  slices_S256x128_o0_42_S256x1 : S256x128.Slices ![0, 42] S256x1
  slices_S256x128_o0_43_S256x1 : S256x128.Slices ![0, 43] S256x1
  slices_S256x128_o0_44_S256x1 : S256x128.Slices ![0, 44] S256x1
  slices_S256x128_o0_45_S256x1 : S256x128.Slices ![0, 45] S256x1
  slices_S256x128_o0_46_S256x1 : S256x128.Slices ![0, 46] S256x1
  slices_S256x128_o0_47_S256x1 : S256x128.Slices ![0, 47] S256x1
  slices_S256x128_o0_48_S256x1 : S256x128.Slices ![0, 48] S256x1
  slices_S256x128_o0_49_S256x1 : S256x128.Slices ![0, 49] S256x1
  slices_S256x128_o0_50_S256x1 : S256x128.Slices ![0, 50] S256x1
  slices_S256x128_o0_51_S256x1 : S256x128.Slices ![0, 51] S256x1
  slices_S256x128_o0_52_S256x1 : S256x128.Slices ![0, 52] S256x1
  slices_S256x128_o0_53_S256x1 : S256x128.Slices ![0, 53] S256x1
  slices_S256x128_o0_54_S256x1 : S256x128.Slices ![0, 54] S256x1
  slices_S256x128_o0_55_S256x1 : S256x128.Slices ![0, 55] S256x1
  slices_S256x128_o0_56_S256x1 : S256x128.Slices ![0, 56] S256x1
  slices_S256x128_o0_57_S256x1 : S256x128.Slices ![0, 57] S256x1
  slices_S256x128_o0_58_S256x1 : S256x128.Slices ![0, 58] S256x1
  slices_S256x128_o0_59_S256x1 : S256x128.Slices ![0, 59] S256x1
  slices_S256x128_o0_60_S256x1 : S256x128.Slices ![0, 60] S256x1
  slices_S256x128_o0_61_S256x1 : S256x128.Slices ![0, 61] S256x1
  slices_S256x128_o0_62_S256x1 : S256x128.Slices ![0, 62] S256x1
  slices_S256x128_o0_63_S256x1 : S256x128.Slices ![0, 63] S256x1
  slices_S256x128_o0_64_S256x1 : S256x128.Slices ![0, 64] S256x1
  slices_S256x128_o0_65_S256x1 : S256x128.Slices ![0, 65] S256x1
  slices_S256x128_o0_66_S256x1 : S256x128.Slices ![0, 66] S256x1
  slices_S256x128_o0_67_S256x1 : S256x128.Slices ![0, 67] S256x1
  slices_S256x128_o0_68_S256x1 : S256x128.Slices ![0, 68] S256x1
  slices_S256x128_o0_69_S256x1 : S256x128.Slices ![0, 69] S256x1
  slices_S256x128_o0_70_S256x1 : S256x128.Slices ![0, 70] S256x1
  slices_S256x128_o0_71_S256x1 : S256x128.Slices ![0, 71] S256x1
  slices_S256x128_o0_72_S256x1 : S256x128.Slices ![0, 72] S256x1
  slices_S256x128_o0_73_S256x1 : S256x128.Slices ![0, 73] S256x1
  slices_S256x128_o0_74_S256x1 : S256x128.Slices ![0, 74] S256x1
  slices_S256x128_o0_75_S256x1 : S256x128.Slices ![0, 75] S256x1
  slices_S256x128_o0_76_S256x1 : S256x128.Slices ![0, 76] S256x1
  slices_S256x128_o0_77_S256x1 : S256x128.Slices ![0, 77] S256x1
  slices_S256x128_o0_78_S256x1 : S256x128.Slices ![0, 78] S256x1
  slices_S256x128_o0_79_S256x1 : S256x128.Slices ![0, 79] S256x1
  slices_S256x128_o0_80_S256x1 : S256x128.Slices ![0, 80] S256x1
  slices_S256x128_o0_81_S256x1 : S256x128.Slices ![0, 81] S256x1
  slices_S256x128_o0_82_S256x1 : S256x128.Slices ![0, 82] S256x1
  slices_S256x128_o0_83_S256x1 : S256x128.Slices ![0, 83] S256x1
  slices_S256x128_o0_84_S256x1 : S256x128.Slices ![0, 84] S256x1
  slices_S256x128_o0_85_S256x1 : S256x128.Slices ![0, 85] S256x1
  slices_S256x128_o0_86_S256x1 : S256x128.Slices ![0, 86] S256x1
  slices_S256x128_o0_87_S256x1 : S256x128.Slices ![0, 87] S256x1
  slices_S256x128_o0_88_S256x1 : S256x128.Slices ![0, 88] S256x1
  slices_S256x128_o0_89_S256x1 : S256x128.Slices ![0, 89] S256x1
  slices_S256x128_o0_90_S256x1 : S256x128.Slices ![0, 90] S256x1
  slices_S256x128_o0_91_S256x1 : S256x128.Slices ![0, 91] S256x1
  slices_S256x128_o0_92_S256x1 : S256x128.Slices ![0, 92] S256x1
  slices_S256x128_o0_93_S256x1 : S256x128.Slices ![0, 93] S256x1
  slices_S256x128_o0_94_S256x1 : S256x128.Slices ![0, 94] S256x1
  slices_S256x128_o0_95_S256x1 : S256x128.Slices ![0, 95] S256x1
  slices_S256x128_o0_96_S256x1 : S256x128.Slices ![0, 96] S256x1
  slices_S256x128_o0_97_S256x1 : S256x128.Slices ![0, 97] S256x1
  slices_S256x128_o0_98_S256x1 : S256x128.Slices ![0, 98] S256x1
  slices_S256x128_o0_99_S256x1 : S256x128.Slices ![0, 99] S256x1
  slices_S256x128_o0_100_S256x1 : S256x128.Slices ![0, 100] S256x1
  slices_S256x128_o0_101_S256x1 : S256x128.Slices ![0, 101] S256x1
  slices_S256x128_o0_102_S256x1 : S256x128.Slices ![0, 102] S256x1
  slices_S256x128_o0_103_S256x1 : S256x128.Slices ![0, 103] S256x1
  slices_S256x128_o0_104_S256x1 : S256x128.Slices ![0, 104] S256x1
  slices_S256x128_o0_105_S256x1 : S256x128.Slices ![0, 105] S256x1
  slices_S256x128_o0_106_S256x1 : S256x128.Slices ![0, 106] S256x1
  slices_S256x128_o0_107_S256x1 : S256x128.Slices ![0, 107] S256x1
  slices_S256x128_o0_108_S256x1 : S256x128.Slices ![0, 108] S256x1
  slices_S256x128_o0_109_S256x1 : S256x128.Slices ![0, 109] S256x1
  slices_S256x128_o0_110_S256x1 : S256x128.Slices ![0, 110] S256x1
  slices_S256x128_o0_111_S256x1 : S256x128.Slices ![0, 111] S256x1
  slices_S256x128_o0_112_S256x1 : S256x128.Slices ![0, 112] S256x1
  slices_S256x128_o0_113_S256x1 : S256x128.Slices ![0, 113] S256x1
  slices_S256x128_o0_114_S256x1 : S256x128.Slices ![0, 114] S256x1
  slices_S256x128_o0_115_S256x1 : S256x128.Slices ![0, 115] S256x1
  slices_S256x128_o0_116_S256x1 : S256x128.Slices ![0, 116] S256x1
  slices_S256x128_o0_117_S256x1 : S256x128.Slices ![0, 117] S256x1
  slices_S256x128_o0_118_S256x1 : S256x128.Slices ![0, 118] S256x1
  slices_S256x128_o0_119_S256x1 : S256x128.Slices ![0, 119] S256x1
  slices_S256x128_o0_120_S256x1 : S256x128.Slices ![0, 120] S256x1
  slices_S256x128_o0_121_S256x1 : S256x128.Slices ![0, 121] S256x1
  slices_S256x128_o0_122_S256x1 : S256x128.Slices ![0, 122] S256x1
  slices_S256x128_o0_123_S256x1 : S256x128.Slices ![0, 123] S256x1
  slices_S256x128_o0_124_S256x1 : S256x128.Slices ![0, 124] S256x1
  slices_S256x128_o0_125_S256x1 : S256x128.Slices ![0, 125] S256x1
  slices_S256x128_o0_126_S256x1 : S256x128.Slices ![0, 126] S256x1
  slices_S256x128_o0_127_S256x1 : S256x128.Slices ![0, 127] S256x1
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S128x8192 : S1x8192.Broadcasts S128x8192
  shapeCasts_S256x128_S256x128 : S256x128.ShapeCasts S256x128
  shapeCasts_S256x4096_S256x256x16 : S256x4096.ShapeCasts S256x256x16
  reducesTo_S256x256x16_S256x256_d2 : S256x256x16.ReducesTo [2] S256x256
  h_S_ : 0 < S_.numel
  bcast_S_S256x256 : S_.BroadcastsInDim S256x256 (![] : Fin 0 → Fin S256x256.rank)
  dot_S256x128_S256x128_S256x256_1_1_0_0_n_n_wf : DotDims.WF S256x128 S256x128 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x3200.size a
  hwx0_0 : ∀ i : grid0.Coords, EltTy.bits .f32 = 32 ∨ (Rect.block (s := S256x3200) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .i32 = 32 ∨ (Rect.block (s := S8192x128) S256x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S8192.size a
  hwx0_3 : ∀ i : grid0.Coords, EltTy.bits .f32 = 32 ∨ (Rect.block (s := S8192) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x8192.size a
  hwx0_4 : ∀ i : grid0.Coords, EltTy.bits .f32 = 32 ∨ (Rect.block (s := S256x8192) S256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S256x8192.size a
  hwx1_0 : ∀ i : grid1.Coords, EltTy.bits .f32 = 32 ∨ (Rect.block (s := S256x8192) S128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S8192.size a
  hwx1_1 : ∀ i : grid1.Coords, EltTy.bits .f32 = 32 ∨ (Rect.block (s := S8192) S8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S8192.size a
  hwx1_2 : ∀ i : grid1.Coords, EltTy.bits .f32 = 32 ∨ (Rect.block (s := S8192) S8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S256x8192.size a
  hwx1_3 : ∀ i : grid1.Coords, EltTy.bits .f32 = 32 ∨ (Rect.block (s := S256x8192) S128x8192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x8192.size a
  hwx2_0 : ∀ i : grid2.Coords, EltTy.bits .f32 = 32 ∨ (Rect.block (s := S256x8192) S256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S8192x128.size a
  hwx2_1 : ∀ i : grid2.Coords, EltTy.bits .i32 = 32 ∨ (Rect.block (s := S8192x128) S256x128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S8192x128.size a
  hwx2_2 : ∀ i : grid2.Coords, EltTy.bits .f32 = 32 ∨ (Rect.block (s := S8192x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S8192.size a
  hwx2_3 : ∀ i : grid2.Coords, EltTy.bits .f32 = 32 ∨ (Rect.block (s := S8192) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x8192.size a
  hwx2_4 : ∀ i : grid2.Coords, EltTy.bits .f32 = 32 ∨ (Rect.block (s := S256x8192) S256x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x8192.size a ≤ S256x8192.size a
  hwx3_0 : ∀ i : grid3.Coords, EltTy.bits .f32 = 32 ∨ (Rect.block (s := S256x8192) S128x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192.size a ≤ S8192.size a
  hwx3_1 : ∀ i : grid3.Coords, EltTy.bits .f32 = 32 ∨ (Rect.block (s := S8192) S8192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192.size a ≤ S8192.size a
  hwx3_2 : ∀ i : grid3.Coords, EltTy.bits .f32 = 32 ∨ (Rect.block (s := S8192) S8192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x8192.size a ≤ S256x8192.size a
  hwx3_3 : ∀ i : grid3.Coords, EltTy.bits .f32 = 32 ∨ (Rect.block (s := S256x8192) S128x8192.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x8192.size a
  hwx4_0 : ∀ i : grid4.Coords, EltTy.bits .f32 = 32 ∨ (Rect.block (s := S256x8192) S256x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S4096x128.size a
  hwx4_1 : ∀ i : grid4.Coords, EltTy.bits .i32 = 32 ∨ (Rect.block (s := S4096x128) S256x128.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S4096x128.size a
  hwx4_2 : ∀ i : grid4.Coords, EltTy.bits .f32 = 32 ∨ (Rect.block (s := S4096x128) S256x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S4096.size a
  hwx4_3 : ∀ i : grid4.Coords, EltTy.bits .f32 = 32 ∨ (Rect.block (s := S4096) S256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x4096.size a
  hwx4_4 : ∀ i : grid4.Coords, EltTy.bits .f32 = 32 ∨ (Rect.block (s := S256x4096) S256x256.size (cc4_transform_4 i) (hinb4_4 i)).WholeWords (EltTy.packing .f32)

variable [Facts₀]

def dot_S256x128_S256x128_S256x256_1_1_0_0_n_n : DotDims S256x128 S256x128 S256x256 where
  lhsContracting := [1]
  rhsContracting := [1]
  lhsNonContracting := [0]
  rhsNonContracting := [0]
  lhsBatch := []
  rhsBatch := []
  wf := dot_S256x128_S256x128_S256x256_1_1_0_0_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S256x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2) S128x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S8192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S8192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S128x8192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v3) S256x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S256x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v4) S256x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S256x3200 : Shape := ⟨2, ![256, 3200]⟩
abbrev S8192x128 : Shape := ⟨2, ![8192, 128]⟩
abbrev S8192 : Shape := ⟨1, ![8192]⟩
abbrev S4096x128 : Shape := ⟨2, ![4096, 128]⟩
abbrev S4096 : Shape := ⟨1, ![4096]⟩
abbrev S_ : Shape := ⟨0, ![]⟩
abbrev S8192x128x1 : Shape := ⟨3, ![8192, 128, 1]⟩
abbrev S1 : Shape := ⟨1, ![1]⟩
abbrev S1x1x1 : Shape := ⟨3, ![1, 1, 1]⟩
abbrev S256x8192x128 : Shape := ⟨3, ![256, 8192, 128]⟩
abbrev S1x8192x128 : Shape := ⟨3, ![1, 8192, 128]⟩
abbrev S256x8192 : Shape := ⟨2, ![256, 8192]⟩
abbrev S1x8192 : Shape := ⟨2, ![1, 8192]⟩
abbrev S256 : Shape := ⟨1, ![256]⟩
abbrev S256x1 : Shape := ⟨2, ![256, 1]⟩
abbrev S4096x128x1 : Shape := ⟨3, ![4096, 128, 1]⟩
abbrev S256x4096x128 : Shape := ⟨3, ![256, 4096, 128]⟩
abbrev S1x4096x128 : Shape := ⟨3, ![1, 4096, 128]⟩
abbrev S256x4096 : Shape := ⟨2, ![256, 4096]⟩
abbrev S1x4096 : Shape := ⟨2, ![1, 4096]⟩
abbrev S256x256x16 : Shape := ⟨3, ![256, 256, 16]⟩
abbrev S256x256 : Shape := ⟨2, ![256, 256]⟩

abbrev nBuf : Space → Nat
  | .hbm => 219
  | .vmem => 0
  | .smem => 0
  | _ => 0

abbrev hbmTy0_0 (i : Nat) : BufTy := match i % 128 with
  | 0 => ⟨S256x3200, .f32⟩
  | 1 => ⟨S8192x128, .i32⟩
  | 2 => ⟨S8192x128, .f32⟩
  | 3 => ⟨S8192, .f32⟩
  | 4 => ⟨S8192, .f32⟩
  | 5 => ⟨S8192, .f32⟩
  | 6 => ⟨S8192x128, .i32⟩
  | 7 => ⟨S8192x128, .f32⟩
  | 8 => ⟨S8192, .f32⟩
  | 9 => ⟨S8192, .f32⟩
  | 10 => ⟨S8192, .f32⟩
  | 11 => ⟨S4096x128, .i32⟩
  | 12 => ⟨S4096x128, .f32⟩
  | 13 => ⟨S4096, .f32⟩
  | 14 => ⟨S_, .i32⟩
  | 15 => ⟨S8192x128, .i32⟩
  | 16 => ⟨S8192x128, .i1⟩
  | 17 => ⟨S_, .i32⟩
  | 18 => ⟨S8192x128, .i32⟩
  | 19 => ⟨S8192x128, .i32⟩
  | 20 => ⟨S8192x128, .i32⟩
  | 21 => ⟨S8192x128x1, .i32⟩
  | 22 => ⟨S1, .i32⟩
  | 23 => ⟨S_, .i32⟩
  | 24 => ⟨S8192x128x1, .i32⟩
  | 25 => ⟨S8192x128x1, .i1⟩
  | 26 => ⟨S1x1x1, .i32⟩
  | 27 => ⟨S8192x128x1, .i32⟩
  | 28 => ⟨S8192x128x1, .i1⟩
  | 29 => ⟨S8192x128x1, .i1⟩
  | 30 => ⟨S_, .i1⟩
  | 31 => ⟨S8192x128, .i1⟩
  | 32 => ⟨S256x8192x128, .f32⟩
  | 33 => ⟨S256x8192x128, .i1⟩
  | 34 => ⟨S_, .f32⟩
  | 35 => ⟨S256x8192x128, .f32⟩
  | 36 => ⟨S256x8192x128, .f32⟩
  | 37 => ⟨S8192x128, .f32⟩
  | 38 => ⟨S8192x128, .f32⟩
  | 39 => ⟨S_, .f32⟩
  | 40 => ⟨S8192x128, .f32⟩
  | 41 => ⟨S8192x128, .f32⟩
  | 42 => ⟨S_, .f32⟩
  | 43 => ⟨S8192x128, .f32⟩
  | 44 => ⟨S8192x128, .f32⟩
  | 45 => ⟨S1x8192x128, .f32⟩
  | 46 => ⟨S256x8192x128, .f32⟩
  | 47 => ⟨S256x8192x128, .f32⟩
  | 48 => ⟨S_, .f32⟩
  | 49 => ⟨S256x8192, .f32⟩
  | 50 => ⟨S1x8192, .f32⟩
  | 51 => ⟨S256x8192, .f32⟩
  | 52 => ⟨S256x8192, .f32⟩
  | 53 => ⟨S256x8192, .f32⟩
  | 54 => ⟨S256x8192, .f32⟩
  | 55 => ⟨S_, .f32⟩
  | 56 => ⟨S256x8192, .f32⟩
  | 57 => ⟨S256x8192, .f32⟩
  | 58 => ⟨S_, .f32⟩
  | 59 => ⟨S256x8192, .f32⟩
  | 60 => ⟨S256x8192, .f32⟩
  | 61 => ⟨S_, .f32⟩
  | 62 => ⟨S256, .f32⟩
  | 63 => ⟨S256x1, .f32⟩
  | 64 => ⟨S_, .f32⟩
  | 65 => ⟨S256x1, .f32⟩
  | 66 => ⟨S256x1, .f32⟩
  | 67 => ⟨S256x8192, .f32⟩
  | 68 => ⟨S256x8192, .f32⟩
  | 69 => ⟨S256x8192, .f32⟩
  | 70 => ⟨S_, .f32⟩
  | 71 => ⟨S256, .f32⟩
  | 72 => ⟨S256x1, .f32⟩
  | 73 => ⟨S_, .f32⟩
  | 74 => ⟨S256x1, .f32⟩
  | 75 => ⟨S256x1, .f32⟩
  | 76 => ⟨S256x8192, .f32⟩
  | 77 => ⟨S256x8192, .f32⟩
  | 78 => ⟨S_, .f32⟩
  | 79 => ⟨S256x1, .f32⟩
  | 80 => ⟨S256x1, .f32⟩
  | 81 => ⟨S256x1, .f32⟩
  | 82 => ⟨S256x8192, .f32⟩
  | 83 => ⟨S256x8192, .f32⟩
  | 84 => ⟨S1x8192, .f32⟩
  | 85 => ⟨S256x8192, .f32⟩
  | 86 => ⟨S256x8192, .f32⟩
  | 87 => ⟨S1x8192, .f32⟩
  | 88 => ⟨S256x8192, .f32⟩
  | 89 => ⟨S256x8192, .f32⟩
  | 90 => ⟨S_, .i32⟩
  | 91 => ⟨S8192x128, .i32⟩
  | 92 => ⟨S8192x128, .i1⟩
  | 93 => ⟨S_, .i32⟩
  | 94 => ⟨S8192x128, .i32⟩
  | 95 => ⟨S8192x128, .i32⟩
  | 96 => ⟨S8192x128, .i32⟩
  | 97 => ⟨S8192x128x1, .i32⟩
  | 98 => ⟨S1, .i32⟩
  | 99 => ⟨S_, .i32⟩
  | 100 => ⟨S8192x128x1, .i32⟩
  | 101 => ⟨S8192x128x1, .i1⟩
  | 102 => ⟨S1x1x1, .i32⟩
  | 103 => ⟨S8192x128x1, .i32⟩
  | 104 => ⟨S8192x128x1, .i1⟩
  | 105 => ⟨S8192x128x1, .i1⟩
  | 106 => ⟨S_, .i1⟩
  | 107 => ⟨S8192x128, .i1⟩
  | 108 => ⟨S256x8192x128, .f32⟩
  | 109 => ⟨S256x8192x128, .i1⟩
  | 110 => ⟨S_, .f32⟩
  | 111 => ⟨S256x8192x128, .f32⟩
  | 112 => ⟨S256x8192x128, .f32⟩
  | 113 => ⟨S8192x128, .f32⟩
  | 114 => ⟨S8192x128, .f32⟩
  | 115 => ⟨S_, .f32⟩
  | 116 => ⟨S8192x128, .f32⟩
  | 117 => ⟨S8192x128, .f32⟩
  | 118 => ⟨S_, .f32⟩
  | 119 => ⟨S8192x128, .f32⟩
  | 120 => ⟨S8192x128, .f32⟩
  | 121 => ⟨S1x8192x128, .f32⟩
  | 122 => ⟨S256x8192x128, .f32⟩
  | 123 => ⟨S256x8192x128, .f32⟩
  | 124 => ⟨S_, .f32⟩
  | 125 => ⟨S256x8192, .f32⟩
  | 126 => ⟨S1x8192, .f32⟩
  | 127 => ⟨S256x8192, .f32⟩
  | _ => ⟨S256x3200, .f32⟩

abbrev hbmTy0_1 (i : Nat) : BufTy := match i % 128 with
  | 0 => ⟨S256x8192, .f32⟩
  | 1 => ⟨S256x8192, .f32⟩
  | 2 => ⟨S256x8192, .f32⟩
  | 3 => ⟨S_, .f32⟩
  | 4 => ⟨S256x8192, .f32⟩
  | 5 => ⟨S256x8192, .f32⟩
  | 6 => ⟨S_, .f32⟩
  | 7 => ⟨S256x8192, .f32⟩
  | 8 => ⟨S256x8192, .f32⟩
  | 9 => ⟨S_, .f32⟩
  | 10 => ⟨S256, .f32⟩
  | 11 => ⟨S256x1, .f32⟩
  | 12 => ⟨S_, .f32⟩
  | 13 => ⟨S256x1, .f32⟩
  | 14 => ⟨S256x1, .f32⟩
  | 15 => ⟨S256x8192, .f32⟩
  | 16 => ⟨S256x8192, .f32⟩
  | 17 => ⟨S256x8192, .f32⟩
  | 18 => ⟨S_, .f32⟩
  | 19 => ⟨S256, .f32⟩
  | 20 => ⟨S256x1, .f32⟩
  | 21 => ⟨S_, .f32⟩
  | 22 => ⟨S256x1, .f32⟩
  | 23 => ⟨S256x1, .f32⟩
  | 24 => ⟨S256x8192, .f32⟩
  | 25 => ⟨S256x8192, .f32⟩
  | 26 => ⟨S_, .f32⟩
  | 27 => ⟨S256x1, .f32⟩
  | 28 => ⟨S256x1, .f32⟩
  | 29 => ⟨S256x1, .f32⟩
  | 30 => ⟨S256x8192, .f32⟩
  | 31 => ⟨S256x8192, .f32⟩
  | 32 => ⟨S1x8192, .f32⟩
  | 33 => ⟨S256x8192, .f32⟩
  | 34 => ⟨S256x8192, .f32⟩
  | 35 => ⟨S1x8192, .f32⟩
  | 36 => ⟨S256x8192, .f32⟩
  | 37 => ⟨S256x8192, .f32⟩
  | 38 => ⟨S_, .i32⟩
  | 39 => ⟨S4096x128, .i32⟩
  | 40 => ⟨S4096x128, .i1⟩
  | 41 => ⟨S_, .i32⟩
  | 42 => ⟨S4096x128, .i32⟩
  | 43 => ⟨S4096x128, .i32⟩
  | 44 => ⟨S4096x128, .i32⟩
  | 45 => ⟨S4096x128x1, .i32⟩
  | 46 => ⟨S1, .i32⟩
  | 47 => ⟨S_, .i32⟩
  | 48 => ⟨S4096x128x1, .i32⟩
  | 49 => ⟨S4096x128x1, .i1⟩
  | 50 => ⟨S1x1x1, .i32⟩
  | 51 => ⟨S4096x128x1, .i32⟩
  | 52 => ⟨S4096x128x1, .i1⟩
  | 53 => ⟨S4096x128x1, .i1⟩
  | 54 => ⟨S_, .i1⟩
  | 55 => ⟨S4096x128, .i1⟩
  | 56 => ⟨S256x4096x128, .f32⟩
  | 57 => ⟨S256x4096x128, .i1⟩
  | 58 => ⟨S_, .f32⟩
  | 59 => ⟨S256x4096x128, .f32⟩
  | 60 => ⟨S256x4096x128, .f32⟩
  | 61 => ⟨S4096x128, .f32⟩
  | 62 => ⟨S4096x128, .f32⟩
  | 63 => ⟨S_, .f32⟩
  | 64 => ⟨S4096x128, .f32⟩
  | 65 => ⟨S4096x128, .f32⟩
  | 66 => ⟨S_, .f32⟩
  | 67 => ⟨S4096x128, .f32⟩
  | 68 => ⟨S4096x128, .f32⟩
  | 69 => ⟨S1x4096x128, .f32⟩
  | 70 => ⟨S256x4096x128, .f32⟩
  | 71 => ⟨S256x4096x128, .f32⟩
  | 72 => ⟨S_, .f32⟩
  | 73 => ⟨S256x4096, .f32⟩
  | 74 => ⟨S1x4096, .f32⟩
  | 75 => ⟨S256x4096, .f32⟩
  | 76 => ⟨S256x4096, .f32⟩
  | 77 => ⟨S256x4096, .f32⟩
  | 78 => ⟨S256x4096, .f32⟩
  | 79 => ⟨S_, .f32⟩
  | 80 => ⟨S256x4096, .f32⟩
  | 81 => ⟨S256x4096, .f32⟩
  | 82 => ⟨S_, .f32⟩
  | 83 => ⟨S256x4096, .f32⟩
  | 84 => ⟨S256x4096, .f32⟩
  | 85 => ⟨S256x256x16, .f32⟩
  | 86 => ⟨S_, .f32⟩
  | 87 => ⟨S256x256, .f32⟩
  | 88 => ⟨S_, .f32⟩
  | 89 => ⟨S256x256, .f32⟩
  | 90 => ⟨S256x256, .f32⟩
  | _ => ⟨S256x3200, .f32⟩

abbrev hbmTy (i : Nat) : BufTy := match i / 128 with
  | 0 => hbmTy0_0 i
  | 1 => hbmTy0_1 i
  | _ => ⟨S256x3200, .f32⟩

abbrev bufTy : (tb : Table) → Fin (tcTables nBuf tb) → BufTy
  | .hbm, ⟨i, _⟩ => hbmTy i
  | _, _ => ⟨S256x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_cst : Ref sig .tc := ⟨.hbm, 39, rfl⟩
abbrev main_v3 : Ref sig .tc := ⟨.hbm, 40, rfl⟩
abbrev main_v4 : Ref sig .tc := ⟨.hbm, 41, rfl⟩
abbrev main_cst_0 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst_1 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_2 : Ref sig .tc := ⟨.hbm, 55, rfl⟩
abbrev main_v16 : Ref sig .tc := ⟨.hbm, 56, rfl⟩
abbrev main_v17 : Ref sig .tc := ⟨.hbm, 57, rfl⟩
abbrev main_cst_3 : Ref sig .tc := ⟨.hbm, 58, rfl⟩
abbrev main_v18 : Ref sig .tc := ⟨.hbm, 59, rfl⟩
abbrev main_v19 : Ref sig .tc := ⟨.hbm, 60, rfl⟩
abbrev main_cst_4 : Ref sig .tc := ⟨.hbm, 61, rfl⟩
abbrev main_v20 : Ref sig .tc := ⟨.hbm, 62, rfl⟩
abbrev main_v21 : Ref sig .tc := ⟨.hbm, 63, rfl⟩
abbrev main_cst_5 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_6 : Ref sig .tc := ⟨.hbm, 70, rfl⟩
abbrev main_v27 : Ref sig .tc := ⟨.hbm, 71, rfl⟩
abbrev main_v28 : Ref sig .tc := ⟨.hbm, 72, rfl⟩
abbrev main_cst_7 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_8 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_call1_c : Ref sig .tc := ⟨.hbm, 90, rfl⟩
abbrev main_call1_v0 : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_c_2 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_3 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_call1_cst : Ref sig .tc := ⟨.hbm, 110, rfl⟩
abbrev main_call1_v15 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_cst_9 : Ref sig .tc := ⟨.hbm, 115, rfl⟩
abbrev main_v47 : Ref sig .tc := ⟨.hbm, 116, rfl⟩
abbrev main_v48 : Ref sig .tc := ⟨.hbm, 117, rfl⟩
abbrev main_cst_10 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_cst_11 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_12 : Ref sig .tc := ⟨.hbm, 131, rfl⟩
abbrev main_v60 : Ref sig .tc := ⟨.hbm, 132, rfl⟩
abbrev main_v61 : Ref sig .tc := ⟨.hbm, 133, rfl⟩
abbrev main_cst_13 : Ref sig .tc := ⟨.hbm, 134, rfl⟩
abbrev main_v62 : Ref sig .tc := ⟨.hbm, 135, rfl⟩
abbrev main_v63 : Ref sig .tc := ⟨.hbm, 136, rfl⟩
abbrev main_cst_14 : Ref sig .tc := ⟨.hbm, 137, rfl⟩
abbrev main_v64 : Ref sig .tc := ⟨.hbm, 138, rfl⟩
abbrev main_v65 : Ref sig .tc := ⟨.hbm, 139, rfl⟩
abbrev main_cst_15 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_16 : Ref sig .tc := ⟨.hbm, 146, rfl⟩
abbrev main_v71 : Ref sig .tc := ⟨.hbm, 147, rfl⟩
abbrev main_v72 : Ref sig .tc := ⟨.hbm, 148, rfl⟩
abbrev main_cst_17 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_18 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_call2_c : Ref sig .tc := ⟨.hbm, 166, rfl⟩
abbrev main_call2_v0 : Ref sig .tc := ⟨.hbm, 167, rfl⟩
abbrev main_call2_v1 : Ref sig .tc := ⟨.hbm, 168, rfl⟩
abbrev main_call2_c_0 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_c_1 : Ref sig .tc := ⟨.hbm, 174, rfl⟩
abbrev main_call2_c_2 : Ref sig .tc := ⟨.hbm, 175, rfl⟩
abbrev main_call2_v6 : Ref sig .tc := ⟨.hbm, 176, rfl⟩
abbrev main_call2_v7 : Ref sig .tc := ⟨.hbm, 177, rfl⟩
abbrev main_call2_v8 : Ref sig .tc := ⟨.hbm, 178, rfl⟩
abbrev main_call2_v9 : Ref sig .tc := ⟨.hbm, 179, rfl⟩
abbrev main_call2_v10 : Ref sig .tc := ⟨.hbm, 180, rfl⟩
abbrev main_call2_v11 : Ref sig .tc := ⟨.hbm, 181, rfl⟩
abbrev main_call2_c_3 : Ref sig .tc := ⟨.hbm, 182, rfl⟩
abbrev main_call2_v12 : Ref sig .tc := ⟨.hbm, 183, rfl⟩
abbrev main_call2_v13 : Ref sig .tc := ⟨.hbm, 184, rfl⟩
abbrev main_call2_v14 : Ref sig .tc := ⟨.hbm, 185, rfl⟩
abbrev main_call2_cst : Ref sig .tc := ⟨.hbm, 186, rfl⟩
abbrev main_call2_v15 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_cst_19 : Ref sig .tc := ⟨.hbm, 191, rfl⟩
abbrev main_v91 : Ref sig .tc := ⟨.hbm, 192, rfl⟩
abbrev main_v92 : Ref sig .tc := ⟨.hbm, 193, rfl⟩
abbrev main_cst_20 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_cst_21 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_cst_22 : Ref sig .tc := ⟨.hbm, 207, rfl⟩
abbrev main_v104 : Ref sig .tc := ⟨.hbm, 208, rfl⟩
abbrev main_v105 : Ref sig .tc := ⟨.hbm, 209, rfl⟩
abbrev main_cst_23 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_cst_24 : Ref sig .tc := ⟨.hbm, 214, rfl⟩
abbrev main_v109 : Ref sig .tc := ⟨.hbm, 215, rfl⟩
abbrev main_cst_25 : Ref sig .tc := ⟨.hbm, 216, rfl⟩
abbrev main_v110 : Ref sig .tc := ⟨.hbm, 217, rfl⟩
abbrev main_v111 : Ref sig .tc := ⟨.hbm, 218, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  bcast_S_S8192x128x1 : S_.BroadcastsInDim S8192x128x1 (![] : Fin 0 → Fin S8192x128x1.rank)
  bcast_S1_S1x1x1_2 : S1.BroadcastsInDim S1x1x1 (![2] : Fin 1 → Fin S1x1x1.rank)
  bcast_S1x1x1_S8192x128x1_0_1_2 : S1x1x1.BroadcastsInDim S8192x128x1 (![0, 1, 2] : Fin 3 → Fin S8192x128x1.rank)
  reducesTo_S8192x128x1_S8192x128_d2 : S8192x128x1.ReducesTo [2] S8192x128
  h_S_ : 0 < S_.numel
  bcast_S8192x128_S256x8192x128_1_2 : S8192x128.BroadcastsInDim S256x8192x128 (![1, 2] : Fin 2 → Fin S256x8192x128.rank)
  bcast_S_S256x8192x128 : S_.BroadcastsInDim S256x8192x128 (![] : Fin 0 → Fin S256x8192x128.rank)
  bcast_S8192x128_S1x8192x128_1_2 : S8192x128.BroadcastsInDim S1x8192x128 (![1, 2] : Fin 2 → Fin S1x8192x128.rank)
  bcast_S1x8192x128_S256x8192x128_0_1_2 : S1x8192x128.BroadcastsInDim S256x8192x128 (![0, 1, 2] : Fin 3 → Fin S256x8192x128.rank)
  reducesTo_S256x8192x128_S256x8192_d2 : S256x8192x128.ReducesTo [2] S256x8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  bcast_S_S256x8192 : S_.BroadcastsInDim S256x8192 (![] : Fin 0 → Fin S256x8192.rank)
  reducesTo_S256x8192_S256_d1 : S256x8192.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x8192_0_1 : S256x1.BroadcastsInDim S256x8192 (![0, 1] : Fin 2 → Fin S256x8192.rank)
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  bcast_S1x1x1_S4096x128x1_0_1_2 : S1x1x1.BroadcastsInDim S4096x128x1 (![0, 1, 2] : Fin 3 → Fin S4096x128x1.rank)
  reducesTo_S4096x128x1_S4096x128_d2 : S4096x128x1.ReducesTo [2] S4096x128
  bcast_S4096x128_S256x4096x128_1_2 : S4096x128.BroadcastsInDim S256x4096x128 (![1, 2] : Fin 2 → Fin S256x4096x128.rank)
  bcast_S_S256x4096x128 : S_.BroadcastsInDim S256x4096x128 (![] : Fin 0 → Fin S256x4096x128.rank)
  bcast_S4096x128_S1x4096x128_1_2 : S4096x128.BroadcastsInDim S1x4096x128 (![1, 2] : Fin 2 → Fin S1x4096x128.rank)
  bcast_S1x4096x128_S256x4096x128_0_1_2 : S1x4096x128.BroadcastsInDim S256x4096x128 (![0, 1, 2] : Fin 3 → Fin S256x4096x128.rank)
  reducesTo_S256x4096x128_S256x4096_d2 : S256x4096x128.ReducesTo [2] S256x4096
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S256x4096 : S_.BroadcastsInDim S256x4096 (![] : Fin 0 → Fin S256x4096.rank)
  shapeCasts_S256x4096_S256x256x16 : S256x4096.ShapeCasts S256x256x16
  reducesTo_S256x256x16_S256x256_d2 : S256x256x16.ReducesTo [2] S256x256
  bcast_S_S256x256 : S_.BroadcastsInDim S256x256 (![] : Fin 0 → Fin S256x256.rank)
  gather_S256x3200_S8192x128x1_S256x8192x128_0_1_n_n_1_2_2561_wf : GatherDims.WF S256x3200 S8192x128x1 S256x8192x128 [0] [1] [] [1] [] 2 ![256, 1]
  gather_S256x8192_S8192x128x1_S256x8192x128_0_1_n_n_1_2_2561_wf : GatherDims.WF S256x8192 S8192x128x1 S256x8192x128 [0] [1] [] [1] [] 2 ![256, 1]
  gather_S256x8192_S4096x128x1_S256x4096x128_0_1_n_n_1_2_2561_wf : GatherDims.WF S256x8192 S4096x128x1 S256x4096x128 [0] [1] [] [1] [] 2 ![256, 1]

variable [Facts₀]

def gather_S256x3200_S8192x128x1_S256x8192x128_0_1_n_n_1_2_2561 : GatherDims S256x3200 S8192x128x1 S256x8192x128 where
  offsetDims := [0]
  collapsedSliceDims := [1]
  operandBatchingDims := []
  startIndicesBatchingDims := []
  startIndexMap := [1]
  indexVectorDim := 2
  sliceSizes := ![256, 1]
  wf := gather_S256x3200_S8192x128x1_S256x8192x128_0_1_n_n_1_2_2561_wf
def gather_S256x8192_S8192x128x1_S256x8192x128_0_1_n_n_1_2_2561 : GatherDims S256x8192 S8192x128x1 S256x8192x128 where
  offsetDims := [0]
  collapsedSliceDims := [1]
  operandBatchingDims := []
  startIndicesBatchingDims := []
  startIndexMap := [1]
  indexVectorDim := 2
  sliceSizes := ![256, 1]
  wf := gather_S256x8192_S8192x128x1_S256x8192x128_0_1_n_n_1_2_2561_wf
def gather_S256x8192_S4096x128x1_S256x4096x128_0_1_n_n_1_2_2561 : GatherDims S256x8192 S4096x128x1 S256x4096x128 where
  offsetDims := [0]
  collapsedSliceDims := [1]
  operandBatchingDims := []
  startIndicesBatchingDims := []
  startIndexMap := [1]
  indexVectorDim := 2
  sliceSizes := ![256, 1]
  wf := gather_S256x8192_S4096x128x1_S256x4096x128_0_1_n_n_1_2_2561_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev cN : EReal := Ideal.ofBits .f32 0x46000000#32

abbrev cEps : EReal := Ideal.ofBits .f32 0x2B8CBCCC#32

abbrev c8 : EReal := Ideal.ofBits .f32 0x41000000#32

def pop {n O : ℕ} (x : Fin 256 → Fin n → EReal) (sel : Fin O → Fin 128 → ℕ) (w : Fin O → Fin 128 → EReal)
    (bias : Fin O → EReal) (b : Fin 256) (o : Fin O) : EReal :=
  Ideal.logistic ((∑ p : Fin 128, (if h : sel o p < n then x b ⟨sel o p, h⟩ else 0) * Ideal.logistic (w o p)) - bias o)

def mean {n : ℕ} (h : Fin 256 → Fin n → EReal) (b : Fin 256) : EReal := Ideal.div (∑ k : Fin n, h b k) cN

def var {n : ℕ} (h : Fin 256 → Fin n → EReal) (b : Fin 256) : EReal :=
  Ideal.div (∑ k : Fin n, (h b k - mean h b) * (h b k - mean h b)) cN

def ln {n : ℕ} (h : Fin 256 → Fin n → EReal) (g be : Fin n → EReal) (b : Fin 256) (j : Fin n) : EReal :=
  (h b j - mean h b) * Ideal.rsqrt (var h b + cEps) * g j + be j

def tail (h : Fin 256 → Fin 4096 → EReal) (b q : Fin 256) : EReal :=
  (∑ r : Fin 16, h b ⟨q.val * 16 + r.val, by have := q.isLt; have := r.isLt; omega⟩) - c8

def G (x : Fin 256 → Fin 3200 → EReal)
    (sel1 : Fin 8192 → Fin 128 → ℕ) (w1 : Fin 8192 → Fin 128 → EReal) (b1 g1 be1 : Fin 8192 → EReal)
    (sel2 : Fin 8192 → Fin 128 → ℕ) (w2 : Fin 8192 → Fin 128 → EReal) (b2 g2 be2 : Fin 8192 → EReal)
    (sel3 : Fin 4096 → Fin 128 → ℕ) (w3 : Fin 4096 → Fin 128 → EReal) (b3 : Fin 4096 → EReal) :
    Fin 256 → Fin 256 → EReal :=
  tail (pop (ln (pop (ln (pop x sel1 w1 b1) g1 be1) sel2 w2 b2) g2 be2) sel3 w3 b3)

abbrev at2 {α : Type} {n0 n1 : ℕ} (a : (⟨2, ![n0, n1]⟩ : Shape).Idx → α) : Fin n0 → Fin n1 → α := fun i j => a (ix2 i j)

abbrev at1 {α : Type} {n : ℕ} (a : (⟨1, ![n]⟩ : Shape).Idx → α) : Fin n → α := fun i => a (ix1 i)

abbrev nat2 {n0 n1 : ℕ} (a : (⟨2, ![n0, n1]⟩ : Shape).Idx → BitVec 32) : Fin n0 → Fin n1 → ℕ := fun i j => (a (ix2 i j)).toNat

def GArr (a0 : (⟨2, ![256, 3200]⟩ : Shape).Idx → EReal)
    (a1 : (⟨2, ![8192, 128]⟩ : Shape).Idx → BitVec 32) (a2 : (⟨2, ![8192, 128]⟩ : Shape).Idx → EReal)
    (a3 a4 a5 : (⟨1, ![8192]⟩ : Shape).Idx → EReal)
    (a6 : (⟨2, ![8192, 128]⟩ : Shape).Idx → BitVec 32) (a7 : (⟨2, ![8192, 128]⟩ : Shape).Idx → EReal)
    (a8 a9 a10 : (⟨1, ![8192]⟩ : Shape).Idx → EReal)
    (a11 : (⟨2, ![4096, 128]⟩ : Shape).Idx → BitVec 32) (a12 : (⟨2, ![4096, 128]⟩ : Shape).Idx → EReal)
    (a13 : (⟨1, ![4096]⟩ : Shape).Idx → EReal) : (⟨2, ![256, 256]⟩ : Shape).Idx → EReal :=
  fun i => G (at2 a0) (nat2 a1) (at2 a2) (at1 a3) (at1 a4) (at1 a5) (nat2 a6) (at2 a7) (at1 a8) (at1 a9) (at1 a10)
    (nat2 a11) (at2 a12) (at1 a13) (i 0) (i 1)

def InRange {n0 n1 : ℕ} (n : ℕ) (a : (⟨2, ![n0, n1]⟩ : Shape).Idx → BitVec 32) : Prop :=
  ∀ i, 0 ≤ (a i).toInt ∧ (a i).toInt < (n : ℤ)

end Cert.Spec

end
-- ==== Proof.KIPop0Defs.lean ====
import proofs.«409654_j14731737825611_1_alg».proof.Defs
import proofs.«409654_j14731737825611_1_alg».proof.Proof.Gen.KernelIdeal.Skeleton

noncomputable section

namespace Cert.KernelIdeal.Hand
open Idealize.ShloMosaic Idealize.SL.Sem Cert.KernelIdeal Cert.KernelIdeal.Gen

variable {F : FTy → Type} [FloatOps F]

/-- The accumulated block after one input block, as a function of the blocks read: the 128 selection steps, the block product, the sum. -/
def upd0 (i : grid0.Coords) (v3 : Vec F S256x128 .i32) (v4 v6 : Vec F S256x128 .f32)
    (acc : Vec F S256x256 .f32) : FVec F S256x256 .f32 :=
  k0_pay68 v3 (k0_pay3 v4) v6 (k0_pay4 i)
      (k0_pay65 v3 (k0_pay3 v4) (k0_pay4 i)
      (k0_pay62 v3 (k0_pay3 v4) (k0_pay4 i)
      (k0_pay59 v3 (k0_pay3 v4) (k0_pay4 i)
      (k0_pay56 v3 (k0_pay3 v4) (k0_pay4 i)
      (k0_pay53 v3 (k0_pay3 v4) (k0_pay4 i)
      (k0_pay50 v3 (k0_pay3 v4) (k0_pay4 i)
      (k0_pay47 v3 (k0_pay3 v4) (k0_pay4 i)
      (k0_pay44 v3 (k0_pay3 v4) (k0_pay4 i)
      (k0_pay41 v3 (k0_pay3 v4) (k0_pay4 i)
      (k0_pay38 v3 (k0_pay3 v4) (k0_pay4 i)
      (k0_pay35 v3 (k0_pay3 v4) (k0_pay4 i)
      (k0_pay32 v3 (k0_pay3 v4) (k0_pay4 i)
      (k0_pay29 v3 (k0_pay3 v4) (k0_pay4 i)
      (k0_pay26 v3 (k0_pay3 v4) (k0_pay4 i)
      (k0_pay23 v3 (k0_pay3 v4) (k0_pay4 i)
      (k0_pay20 v3 (k0_pay3 v4) (k0_pay4 i)
      (k0_pay17 v3 (k0_pay3 v4) (k0_pay4 i)
      (k0_pay14 v3 (k0_pay3 v4) (k0_pay4 i)
      (k0_pay11 v3 (k0_pay3 v4) (k0_pay4 i)
      (k0_pay8 v3 (k0_pay3 v4) (k0_pay4 i)
      (k0_pay5 i v3 v4)
      (k0_pay6 v4) (k0_pay7 i v3) (Scalar.ofBits .f32 0x00000000#32))
      (k0_pay9 (k0_pay3 v4)) (k0_pay10 v3 (k0_pay4 i)) (Scalar.ofBits .f32 0x00000000#32))
      (k0_pay12 (k0_pay3 v4)) (k0_pay13 v3 (k0_pay4 i)) (Scalar.ofBits .f32 0x00000000#32))
      (k0_pay15 (k0_pay3 v4)) (k0_pay16 v3 (k0_pay4 i)) (Scalar.ofBits .f32 0x00000000#32))
      (k0_pay18 (k0_pay3 v4)) (k0_pay19 v3 (k0_pay4 i)) (Scalar.ofBits .f32 0x00000000#32))
      (k0_pay21 (k0_pay3 v4)) (k0_pay22 v3 (k0_pay4 i)) (Scalar.ofBits .f32 0x00000000#32))
      (k0_pay24 (k0_pay3 v4)) (k0_pay25 v3 (k0_pay4 i)) (Scalar.ofBits .f32 0x00000000#32))
      (k0_pay27 (k0_pay3 v4)) (k0_pay28 v3 (k0_pay4 i)) (Scalar.ofBits .f32 0x00000000#32))
      (k0_pay30 (k0_pay3 v4)) (k0_pay31 v3 (k0_pay4 i)) (Scalar.ofBits .f32 0x00000000#32))
      (k0_pay33 (k0_pay3 v4)) (k0_pay34 v3 (k0_pay4 i)) (Scalar.ofBits .f32 0x00000000#32))
      (k0_pay36 (k0_pay3 v4)) (k0_pay37 v3 (k0_pay4 i)) (Scalar.ofBits .f32 0x00000000#32))
      (k0_pay39 (k0_pay3 v4)) (k0_pay40 v3 (k0_pay4 i)) (Scalar.ofBits .f32 0x00000000#32))
      (k0_pay42 (k0_pay3 v4)) (k0_pay43 v3 (k0_pay4 i)) (Scalar.ofBits .f32 0x00000000#32))
      (k0_pay45 (k0_pay3 v4)) (k0_pay46 v3 (k0_pay4 i)) (Scalar.ofBits .f32 0x00000000#32))
      (k0_pay48 (k0_pay3 v4)) (k0_pay49 v3 (k0_pay4 i)) (Scalar.ofBits .f32 0x00000000#32))
      (k0_pay51 (k0_pay3 v4)) (k0_pay52 v3 (k0_pay4 i)) (Scalar.ofBits .f32 0x00000000#32))
      (k0_pay54 (k0_pay3 v4)) (k0_pay55 v3 (k0_pay4 i)) (Scalar.ofBits .f32 0x00000000#32))
      (k0_pay57 (k0_pay3 v4)) (k0_pay58 v3 (k0_pay4 i)) (Scalar.ofBits .f32 0x00000000#32))
      (k0_pay60 (k0_pay3 v4)) (k0_pay61 v3 (k0_pay4 i)) (Scalar.ofBits .f32 0x00000000#32))
      (k0_pay63 (k0_pay3 v4)) (k0_pay64 v3 (k0_pay4 i)) (Scalar.ofBits .f32 0x00000000#32))
      (k0_pay66 (k0_pay3 v4)) (k0_pay67 v3 (k0_pay4 i)) (Scalar.ofBits .f32 0x00000000#32) acc

/-- The value written to the output block: the gate of the accumulated block minus the bias row. -/
def outv0 (bias : Vec F S256 .f32) (acc : Vec F S256x256 .f32) : FVec F S256x256 .f32 := k0_pay1 bias acc

/-- The accumulated block's initial value. -/
def zero0 : FVec F S256x256 .f32 := k0_pay2

end Cert.KernelIdeal.Hand
end
-- ==== Proof.LibWhole.lean ====
import Idealize.ShloMosaic.Lib.Pipeline.FrameBody
import Idealize.ShloMosaic.Lib.Pipeline.Value

namespace Cert.LibWhole

open Idealize.ShloMosaic

theorem zeroPair : (![0, 0] : Fin 2 → Nat) = fun _ => 0 := funext fun a => by fin_cases a <;> rfl
theorem zeroOne : (![0] : Fin 1 → Nat) = fun _ => 0 := funext fun a => by fin_cases a <;> rfl

variable {sig : RefSig} {κ : Kind} {sp : Space} {S : Shape} {e : EltTy} {Val : EltTy → Type} [∀ e, Nonempty (Val e)]
  (v : View sig κ sp S e) {off : Fin S.rank → Nat} (h : off = fun _ => 0) (inb : ∀ a, off a + S.size a ≤ S.size a)
  (w : S.Idx → Val e) (L : List (View.Piece Val S e))

include h

-- The last store covers the whole shape, so it alone decides what is read back.
theorem read_writes_whole_head (f : v.ty.Contents Val) :
    v.read Val (v.writes Val f ((⟨Rect.unit off S.size inb, w⟩ : View.Piece Val S e) :: L)) = w :=
  (View.read_writes_eq_canon v f _ fun y => ⟨_, List.Mem.head _, View.mem_set_unit_zero h inb y⟩).trans
    (View.canon_cons_unit_zero h inb w L)

theorem readCov_whole_head :
    v.readCov ((⟨Rect.unit off S.size inb, w⟩ : View.Piece Val S e) :: L) (Rect.unit off S.size inb).toLoadRect = w := by
  rw [View.readCov_eq_canon_ld _ _ _ fun y => ⟨_, List.Mem.head _, View.mem_set_unit_zero h inb y⟩,
    View.canon_cons_unit_zero h, View.ld_unit_zero h]

end Cert.LibWhole
-- ==== Proof.KIPop0.lean ====
import proofs.«409654_j14731737825611_1_alg».proof.Proof.Gen.KernelIdeal.Launch
import proofs.«409654_j14731737825611_1_alg».proof.Proof.KIPop0Defs
import proofs.«409654_j14731737825611_1_alg».proof.Proof.LibWhole
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal Cert.KernelIdeal.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev nib0 : ℕ := 25

abbrev cond0 (i : grid0.Coords) : Prop :=
  (Scalar.cmpi .ne (Scalar.extui (Scalar.cmpi .eq (BitVec.ofNat 32 (i 1).val) 0#32)) 0#32) = 1#1

-- The body's branch is taken exactly where a run along the inner grid axis starts.
theorem hcond0 : ∀ t : Fin cfg0.N, cond0 (grid0.coords t) ↔ t.val % nib0 = 0 :=
  (by decide +kernel : ∀ t : Fin grid0.N, cond0 (grid0.coords t) ↔ t.val % nib0 = 0)

-- One point of the body: the scratch block restarts from the initial value where the branch is taken, and goes on from its contents elsewhere.
theorem sound_kernel0 {c : Dev nD} {E : Set ℕ} {i : grid0.Coords}
    {arg2 : Memref sig .tc .vmem S256x128 .f32} {harg2 : arg2.IsWhole} {arg3 : Memref sig .tc .vmem S256x128 .i32} {harg3 : arg3.IsWhole}
    {arg4 : Memref sig .tc .vmem S256x128 .f32} {harg4 : arg4.IsWhole} {arg5 : Memref sig .tc .vmem S256 .f32} {harg5 : arg5.IsWhole}
    {arg6 : Memref sig .tc .vmem S256x256 .f32} {harg6 : arg6.IsWhole} {arg7 : Memref sig .tc .vmem S256x256 .f32} {harg7 : arg7.IsWhole}
    {x0 : Vec F S256x128 .f32} {x1 : Vec F S256x128 .i32} {x2 : Vec F S256x128 .f32} (x3 : Vec F S256 .f32)
    {b a r : Vec F S256x256 .f32} (hr : r = upd0 i x1 x2 x0 (if cond0 i then zero0 else a)) {K : PUnit → sProp 𝕄} :
    iprop(ownsTc c arg2 fullShare x0 ∗ ownsTc c arg3 fullShare x1 ∗ ownsTc c arg4 fullShare x2
        ∗ ownsTc c arg5 fullShare x3 ∗ ownsTc c arg6 fullShare b ∗ ownsTc c arg7 fullShare a
        ∗ (iprop(ownsTc c arg2 fullShare x0 ∗ ownsTc c arg3 fullShare x1 ∗ ownsTc c arg4 fullShare x2
            ∗ ownsTc c arg5 fullShare x3 ∗ ownsTc c arg6 fullShare (outv0 x3 r)
            ∗ ownsTc c arg7 fullShare r) -∗ K ⟨⟩))
      ⊢ wp frame (wpE (defs₀ (F := F)) Variants.none c none) E (cc0__popcnt_kernel i arg2 harg2 arg3 harg3 arg4 harg4 arg5 harg5 arg6 harg6 arg7 harg7) K := by
  subst hr
  sl_unfold [cc0__popcnt_kernel]
  unfold ownsTc owns
  iintro ⟨⟨%f0, %hf0, H0⟩, ⟨%f1, %hf1, H1⟩, ⟨%f2, %hf2, H2⟩, ⟨%f3, %hf3, H3⟩, ⟨%f4, -, H4⟩, ⟨%f5, %hf5, H5⟩, Hk⟩
  subst hf0 hf1 hf2 hf3 hf5
  by_cases hc : cond0 i <;> [rw [if_pos hc]; rw [if_neg hc]] <;>
  · sl_exec (disch := exact hc)
    sl_step
    iapply Hk
    isplitl [H0]; swap; isplitl [H1]; swap; isplitl [H2]; swap; isplitl [H3]; swap; isplitl [H4]
    all_goals iexists _; isplitr; swap; iassumption; ipureintro
    iterate 2
      sl_unfold_words
      simp only [View.readAt_eq_ld, View.ld_unit_zero (S := S256x128) zeroPair, View.ld_unit_zero (S := S256x256) zeroPair, View.ld_unit_zero (S := S256) zeroOne,
        readCov_whole_head (S := S256x256) _ zeroPair, read_writes_whole_head (S := S256x256) _ zeroPair]
      rfl
    all_goals rfl

def step0 (c : Dev nD) (t : Fin cfg0.N) (a : Vec F S256x256 .f32) : FVec F S256x256 .f32 :=
  upd0 (grid0.coords t) (iblk0 V c 1 t) (iblk0 V c 2 t) (iblk0 V c 0 t) a

def acc0 (c : Dev nD) : (n : ℕ) → n < cfg0.N → FVec F S256x256 .f32
  | 0, hn => step0 V c ⟨0, hn⟩ zero0
  | n + 1, hn => step0 V c ⟨n + 1, hn⟩ (if (n + 1) % nib0 = 0 then zero0 else acc0 c n (Nat.lt_of_succ_lt hn))

theorem acc0_reset (c : Dev nD) (t : Fin cfg0.N) (h : t.val % nib0 = 0) :
    acc0 V c t.val t.isLt = upd0 (grid0.coords t) (iblk0 V c 1 t) (iblk0 V c 2 t) (iblk0 V c 0 t) zero0 := by
  obtain ⟨_ | n, hn⟩ := t
  · rfl
  · exact congrArg (step0 V c _) (if_pos h)

theorem acc0_step (c : Dev nD) (t : Fin cfg0.N) (h : ¬t.val % nib0 = 0) :
    acc0 V c t.val t.isLt = upd0 (grid0.coords t) (iblk0 V c 1 t) (iblk0 V c 2 t) (iblk0 V c 0 t)
      (acc0 V c (t.val - 1) (Nat.lt_of_le_of_lt (Nat.sub_le _ _) t.isLt)) := by
  obtain ⟨_ | n, hn⟩ := t
  · exact absurd (Nat.zero_mod _) h
  · exact congrArg (step0 V c _) (if_neg h)

-- Both cases at once: contents d that are the previous point's wherever a run continues give the point's contents.
theorem acc0_eq (c : Dev nD) (t : Fin cfg0.N) (d : Vec F S256x256 .f32)
    (hd : ¬t.val % nib0 = 0 → ∀ hp, d = acc0 V c (t.val - 1) hp) :
    acc0 V c t.val t.isLt = upd0 (grid0.coords t) (iblk0 V c 1 t) (iblk0 V c 2 t) (iblk0 V c 0 t)
      (if cond0 (grid0.coords t) then zero0 else d) := by
  by_cases h : t.val % nib0 = 0
  · rw [if_pos ((hcond0 t).mpr h), acc0_reset V c t h]
  · rw [if_neg (mt (hcond0 t).mp h), acc0_step V c t h, ← hd h]

abbrev scM0 : Memref sig .tc .vmem S256x256 .f32 := Memref.whole cc0_scratch0

abbrev rest0 (c : Dev nD) : sProp 𝕄 := Pipeline.scopedRestBut spec0 c [cc0_scratch0]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outv0 (iblk0 V c 3 t) (acc0 V c t.val t.isLt)
  Φ t := iprop((∃ r, prngReg c r) ∗ rest0 (F := F) c
    ∗ ∃ d, ⌜¬t.val % nib0 = 0 → ∀ hp, d = acc0 V c (t.val - 1) hp⌝ ∗ ownsTc c scM0 fullShare d)
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = outv0 (iblk0 V c 3 t) (acc0 V c t.val t.isLt) := rfl

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t) := by
  refine ⟨?_, ?_, ?_, ?_⟩ <;> exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before0 V c t]
  dsimp only [dat0]
  iintro ⟨⟨Hg, Hr, %d, %hd, Hs⟩, Ho, ⟨%d0, H0⟩, ⟨%d1, H1⟩, ⟨%d2, H2⟩, ⟨%d3, H3⟩, ⟨%d4, H4⟩⟩
  iapply (sound_kernel0 (iblk0 V c 3 t) (acc0_eq V c t d hd))
  iframe H0 H1 H2 H3 H4 Hs
  iintro ⟨H0, H1, H2, H3, H4, Hs⟩
  iframe Hg Hr Ho H0 H1 H2 H3 H4
  iexists _; iframe Hs
  ipureintro; exact fun _ _ => rfl

theorem hin0 (c : Dev nD) (P : sProp 𝕄) :
    iprop((∃ r, prngReg c r) ∗ P
      ∗ Pipeline.scopedRest (Ix := Unit) (Name := ℕ) (U := UR sig nD τ) (Lvl := ℕ) (Val := Elt F) spec0 c) ⊢ (dat0 V c).Φ 0 := by
  rw [scopedRest0_split]
  simp only [dat0, owns_whole]
  iintro ⟨Hg, -, ⟨%d, Hs⟩, Hr⟩
  iframe Hg Hr
  iexists d; iframe Hs
  ipureintro; exact fun h => absurd (Nat.zero_mod _) h

theorem hout0 (c : Dev nD) :
    (dat0 V c).Φ (Fin.last cfg0.N) ⊢ iprop((∃ r, prngReg c r)
      ∗ (Pipeline.ownSems0 (fun k : PEmpty => k.elim) c : sProp 𝕄)
      ∗ Pipeline.scopedRest (Ix := Unit) (Name := ℕ) (U := UR sig nD τ) (Lvl := ℕ) (Val := Elt F) spec0 c) := by
  rw [Pipeline.ownSems0_none, scopedRest0_split]
  simp only [dat0, owns_whole]
  iintro ⟨Hg, Hr, %d, -, Hs⟩
  iframe Hg Hr
  isplitr; · iempintro
  iexists d; iexact Hs

end Cert.KernelIdeal.Hand

end
-- ==== Proof.KILn1.lean ====
import proofs.«409654_j14731737825611_1_alg».proof.Proof.Gen.KernelIdeal.Launch
import proofs.«409654_j14731737825611_1_alg».proof.Proof.Gen.KernelIdeal.Skeleton
import proofs.«409654_j14731737825611_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S128x8192 := Rect.unit (s := S128x8192) ![0, 0] S128x8192.size inb_S128x8192_S128x8192_0_0
abbrev r1_1 : Rect S8192 := Rect.unit (s := S8192) ![0] S8192.size inb_S8192_S8192_0

theorem zeroOff1_0 : (![0, 0] : Fin 2 → Nat) = fun _ => 0 := funext fun a => by fin_cases a <;> rfl
theorem zeroOff1_1 : (![0] : Fin 1 → Nat) = fun _ => 0 := funext fun a => by fin_cases a; rfl

-- a store through the whole rectangle leaves its payload; a load through it reads the contents
theorem out1_3_eq (x0 : Vec F S128x8192 .f32) (x1 x2 : Vec F S8192 .f32) :
    View.canon ([⟨r1_0, k1_pay1 (View.ld x0 r1_0) (View.ld x1 r1_1) (View.ld x2 r1_1)⟩] : List (View.Piece (Elt F) S128x8192 .f32))
      = k1_pay1 x0 x1 x2 := by
  rw [View.canon_unit_zero zeroOff1_0, View.ld_unit_zero zeroOff1_0, View.ld_unit_zero zeroOff1_1, View.ld_unit_zero zeroOff1_1]

-- the body reads the three inputs whole and stores the payload over the whole output
theorem sound_kernel1 (c : Dev nD) (E : Set ℕ) (i : grid1.Coords)
    (arg1 : Memref sig .tc .vmem S128x8192 .f32) (harg1 : arg1.IsWhole) (arg2 : Memref sig .tc .vmem S8192 .f32) (harg2 : arg2.IsWhole)
    (arg3 : Memref sig .tc .vmem S8192 .f32) (harg3 : arg3.IsWhole) (arg4 : Memref sig .tc .vmem S128x8192 .f32) (harg4 : arg4.IsWhole)
    (x0 : Vec F S128x8192 .f32) (x1 x2 : Vec F S8192 .f32) (K : PUnit → sProp 𝕄) :
    iprop(owns c.tc arg1 fullShare x0 ∗ owns c.tc arg2 fullShare x1 ∗ owns c.tc arg3 fullShare x2
        ∗ (∃ d, owns c.tc arg4 fullShare d)
        ∗ (iprop(owns c.tc arg1 fullShare x0 ∗ owns c.tc arg2 fullShare x1 ∗ owns c.tc arg3 fullShare x2
            ∗ owns c.tc arg4 fullShare (k1_pay1 x0 x1 x2)) -∗ K ⟨⟩))
      ⊢ wp frame (wpE (defs₀ (F := F)) Variants.none c none) E (cc1__ln_kernel i arg1 harg1 arg2 harg2 arg3 harg3 arg4 harg4) K := by
  rw [← out1_3_eq x0 x1 x2]
  simp only [cc1__ln_kernel_eq_skeleton]; unfold cc1__ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ fun y => ⟨_, List.mem_singleton_self _, View.mem_set_unit_zero zeroOff1_0 inb_S128x8192_S128x8192_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = k1_pay1 (iblk1 V c 0 t) (iblk1 V c 1 t) (iblk1 V c 2 t) := rfl

-- the body leaves each input block in place, so it is the entry array's block at every point
theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;>
    exact fun d => ((dat1 V c).before_in_eq_fetched _ rfl (fun _ => rfl) (fun _ _ _ => rfl) (fun _ => rfl) t d).trans rfl

-- the inputs are their blocks, so the body's triple applies; everything else is framed
theorem body_obligation1 (c : Dev nD) : BodyObligation (dat1 (F := F) V c) (defs₀ (F := F)) Variants.none () Set.univ := fun t => by
  rw [bigSep_W1, bigSep_W1]
  obtain ⟨b0, b1, b2⟩ := before1 V c t
  change _ ⊢ wp _ _ _ (bodyAt1 t) fun _ => iprop((dat1 V c).Φ t.castSucc ∗ (dat1 V c).owesAt () t.castSucc
    ∗ owns c.tc (st1_0 t) fullShare (iblk1 V c 0 t) ∗ owns c.tc (st1_1 t) fullShare (iblk1 V c 1 t)
    ∗ owns c.tc (st1_2 t) fullShare (iblk1 V c 2 t)
    ∗ owns c.tc (st1_3 t) fullShare (k1_pay1 (iblk1 V c 0 t) (iblk1 V c 1 t) (iblk1 V c 2 t)))
  iintro ⟨HΦ, Ho, ⟨%d0, H0⟩, ⟨%d1, H1⟩, ⟨%d2, H2⟩, ⟨%d3, H3⟩⟩
  rw [b0, b1, b2]
  iapply sound_kernel1 c Set.univ _ _ _ _ _ _ _ _ _ (iblk1 V c 0 t) (iblk1 V c 1 t) (iblk1 V c 2 t)
  iframe H0 H1 H2
  isplitl [H3]; · iexists _; iexact H3
  iintro ⟨H0, H1, H2, H3⟩
  iframe

end Region1

end Cert.KernelIdeal.Hand

end
-- ==== Proof.KIPop2Defs.lean ====
import proofs.«409654_j14731737825611_1_alg».proof.Proof.Gen.KernelIdeal.Skeleton

noncomputable section

namespace Cert.KernelIdeal.Hand

open Idealize.ShloMosaic Cert.KernelIdeal Cert.KernelIdeal.Gen

variable {F : FTy → Type} [FloatOps F]

def upd2 (i : grid2.Coords) (v3 : Vec F S256x128 .i32) (v4 v6 : Vec F S256x128 .f32) (acc : Vec F S256x256 .f32) :
    FVec F S256x256 .f32 :=
  k2_pay69 v3 (k2_pay3 v4) (k2_pay4 v6) (k2_pay5 i)
      (k2_pay66 v3 (k2_pay3 v4) (k2_pay5 i)
      (k2_pay63 v3 (k2_pay3 v4) (k2_pay5 i)
      (k2_pay60 v3 (k2_pay3 v4) (k2_pay5 i)
      (k2_pay57 v3 (k2_pay3 v4) (k2_pay5 i)
      (k2_pay54 v3 (k2_pay3 v4) (k2_pay5 i)
      (k2_pay51 v3 (k2_pay3 v4) (k2_pay5 i)
      (k2_pay48 v3 (k2_pay3 v4) (k2_pay5 i)
      (k2_pay45 v3 (k2_pay3 v4) (k2_pay5 i)
      (k2_pay42 v3 (k2_pay3 v4) (k2_pay5 i)
      (k2_pay39 v3 (k2_pay3 v4) (k2_pay5 i)
      (k2_pay36 v3 (k2_pay3 v4) (k2_pay5 i)
      (k2_pay33 v3 (k2_pay3 v4) (k2_pay5 i)
      (k2_pay30 v3 (k2_pay3 v4) (k2_pay5 i)
      (k2_pay27 v3 (k2_pay3 v4) (k2_pay5 i)
      (k2_pay24 v3 (k2_pay3 v4) (k2_pay5 i)
      (k2_pay21 v3 (k2_pay3 v4) (k2_pay5 i)
      (k2_pay18 v3 (k2_pay3 v4) (k2_pay5 i)
      (k2_pay15 v3 (k2_pay3 v4) (k2_pay5 i)
      (k2_pay12 v3 (k2_pay3 v4) (k2_pay5 i)
      (k2_pay9 v3 (k2_pay3 v4) (k2_pay5 i)
      (k2_pay6 i v3 v4)
      (k2_pay7 v4) (k2_pay8 i v3))
      (k2_pay10 (k2_pay3 v4)) (k2_pay11 v3 (k2_pay5 i)))
      (k2_pay13 (k2_pay3 v4)) (k2_pay14 v3 (k2_pay5 i)))
      (k2_pay16 (k2_pay3 v4)) (k2_pay17 v3 (k2_pay5 i)))
      (k2_pay19 (k2_pay3 v4)) (k2_pay20 v3 (k2_pay5 i)))
      (k2_pay22 (k2_pay3 v4)) (k2_pay23 v3 (k2_pay5 i)))
      (k2_pay25 (k2_pay3 v4)) (k2_pay26 v3 (k2_pay5 i)))
      (k2_pay28 (k2_pay3 v4)) (k2_pay29 v3 (k2_pay5 i)))
      (k2_pay31 (k2_pay3 v4)) (k2_pay32 v3 (k2_pay5 i)))
      (k2_pay34 (k2_pay3 v4)) (k2_pay35 v3 (k2_pay5 i)))
      (k2_pay37 (k2_pay3 v4)) (k2_pay38 v3 (k2_pay5 i)))
      (k2_pay40 (k2_pay3 v4)) (k2_pay41 v3 (k2_pay5 i)))
      (k2_pay43 (k2_pay3 v4)) (k2_pay44 v3 (k2_pay5 i)))
      (k2_pay46 (k2_pay3 v4)) (k2_pay47 v3 (k2_pay5 i)))
      (k2_pay49 (k2_pay3 v4)) (k2_pay50 v3 (k2_pay5 i)))
      (k2_pay52 (k2_pay3 v4)) (k2_pay53 v3 (k2_pay5 i)))
      (k2_pay55 (k2_pay3 v4)) (k2_pay56 v3 (k2_pay5 i)))
      (k2_pay58 (k2_pay3 v4)) (k2_pay59 v3 (k2_pay5 i)))
      (k2_pay61 (k2_pay3 v4)) (k2_pay62 v3 (k2_pay5 i)))
      (k2_pay64 (k2_pay3 v4)) (k2_pay65 v3 (k2_pay5 i)))
      (k2_pay67 (k2_pay3 v4)) (k2_pay68 v3 (k2_pay5 i)) acc

def outv2 (bias : Vec F S256 .f32) (acc : Vec F S256x256 .f32) : FVec F S256x256 .f32 := k2_pay1 bias acc

def zero2 : FVec F S256x256 .f32 := k2_pay2 (F := F)

end Cert.KernelIdeal.Hand
-- ==== Proof.KIPop2.lean ====
import proofs.«409654_j14731737825611_1_alg».proof.Proof.Gen.KernelIdeal.Launch
import proofs.«409654_j14731737825611_1_alg».proof.Proof.KIPop2Defs
import proofs.«409654_j14731737825611_1_alg».proof.Proof.LibWhole
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal Cert.KernelIdeal.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev nib2 : ℕ := 64

abbrev cond2 (i : grid2.Coords) : Prop :=
  (Scalar.cmpi .ne (Scalar.extui (Scalar.cmpi .eq (BitVec.ofNat 32 (i 1).val) 0#32)) 0#32) = 1#1

-- The body's branch is taken exactly where a run along the inner grid axis starts.
theorem hcond2 : ∀ t : Fin cfg2.N, cond2 (grid2.coords t) ↔ t.val % nib2 = 0 :=
  (by decide +kernel : ∀ t : Fin grid2.N, cond2 (grid2.coords t) ↔ t.val % nib2 = 0)

-- One point of the body: the scratch block restarts from the initial value where the branch is taken, and goes on from its contents elsewhere.
theorem sound_kernel2 {c : Dev nD} {E : Set ℕ} {i : grid2.Coords}
    {arg2 : Memref sig .tc .vmem S256x128 .f32} {harg2 : arg2.IsWhole} {arg3 : Memref sig .tc .vmem S256x128 .i32} {harg3 : arg3.IsWhole}
    {arg4 : Memref sig .tc .vmem S256x128 .f32} {harg4 : arg4.IsWhole} {arg5 : Memref sig .tc .vmem S256 .f32} {harg5 : arg5.IsWhole}
    {arg6 : Memref sig .tc .vmem S256x256 .f32} {harg6 : arg6.IsWhole} {arg7 : Memref sig .tc .vmem S256x256 .f32} {harg7 : arg7.IsWhole}
    {x0 : Vec F S256x128 .f32} {x1 : Vec F S256x128 .i32} {x2 : Vec F S256x128 .f32} (x3 : Vec F S256 .f32)
    {b a r : Vec F S256x256 .f32} (hr : r = upd2 i x1 x2 x0 (if cond2 i then zero2 else a)) {K : PUnit → sProp 𝕄} :
    iprop(ownsTc c arg2 fullShare x0 ∗ ownsTc c arg3 fullShare x1 ∗ ownsTc c arg4 fullShare x2
        ∗ ownsTc c arg5 fullShare x3 ∗ ownsTc c arg6 fullShare b ∗ ownsTc c arg7 fullShare a
        ∗ (iprop(ownsTc c arg2 fullShare x0 ∗ ownsTc c arg3 fullShare x1 ∗ ownsTc c arg4 fullShare x2
            ∗ ownsTc c arg5 fullShare x3 ∗ ownsTc c arg6 fullShare (outv2 x3 r)
            ∗ ownsTc c arg7 fullShare r) -∗ K ⟨⟩))
      ⊢ wp frame (wpE (defs₀ (F := F)) Variants.none c none) E (cc2__popcnt_kernel i arg2 harg2 arg3 harg3 arg4 harg4 arg5 harg5 arg6 harg6 arg7 harg7) K := by
  subst hr
  sl_unfold [cc2__popcnt_kernel]
  unfold ownsTc owns
  iintro ⟨⟨%f0, %hf0, H0⟩, ⟨%f1, %hf1, H1⟩, ⟨%f2, %hf2, H2⟩, ⟨%f3, %hf3, H3⟩, ⟨%f4, -, H4⟩, ⟨%f5, %hf5, H5⟩, Hk⟩
  subst hf0 hf1 hf2 hf3 hf5
  by_cases hc : cond2 i <;> [rw [if_pos hc]; rw [if_neg hc]] <;>
  · sl_exec (disch := exact hc)
    sl_step
    iapply Hk
    isplitl [H0]; swap; isplitl [H1]; swap; isplitl [H2]; swap; isplitl [H3]; swap; isplitl [H4]
    all_goals iexists _; isplitr; swap; iassumption; ipureintro
    iterate 2
      sl_unfold_words
      simp only [View.readAt_eq_ld, View.ld_unit_zero (S := S256x128) zeroPair, View.ld_unit_zero (S := S256x256) zeroPair, View.ld_unit_zero (S := S256) zeroOne,
        readCov_whole_head (S := S256x256) _ zeroPair, read_writes_whole_head (S := S256x256) _ zeroPair]
      rfl
    all_goals rfl

def step2 (c : Dev nD) (t : Fin cfg2.N) (a : Vec F S256x256 .f32) : FVec F S256x256 .f32 :=
  upd2 (grid2.coords t) (iblk2 V c 1 t) (iblk2 V c 2 t) (iblk2 V c 0 t) a

def acc2 (c : Dev nD) : (n : ℕ) → n < cfg2.N → FVec F S256x256 .f32
  | 0, hn => step2 V c ⟨0, hn⟩ zero2
  | n + 1, hn => step2 V c ⟨n + 1, hn⟩ (if (n + 1) % nib2 = 0 then zero2 else acc2 c n (Nat.lt_of_succ_lt hn))

theorem acc2_reset (c : Dev nD) (t : Fin cfg2.N) (h : t.val % nib2 = 0) :
    acc2 V c t.val t.isLt = upd2 (grid2.coords t) (iblk2 V c 1 t) (iblk2 V c 2 t) (iblk2 V c 0 t) zero2 := by
  obtain ⟨_ | n, hn⟩ := t
  · rfl
  · exact congrArg (step2 V c _) (if_pos h)

theorem acc2_step (c : Dev nD) (t : Fin cfg2.N) (h : ¬t.val % nib2 = 0) :
    acc2 V c t.val t.isLt = upd2 (grid2.coords t) (iblk2 V c 1 t) (iblk2 V c 2 t) (iblk2 V c 0 t)
      (acc2 V c (t.val - 1) (Nat.lt_of_le_of_lt (Nat.sub_le _ _) t.isLt)) := by
  obtain ⟨_ | n, hn⟩ := t
  · exact absurd (Nat.zero_mod _) h
  · exact congrArg (step2 V c _) (if_neg h)

-- Both cases at once: contents d that are the previous point's wherever a run continues give the point's contents.
theorem acc2_eq (c : Dev nD) (t : Fin cfg2.N) (d : Vec F S256x256 .f32)
    (hd : ¬t.val % nib2 = 0 → ∀ hp, d = acc2 V c (t.val - 1) hp) :
    acc2 V c t.val t.isLt = upd2 (grid2.coords t) (iblk2 V c 1 t) (iblk2 V c 2 t) (iblk2 V c 0 t)
      (if cond2 (grid2.coords t) then zero2 else d) := by
  by_cases h : t.val % nib2 = 0
  · rw [if_pos ((hcond2 t).mpr h), acc2_reset V c t h]
  · rw [if_neg (mt (hcond2 t).mp h), acc2_step V c t h, ← hd h]

abbrev scM2 : Memref sig .tc .vmem S256x256 .f32 := Memref.whole cc2_scratch0

abbrev rest2 (c : Dev nD) : sProp 𝕄 := Pipeline.scopedRestBut spec2 c [cc2_scratch0]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outv2 (iblk2 V c 3 t) (acc2 V c t.val t.isLt)
  Φ t := iprop((∃ r, prngReg c r) ∗ rest2 (F := F) c
    ∗ ∃ d, ⌜¬t.val % nib2 = 0 → ∀ hp, d = acc2 V c (t.val - 1) hp⌝ ∗ ownsTc c scM2 fullShare d)
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = outv2 (iblk2 V c 3 t) (acc2 V c t.val t.isLt) := rfl

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;> exact (dat2 V c).before_in_eq_fetched _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  simp only [before2 V c t]
  dsimp only [dat2]
  iintro ⟨⟨Hg, Hr, %d, %hd, Hs⟩, Ho, ⟨%d0, H0⟩, ⟨%d1, H1⟩, ⟨%d2, H2⟩, ⟨%d3, H3⟩, ⟨%d4, H4⟩⟩
  iapply (sound_kernel2 (iblk2 V c 3 t) (acc2_eq V c t d hd))
  iframe H0 H1 H2 H3 H4 Hs
  iintro ⟨H0, H1, H2, H3, H4, Hs⟩
  iframe Hg Hr Ho H0 H1 H2 H3 H4
  iexists _; iframe Hs
  ipureintro; exact fun _ _ => rfl

theorem hin2 (c : Dev nD) (P : sProp 𝕄) :
    iprop((∃ r, prngReg c r) ∗ P
      ∗ Pipeline.scopedRest (Ix := Unit) (Name := ℕ) (U := UR sig nD τ) (Lvl := ℕ) (Val := Elt F) spec2 c) ⊢ (dat2 V c).Φ 0 := by
  rw [scopedRest2_split]
  simp only [dat2, owns_whole]
  iintro ⟨Hg, -, ⟨%d, Hs⟩, Hr⟩
  iframe Hg Hr
  iexists d; iframe Hs
  ipureintro; exact fun h => absurd (Nat.zero_mod _) h

theorem hout2 (c : Dev nD) :
    (dat2 V c).Φ (Fin.last cfg2.N) ⊢ iprop((∃ r, prngReg c r)
      ∗ (Pipeline.ownSems0 (fun k : PEmpty => k.elim) c : sProp 𝕄)
      ∗ Pipeline.scopedRest (Ix := Unit) (Name := ℕ) (U := UR sig nD τ) (Lvl := ℕ) (Val := Elt F) spec2 c) := by
  rw [Pipeline.ownSems0_none, scopedRest2_split]
  simp only [dat2, owns_whole]
  iintro ⟨Hg, Hr, %d, -, Hs⟩
  iframe Hg Hr
  isplitr; · iempintro
  iexists d; iexact Hs

end Cert.KernelIdeal.Hand

end
-- ==== Proof.KILn3.lean ====
import proofs.«409654_j14731737825611_1_alg».proof.Proof.KILn1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = k3_pay1 (iblk3 V c 0 t) (iblk3 V c 1 t) (iblk3 V c 2 t) := rfl

-- the body leaves each input block in place, so it is the entry array's block at every point
theorem before3 (c : Dev nD) (t : Fin cfg3.N) : (∀ d, (dat3 V c).before 0 t d = iblk3 V c 0 t)
    ∧ (∀ d, (dat3 V c).before 1 t d = iblk3 V c 1 t) ∧ ∀ d, (dat3 V c).before 2 t d = iblk3 V c 2 t := by
  refine ⟨?_, ?_, ?_⟩ <;>
    exact fun d => ((dat3 V c).before_in_eq_fetched _ rfl (fun _ => rfl) (fun _ _ _ => rfl) (fun _ => rfl) t d).trans rfl

-- this region's kernel is the first normalisation region's: the two skeletons are one term
theorem cc3__ln_kernel_eq : cc3__ln_kernel (F := F) = cc1__ln_kernel (F := F) :=
  cc3__ln_kernel_eq_skeleton.trans (Eq.trans (show cc3__ln_kernel_skel (F := F) = cc1__ln_kernel_skel from rfl) cc1__ln_kernel_eq_skeleton.symm)

-- the inputs are their blocks, so the first region's triple for the body applies; everything else is framed
theorem body_obligation3 (c : Dev nD) : BodyObligation (dat3 (F := F) V c) (defs₀ (F := F)) Variants.none () Set.univ := fun t => by
  rw [bigSep_W3, bigSep_W3]
  obtain ⟨b0, b1, b2⟩ := before3 V c t
  change _ ⊢ wp _ _ _ (bodyAt3 t) fun _ => iprop((dat3 V c).Φ t.castSucc ∗ (dat3 V c).owesAt () t.castSucc
    ∗ owns c.tc (st3_0 t) fullShare (iblk3 V c 0 t) ∗ owns c.tc (st3_1 t) fullShare (iblk3 V c 1 t)
    ∗ owns c.tc (st3_2 t) fullShare (iblk3 V c 2 t)
    ∗ owns c.tc (st3_3 t) fullShare (k1_pay1 (iblk3 V c 0 t) (iblk3 V c 1 t) (iblk3 V c 2 t)))
  unfold bodyAt3; rw [cc3__ln_kernel_eq]
  iintro ⟨HΦ, Ho, ⟨%d0, H0⟩, ⟨%d1, H1⟩, ⟨%d2, H2⟩, ⟨%d3, H3⟩⟩
  rw [b0, b1, b2]
  iapply sound_kernel1 c Set.univ _ _ _ _ _ _ _ _ _ (iblk3 V c 0 t) (iblk3 V c 1 t) (iblk3 V c 2 t)
  iframe H0 H1 H2
  isplitl [H3]; · iexists _; iexact H3
  iintro ⟨H0, H1, H2, H3⟩
  iframe

end Region3

end Cert.KernelIdeal.Hand

end
-- ==== Proof.KIPop4Defs.lean ====
import proofs.«409654_j14731737825611_1_alg».proof.Proof.Gen.KernelIdeal.Skeleton

noncomputable section

namespace Cert.KernelIdeal.Hand

open Idealize.ShloMosaic Cert.KernelIdeal Cert.KernelIdeal.Gen

variable {F : FTy → Type} [FloatOps F]

def upd4 (i : grid4.Coords) (v3 : Vec F S256x128 .i32) (v4 v6 : Vec F S256x128 .f32) (acc : Vec F S256x256 .f32) :
    FVec F S256x256 .f32 :=
  k4_pay69 v3 (k4_pay3 v4) (k4_pay4 v6) (k4_pay5 i)
      (k4_pay66 v3 (k4_pay3 v4) (k4_pay5 i)
      (k4_pay63 v3 (k4_pay3 v4) (k4_pay5 i)
      (k4_pay60 v3 (k4_pay3 v4) (k4_pay5 i)
      (k4_pay57 v3 (k4_pay3 v4) (k4_pay5 i)
      (k4_pay54 v3 (k4_pay3 v4) (k4_pay5 i)
      (k4_pay51 v3 (k4_pay3 v4) (k4_pay5 i)
      (k4_pay48 v3 (k4_pay3 v4) (k4_pay5 i)
      (k4_pay45 v3 (k4_pay3 v4) (k4_pay5 i)
      (k4_pay42 v3 (k4_pay3 v4) (k4_pay5 i)
      (k4_pay39 v3 (k4_pay3 v4) (k4_pay5 i)
      (k4_pay36 v3 (k4_pay3 v4) (k4_pay5 i)
      (k4_pay33 v3 (k4_pay3 v4) (k4_pay5 i)
      (k4_pay30 v3 (k4_pay3 v4) (k4_pay5 i)
      (k4_pay27 v3 (k4_pay3 v4) (k4_pay5 i)
      (k4_pay24 v3 (k4_pay3 v4) (k4_pay5 i)
      (k4_pay21 v3 (k4_pay3 v4) (k4_pay5 i)
      (k4_pay18 v3 (k4_pay3 v4) (k4_pay5 i)
      (k4_pay15 v3 (k4_pay3 v4) (k4_pay5 i)
      (k4_pay12 v3 (k4_pay3 v4) (k4_pay5 i)
      (k4_pay9 v3 (k4_pay3 v4) (k4_pay5 i)
      (k4_pay6 i v3 v4)
      (k4_pay7 v4) (k4_pay8 i v3))
      (k4_pay10 (k4_pay3 v4)) (k4_pay11 v3 (k4_pay5 i)))
      (k4_pay13 (k4_pay3 v4)) (k4_pay14 v3 (k4_pay5 i)))
      (k4_pay16 (k4_pay3 v4)) (k4_pay17 v3 (k4_pay5 i)))
      (k4_pay19 (k4_pay3 v4)) (k4_pay20 v3 (k4_pay5 i)))
      (k4_pay22 (k4_pay3 v4)) (k4_pay23 v3 (k4_pay5 i)))
      (k4_pay25 (k4_pay3 v4)) (k4_pay26 v3 (k4_pay5 i)))
      (k4_pay28 (k4_pay3 v4)) (k4_pay29 v3 (k4_pay5 i)))
      (k4_pay31 (k4_pay3 v4)) (k4_pay32 v3 (k4_pay5 i)))
      (k4_pay34 (k4_pay3 v4)) (k4_pay35 v3 (k4_pay5 i)))
      (k4_pay37 (k4_pay3 v4)) (k4_pay38 v3 (k4_pay5 i)))
      (k4_pay40 (k4_pay3 v4)) (k4_pay41 v3 (k4_pay5 i)))
      (k4_pay43 (k4_pay3 v4)) (k4_pay44 v3 (k4_pay5 i)))
      (k4_pay46 (k4_pay3 v4)) (k4_pay47 v3 (k4_pay5 i)))
      (k4_pay49 (k4_pay3 v4)) (k4_pay50 v3 (k4_pay5 i)))
      (k4_pay52 (k4_pay3 v4)) (k4_pay53 v3 (k4_pay5 i)))
      (k4_pay55 (k4_pay3 v4)) (k4_pay56 v3 (k4_pay5 i)))
      (k4_pay58 (k4_pay3 v4)) (k4_pay59 v3 (k4_pay5 i)))
      (k4_pay61 (k4_pay3 v4)) (k4_pay62 v3 (k4_pay5 i)))
      (k4_pay64 (k4_pay3 v4)) (k4_pay65 v3 (k4_pay5 i)))
      (k4_pay67 (k4_pay3 v4)) (k4_pay68 v3 (k4_pay5 i)) acc

def outv4 (bias : Vec F S256 .f32) (acc : Vec F S256x256 .f32) : FVec F S256x256 .f32 := k4_pay1 bias acc

def zero4 : FVec F S256x256 .f32 := k4_pay2 (F := F)

end Cert.KernelIdeal.Hand
-- ==== Proof.KIPop4.lean ====
import proofs.«409654_j14731737825611_1_alg».proof.Proof.Gen.KernelIdeal.Launch
import proofs.«409654_j14731737825611_1_alg».proof.Proof.KIPop4Defs
import proofs.«409654_j14731737825611_1_alg».proof.Proof.LibWhole
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal Cert.KernelIdeal.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev nib4 : ℕ := 64

abbrev cond4 (i : grid4.Coords) : Prop :=
  (Scalar.cmpi .ne (Scalar.extui (Scalar.cmpi .eq (BitVec.ofNat 32 (i 1).val) 0#32)) 0#32) = 1#1

-- The body's branch is taken exactly where a run along the inner grid axis starts.
theorem hcond4 : ∀ t : Fin cfg4.N, cond4 (grid4.coords t) ↔ t.val % nib4 = 0 :=
  (by decide +kernel : ∀ t : Fin grid4.N, cond4 (grid4.coords t) ↔ t.val % nib4 = 0)

-- One point of the body: the scratch block restarts from the initial value where the branch is taken, and goes on from its contents elsewhere.
theorem sound_kernel4 {c : Dev nD} {E : Set ℕ} {i : grid4.Coords}
    {arg2 : Memref sig .tc .vmem S256x128 .f32} {harg2 : arg2.IsWhole} {arg3 : Memref sig .tc .vmem S256x128 .i32} {harg3 : arg3.IsWhole}
    {arg4 : Memref sig .tc .vmem S256x128 .f32} {harg4 : arg4.IsWhole} {arg5 : Memref sig .tc .vmem S256 .f32} {harg5 : arg5.IsWhole}
    {arg6 : Memref sig .tc .vmem S256x256 .f32} {harg6 : arg6.IsWhole} {arg7 : Memref sig .tc .vmem S256x256 .f32} {harg7 : arg7.IsWhole}
    {x0 : Vec F S256x128 .f32} {x1 : Vec F S256x128 .i32} {x2 : Vec F S256x128 .f32} (x3 : Vec F S256 .f32)
    {b a r : Vec F S256x256 .f32} (hr : r = upd4 i x1 x2 x0 (if cond4 i then zero4 else a)) {K : PUnit → sProp 𝕄} :
    iprop(ownsTc c arg2 fullShare x0 ∗ ownsTc c arg3 fullShare x1 ∗ ownsTc c arg4 fullShare x2
        ∗ ownsTc c arg5 fullShare x3 ∗ ownsTc c arg6 fullShare b ∗ ownsTc c arg7 fullShare a
        ∗ (iprop(ownsTc c arg2 fullShare x0 ∗ ownsTc c arg3 fullShare x1 ∗ ownsTc c arg4 fullShare x2
            ∗ ownsTc c arg5 fullShare x3 ∗ ownsTc c arg6 fullShare (outv4 x3 r)
            ∗ ownsTc c arg7 fullShare r) -∗ K ⟨⟩))
      ⊢ wp frame (wpE (defs₀ (F := F)) Variants.none c none) E (cc4__popcnt_kernel i arg2 harg2 arg3 harg3 arg4 harg4 arg5 harg5 arg6 harg6 arg7 harg7) K := by
  subst hr
  sl_unfold [cc4__popcnt_kernel]
  unfold ownsTc owns
  iintro ⟨⟨%f0, %hf0, H0⟩, ⟨%f1, %hf1, H1⟩, ⟨%f2, %hf2, H2⟩, ⟨%f3, %hf3, H3⟩, ⟨%f4, -, H4⟩, ⟨%f5, %hf5, H5⟩, Hk⟩
  subst hf0 hf1 hf2 hf3 hf5
  by_cases hc : cond4 i <;> [rw [if_pos hc]; rw [if_neg hc]] <;>
  · sl_exec (disch := exact hc)
    sl_step
    iapply Hk
    isplitl [H0]; swap; isplitl [H1]; swap; isplitl [H2]; swap; isplitl [H3]; swap; isplitl [H4]
    all_goals iexists _; isplitr; swap; iassumption; ipureintro
    iterate 2
      sl_unfold_words
      simp only [View.readAt_eq_ld, View.ld_unit_zero (S := S256x128) zeroPair, View.ld_unit_zero (S := S256x256) zeroPair, View.ld_unit_zero (S := S256) zeroOne,
        readCov_whole_head (S := S256x256) _ zeroPair, read_writes_whole_head (S := S256x256) _ zeroPair]
      rfl
    all_goals rfl

def step4 (c : Dev nD) (t : Fin cfg4.N) (a : Vec F S256x256 .f32) : FVec F S256x256 .f32 :=
  upd4 (grid4.coords t) (iblk4 V c 1 t) (iblk4 V c 2 t) (iblk4 V c 0 t) a

def acc4 (c : Dev nD) : (n : ℕ) → n < cfg4.N → FVec F S256x256 .f32
  | 0, hn => step4 V c ⟨0, hn⟩ zero4
  | n + 1, hn => step4 V c ⟨n + 1, hn⟩ (if (n + 1) % nib4 = 0 then zero4 else acc4 c n (Nat.lt_of_succ_lt hn))

theorem acc4_reset (c : Dev nD) (t : Fin cfg4.N) (h : t.val % nib4 = 0) :
    acc4 V c t.val t.isLt = upd4 (grid4.coords t) (iblk4 V c 1 t) (iblk4 V c 2 t) (iblk4 V c 0 t) zero4 := by
  obtain ⟨_ | n, hn⟩ := t
  · rfl
  · exact congrArg (step4 V c _) (if_pos h)

theorem acc4_step (c : Dev nD) (t : Fin cfg4.N) (h : ¬t.val % nib4 = 0) :
    acc4 V c t.val t.isLt = upd4 (grid4.coords t) (iblk4 V c 1 t) (iblk4 V c 2 t) (iblk4 V c 0 t)
      (acc4 V c (t.val - 1) (Nat.lt_of_le_of_lt (Nat.sub_le _ _) t.isLt)) := by
  obtain ⟨_ | n, hn⟩ := t
  · exact absurd (Nat.zero_mod _) h
  · exact congrArg (step4 V c _) (if_neg h)

-- Both cases at once: contents d that are the previous point's wherever a run continues give the point's contents.
theorem acc4_eq (c : Dev nD) (t : Fin cfg4.N) (d : Vec F S256x256 .f32)
    (hd : ¬t.val % nib4 = 0 → ∀ hp, d = acc4 V c (t.val - 1) hp) :
    acc4 V c t.val t.isLt = upd4 (grid4.coords t) (iblk4 V c 1 t) (iblk4 V c 2 t) (iblk4 V c 0 t)
      (if cond4 (grid4.coords t) then zero4 else d) := by
  by_cases h : t.val % nib4 = 0
  · rw [if_pos ((hcond4 t).mpr h), acc4_reset V c t h]
  · rw [if_neg (mt (hcond4 t).mp h), acc4_step V c t h, ← hd h]

abbrev scM4 : Memref sig .tc .vmem S256x256 .f32 := Memref.whole cc4_scratch0

abbrev rest4 (c : Dev nD) : sProp 𝕄 := Pipeline.scopedRestBut spec4 c [cc4_scratch0]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outv4 (iblk4 V c 3 t) (acc4 V c t.val t.isLt)
  Φ t := iprop((∃ r, prngReg c r) ∗ rest4 (F := F) c
    ∗ ∃ d, ⌜¬t.val % nib4 = 0 → ∀ hp, d = acc4 V c (t.val - 1) hp⌝ ∗ ownsTc c scM4 fullShare d)
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = outv4 (iblk4 V c 3 t) (acc4 V c t.val t.isLt) := rfl

theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t) := by
  refine ⟨?_, ?_, ?_, ?_⟩ <;> exact (dat4 V c).before_in_eq_fetched _ rfl (fun _ => rfl) (fun _ _ _ => rfl) (fun _ => rfl) t

theorem body_obligation4 (c : Dev nD) : BodyObligation (dat4 (F := F) V c) (defs₀ (F := F)) Variants.none () Set.univ := fun t => by
  rw [bigSep_W4, bigSep_W4, show (dat4 V c).owesAt () t.succ = (dat4 V c).owesAt () t.castSucc from rfl]
  simp only [before4 V c t]
  dsimp only [dat4]
  iintro ⟨⟨Hg, Hr, %d, %hd, Hs⟩, Ho, ⟨%d0, H0⟩, ⟨%d1, H1⟩, ⟨%d2, H2⟩, ⟨%d3, H3⟩, ⟨%d4, H4⟩⟩
  iapply (sound_kernel4 (iblk4 V c 3 t) (acc4_eq V c t d hd))
  iframe H0 H1 H2 H3 H4 Hs
  iintro ⟨H0, H1, H2, H3, H4, Hs⟩
  iframe Hg Hr Ho H0 H1 H2 H3 H4
  iexists _; iframe Hs
  ipureintro; exact fun _ _ => rfl

theorem hin4 (c : Dev nD) (P : sProp 𝕄) :
    iprop((∃ r, prngReg c r) ∗ P
      ∗ Pipeline.scopedRest (Ix := Unit) (Name := ℕ) (U := UR sig nD τ) (Lvl := ℕ) (Val := Elt F) spec4 c) ⊢ (dat4 V c).Φ 0 := by
  rw [scopedRest4_split]
  simp only [dat4, owns_whole]
  iintro ⟨Hg, -, ⟨%d, Hs⟩, Hr⟩
  iframe Hg Hr
  iexists d; iframe Hs
  ipureintro; exact fun h => absurd (Nat.zero_mod _) h

theorem hout4 (c : Dev nD) :
    (dat4 V c).Φ (Fin.last cfg4.N) ⊢ iprop((∃ r, prngReg c r)
      ∗ (Pipeline.ownSems0 (fun k : PEmpty => k.elim) c : sProp 𝕄)
      ∗ Pipeline.scopedRest (Ix := Unit) (Name := ℕ) (U := UR sig nD τ) (Lvl := ℕ) (Val := Elt F) spec4 c) := by
  rw [Pipeline.ownSems0_none, scopedRest4_split]
  simp only [dat4, owns_whole]
  iintro ⟨Hg, Hr, %d, -, Hs⟩
  iframe Hg Hr
  isplitr; · iempintro
  iexists d; iexact Hs

end Cert.KernelIdeal.Hand

end
-- ==== Proof.KIRegs.lean ====
import proofs.«409654_j14731737825611_1_alg».proof.Proof.Gen.KernelIdeal.Regions
import proofs.«409654_j14731737825611_1_alg».proof.Proof.KIPop0
import proofs.«409654_j14731737825611_1_alg».proof.Proof.KILn1
import proofs.«409654_j14731737825611_1_alg».proof.Proof.KIPop2
import proofs.«409654_j14731737825611_1_alg».proof.Proof.KILn3
import proofs.«409654_j14731737825611_1_alg».proof.Proof.KIPop4
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

private theorem upd_ne (V : Valuation τ sig (Elt F)) {v r : Ref sig .tc} (x) (h : r ≠ v) : Function.update V v x r = V r :=
  Function.update_of_ne (StableHlo.devRef_ne_of_ne h) ..

/-- For `Vk_eq`: the generated valuation updates at the value ours already reads there. -/
private theorem upd_eq {V W : Valuation τ sig (Elt F)} (h : V = W) (v : Ref sig .tc) (x) :
    Function.update V v (Function.update W v x v) = Function.update W v x := by rw [h, Function.update_self]

abbrev U0 : (c : Dev nD) → (b : Ref sig .tc) → Buf (Elt F) ((c : Thread nD τ).loc b) := fun c b => Gen.V0 m c b

def o1 (c : Dev nD) : Buf (Elt F) ((c : Thread nD τ).loc main_v0) := (dat0 (U0 m) c).arrAt 4 cfg0.N
def W1 (c : Dev nD) : Valuation τ sig (Elt F) := Function.update (Gen.V0 m c) main_v0 (o1 m c)
abbrev U1 : (c : Dev nD) → (b : Ref sig .tc) → Buf (Elt F) ((c : Thread nD τ).loc b) := fun c b => W1 m c b
theorem W1_out (c : Dev nD) : W1 m c main_v0 = o1 m c := Function.update_self ..
theorem W1_ne (c : Dev nD) (r : Ref sig .tc) (h : r ≠ main_v0) : W1 m c r = Gen.V0 m c r := upd_ne _ _ h

def o2 (c : Dev nD) : Buf (Elt F) ((c : Thread nD τ).loc main_v1) := (dat1 (U1 m) c).arrAt 3 cfg1.N
def W2 (c : Dev nD) : Valuation τ sig (Elt F) := Function.update (W1 m c) main_v1 (o2 m c)
abbrev U2 : (c : Dev nD) → (b : Ref sig .tc) → Buf (Elt F) ((c : Thread nD τ).loc b) := fun c b => W2 m c b
theorem W2_out (c : Dev nD) : W2 m c main_v1 = o2 m c := Function.update_self ..
theorem W2_ne (c : Dev nD) (r : Ref sig .tc) (h : r ≠ main_v1) : W2 m c r = W1 m c r := upd_ne _ _ h

def o3 (c : Dev nD) : Buf (Elt F) ((c : Thread nD τ).loc main_v2) := (dat2 (U2 m) c).arrAt 4 cfg2.N
def W3 (c : Dev nD) : Valuation τ sig (Elt F) := Function.update (W2 m c) main_v2 (o3 m c)
abbrev U3 : (c : Dev nD) → (b : Ref sig .tc) → Buf (Elt F) ((c : Thread nD τ).loc b) := fun c b => W3 m c b
theorem W3_out (c : Dev nD) : W3 m c main_v2 = o3 m c := Function.update_self ..
theorem W3_ne (c : Dev nD) (r : Ref sig .tc) (h : r ≠ main_v2) : W3 m c r = W2 m c r := upd_ne _ _ h

def o4 (c : Dev nD) : Buf (Elt F) ((c : Thread nD τ).loc main_v3) := (dat3 (U3 m) c).arrAt 3 cfg3.N
def W4 (c : Dev nD) : Valuation τ sig (Elt F) := Function.update (W3 m c) main_v3 (o4 m c)
abbrev U4 : (c : Dev nD) → (b : Ref sig .tc) → Buf (Elt F) ((c : Thread nD τ).loc b) := fun c b => W4 m c b
theorem W4_out (c : Dev nD) : W4 m c main_v3 = o4 m c := Function.update_self ..
theorem W4_ne (c : Dev nD) (r : Ref sig .tc) (h : r ≠ main_v3) : W4 m c r = W3 m c r := upd_ne _ _ h

def o5 (c : Dev nD) : Buf (Elt F) ((c : Thread nD τ).loc main_v4) := (dat4 (U4 m) c).arrAt 4 cfg4.N
def W5 (c : Dev nD) : Valuation τ sig (Elt F) := Function.update (W4 m c) main_v4 (o5 m c)
theorem W5_out (c : Dev nD) : W5 m c main_v4 = o5 m c := Function.update_self ..
theorem W5_ne (c : Dev nD) (r : Ref sig .tc) (h : r ≠ main_v4) : W5 m c r = W4 m c r := upd_ne _ _ h

def outs : Gen.Outs (F := F) := fun J r c => match J with
  | 1 => W1 m c r
  | 2 => W2 m c r
  | 3 => W3 m c r
  | 4 => W4 m c r
  | 5 => W5 m c r
  | _ => m ((c : Thread nD τ).loc r)

theorem V1_eq (c : Dev nD) : Gen.V1 m (outs m) c = W1 m c := upd_eq rfl ..
theorem V2_eq (c : Dev nD) : Gen.V2 m (outs m) c = W2 m c := upd_eq (V1_eq m c) ..
theorem V3_eq (c : Dev nD) : Gen.V3 m (outs m) c = W3 m c := upd_eq (V2_eq m c) ..
theorem V4_eq (c : Dev nD) : Gen.V4 m (outs m) c = W4 m c := upd_eq (V3_eq m c) ..
theorem V5_eq (c : Dev nD) : Gen.V5 m (outs m) c = W5 m c := upd_eq (V4_eq m c) ..

def pdats : (p : Fin 5) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- What the regions' records need of the proof data, whichever the pipeline. -/
private theorem pdats_std : ∀ (p : Fin 5) (c : Dev nD), (∀ w, (pdats m p c).q w = fullShare) ∧ (∀ t, (pdats m p c).owed t = 0)
    ∧ ∀ t, (pdats m p c).recorded t = Set.univ
  | ⟨0, _⟩, _ | ⟨1, _⟩, _ | ⟨2, _⟩, _ | ⟨3, _⟩, _ | ⟨4, _⟩, _ => ⟨fun _ => rfl, fun _ => rfl, fun _ => rfl⟩

/-- Entry and exit of a region whose invariant is `ΦA` at every point. -/
private theorem hinA {gr W : ℕ} (win : Fin W → Pipeline.WinSpec sig gr) (c : Dev nD) (P : sProp 𝕄) :
    iprop((∃ r, prngReg c r) ∗ P ∗ (Pipeline.scopedRest win c : sProp 𝕄))
      ⊢ Pipeline.ΦA win c := by
  unfold Pipeline.ΦA; iintro ⟨Hp, -, Hr⟩; iframe

private theorem houtA {gr W : ℕ} (win : Fin W → Pipeline.WinSpec sig gr) (c : Dev nD) :
    (Pipeline.ΦA win c : sProp 𝕄) ⊢ iprop((∃ r, prngReg c r) ∗ (Pipeline.ownSems0 (fun k : PEmpty => k.elim) c : sProp 𝕄)
      ∗ (Pipeline.scopedRest win c : sProp 𝕄)) := by
  rw [Pipeline.ownSems0_none]; unfold Pipeline.ΦA; iintro ⟨Hr, Hp⟩; iframe; iempintro

set_option backward.isDefEq.respectTransparency.types false

/-- The record of a region whose windows other than `o` are inputs on arrays other than `o`'s: it changes `o`'s array alone. -/
def regOf (p : Fin 5) (lf : Pipeline.LaunchFacts (nD := nD) (τ := τ) cfgs p) (V : Dev nD → Valuation τ sig (Elt F))
    (o : Fin (cfgs p).W)
    (ho : ∀ w, w ≠ o → ((cfgs p).win w).isOut = false ∧ Pipeline.arrRef (cfgs p).spec w ≠ Pipeline.arrRef (cfgs p).spec o)
    (hb : ∀ c, BodyObligation (pdats m p c) (defs₀ (F := F)) 𝒱₀ () Set.univ)
    (hA : ∀ c w, (pdats m p c).A w = V c (Pipeline.arrRef (cfgs p).spec w))
    (hi : ∀ c (P : sProp 𝕄), iprop((∃ r, prngReg c r) ∗ P
      ∗ (Pipeline.scopedRest (cfgs p).spec c : sProp 𝕄)) ⊢ (pdats m p c).Φ 0)
    (hu : ∀ c, (pdats m p c).Φ (Fin.last (cfgs p).N) ⊢ iprop((∃ r, prngReg c r)
      ∗ (Pipeline.ownSems0 (fun k : PEmpty => k.elim) c : sProp 𝕄)
      ∗ (Pipeline.scopedRest (cfgs p).spec c : sProp 𝕄))) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_std m p c).2.1
  pre c := iprop(StableHlo.held (c : Thread nD τ) (Pipeline.ucRefs τ sig) (V c) ∗ R c)
  post c := iprop(StableHlo.held (c : Thread nD τ) (Pipeline.ucRefs τ sig)
    (Function.update (V c) (Pipeline.arrRef (cfgs p).spec o) ((pdats m p c).arrAt o (cfgs p).N)) ∗ R c)
  X c := iprop(∃ r, prngReg c r)
  Y c := iprop(∃ r, prngReg c r)
  Z c := Pipeline.unscopedRest (cfgs p).spec c (V c ·)
  hentry c := by
    have hs := Pipeline.arrays_of_unscopedBufs (pcfgs (F := F)) adm (pdats m) lf.win lf.arr_whole c
      ((pdats m p c).share_full (pdats_std m p c).1) (V c ·) (hA c)
    rw [Pipeline.unscopedBufs_held] at hs
    unfold Pipeline.Dat.owesAt Pipeline.owesWithin Pipeline.Dat.bound Pipeline.prefHeld
    rw [(pdats_std m p c).2.1, (pdats_std m p c).2.2, show (Finset.univ : Finset (Fin 0)) = ∅ from rfl, BI.bigSep_empty]
    iintro ⟨⟨Hub, Hp, %W, HO⟩, -, -⟩
    ihave H := hs $$ Hub
    icases H with ⟨Ha, Hr⟩
    imodintro
    iframe Ha Hp Hr
    isplitr; · iempintro
    iexists W; isplitr; · ipureintro; exact fun _ _ => Or.inl trivial
    iexact HO
  hin c := hi c _
  hout := hu
  hexit c := by
    have hj := Pipeline.unscopedBufs_of_arrays (pcfgs (F := F)) adm lf.win lf.arr_whole c (pdats m)
      ((pdats m p c).share_full (pdats_std m p c).1) (V c ·)
      (Function.update (V c) (Pipeline.arrRef (cfgs p).spec o) ((pdats m p c).arrAt o (cfgs p).N) ·)
      ((pdats m p c).arrAt · (cfgs p).N)
      (fun w => by
        by_cases h : w = o
        · subst h; exact Eq.symm (Function.update_self ..)
        · rw [upd_ne _ _ (ho w h).2, ← hA c w]; exact Dat.arrAt_in _ w (ho w h).1 _)
      fun b hb => upd_ne _ _ fun e => hb (Finset.mem_image.mpr ⟨o, Finset.mem_univ _, e.symm⟩)
    rw [Pipeline.unscopedBufs_held] at hj
    unfold Pipeline.Dat.owesAt Pipeline.owesWithin; rw [(pdats_std m p c).2.1]
    iintro ⟨Ha, ⟨%W, -, HO⟩, HY, Hr⟩
    imodintro
    isplitl [Ha Hr]
    · iapply hj; iframe
    isplitl [HY]; · iexact HY
    iexists W; iexact HO

def reg0 : Pipeline.RegionSeg (pcfgs (F := F)) adm (pdats m) () defs₀ 𝒱₀ L lv 0 :=
  regOf m 0 launch0 (Gen.V0 m) 4 (by decide) (body_obligation0 (U0 m)) (A_eq0 (U0 m)) (hin0 (U0 m)) (hout0 (U0 m))
def reg1 : Pipeline.RegionSeg (pcfgs (F := F)) adm (pdats m) () defs₀ 𝒱₀ L lv 1 :=
  regOf m 1 launch1 (W1 m) 3 (by decide) (body_obligation1 (U1 m)) (A_eq1 (U1 m)) (hinA spec1) (houtA spec1)
def reg2 : Pipeline.RegionSeg (pcfgs (F := F)) adm (pdats m) () defs₀ 𝒱₀ L lv 2 :=
  regOf m 2 launch2 (W2 m) 4 (by decide) (body_obligation2 (U2 m)) (A_eq2 (U2 m)) (hin2 (U2 m)) (hout2 (U2 m))
def reg3 : Pipeline.RegionSeg (pcfgs (F := F)) adm (pdats m) () defs₀ 𝒱₀ L lv 3 :=
  regOf m 3 launch3 (W3 m) 3 (by decide) (body_obligation3 (U3 m)) (A_eq3 (U3 m)) (hinA spec3) (houtA spec3)
def reg4 : Pipeline.RegionSeg (pcfgs (F := F)) adm (pdats m) () defs₀ 𝒱₀ L lv 4 :=
  regOf m 4 launch4 (W4 m) 4 (by decide) (body_obligation4 (U4 m)) (A_eq4 (U4 m)) (hin4 (U4 m)) (hout4 (U4 m))

end Cert.KernelIdeal.Hand

end
-- ==== Proof.KILaunch.lean ====
import proofs.«409654_j14731737825611_1_alg».proof.Proof.Gen.KernelIdeal.Regions
import Idealize.ShloMosaic.Lib.Pipeline.Kit
import Idealize.ShloMosaic.Lib.Pipeline.Regions
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

abbrev launchL : GSem nD τ sig → Finset Unit := fun _ => ∅

abbrev launchLv : GSem nD τ sig → Unit → ℕ := fun _ _ => 0

abbrev launchO₀ : Dev nD → CellTallies nD τ sig Unit := fun _ => 0

abbrev launchU₀ : UR sig nD τ := initOf (Pipeline.cells cfgs cellOf_inj) (Pipeline.launchToks cfgs cellOf_inj)

abbrev launchEP : Emb (URounds (GSem nD τ sig) Unit) 𝕄 := emb₁

abbrev launchG : Dev nD → sProp 𝕄 := fun _ => iprop(emp)

abbrev launchE : Fin 6 → Dev nD → sProp 𝕄 :=
  fun _ c => iprop((∃ r, prngReg c r) ∗ ∃ W, owes (c : Thread nD τ) (0 : CellTallies nD τ sig Unit) W)

theorem launch_hL : ∀ g : GSem nD τ sig, g.1.2 ≠ .tc → launchL g = ∅ := fun _ _ => rfl

theorem launch_hu₀ :
    (ownU launchU₀ : sProp 𝕄) ⊢ |={Set.univ}=> iprop(BI.own ((launchEP (F := F))
      (initOf (Pipeline.cells cfgs cellOf_inj) (Pipeline.launchToks cfgs cellOf_inj))) ∗ bigSep Finset.univ (launchG (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_hE0 (ρ : Dev nD → PrngReg) :
    iprop((bigSep Finset.univ fun c : Dev nD => iprop(unscopedSems0 c ∗ owes (c : Thread nD τ) (launchO₀ c) ∅
        ∗ Pipeline.launchCred launchO₀ c ∗ prngReg c (ρ c) ∗ launchG (F := F) c)) ∗ levAts launchL launchLv)
      ⊢ (|={Set.univ}=> bigSep Finset.univ (launchE (F := F) 0) : sProp 𝕄) := by
  refine Pipeline.initEach launchL launchLv fun c => ?_
  iintro ⟨⟨-, HO, -, Hp, -⟩, -⟩
  imodintro
  isplitl [Hp]; · iexists _; iexact Hp
  iexists ∅; iexact HO

theorem launch_hE5 : ∀ c : Dev nD, launchE (F := F) 5 c
    ⊢ (iprop(∃ W, owes (c : Thread nD τ) (0 : CellTallies nD τ sig Unit) W) : sProp 𝕄) := by
  intro c
  iintro ⟨-, HO⟩
  iexact HO

end Cert.KernelIdeal.Hand

end
-- ==== Proof.KIFrame.lean ====
import proofs.«409654_j14731737825611_1_alg».proof.Proof.KIRegs
import proofs.«409654_j14731737825611_1_alg».proof.Proof.KILaunch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD, Kept m r.2.mem c) :=
  Gen.frame_cond m launchEP () Variants.none launchL launchLv launch_hL ρ (outs m) (pdats m) launchO₀ launchG launchU₀
    launch_hu₀ (launchE (F := F)) (launch_hE0 ρ) launch_hE5
    (reg0 m) (fun c => .rfl) (fun c => by rw [V1_eq]; exact .rfl)
    (reg1 m) (fun c => by rw [V1_eq]; exact .rfl) (fun c => by rw [V2_eq]; exact .rfl)
    (reg2 m) (fun c => by rw [V2_eq]; exact .rfl) (fun c => by rw [V3_eq]; exact .rfl)
    (reg3 m) (fun c => by rw [V3_eq]; exact .rfl) (fun c => by rw [V4_eq]; exact .rfl)
    (reg4 m) (fun c => by rw [V4_eq]; exact .rfl) (fun c => by rw [V5_eq]; exact .rfl)

end Cert.KernelIdeal.Hand

end
-- ==== Proof.LibPopPay.lean ====
import proofs.«409654_j14731737825611_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.LibPopPay

open Idealize.ShloMosaic Idealize.ShloMosaic.ValueIdx Cert.KernelIdeal Cert.KernelIdeal.Gen
open scoped BigOperators

theorem col_lt {c : ℕ} (hs : S256x128.Slices ![0, c] S256x1) : c < 128 := hs.2 1

/-- Column `c` of a block, laid along all 128 columns, reads at `(o, k)` the block at `(o, c)`. -/
theorem col_apply {α : Type} (X : S256x128.Idx → α) {c : ℕ} (hs : S256x128.Slices ![0, c] S256x1)
    (hb : S256x1.Broadcasts S256x128) (o : Fin 256) (k : Fin 128) :
    broadcastTo S256x128 (extractStridedSlice S256x1 ![0, c] X hs) hb (ix2 o k) = X (ix2 o ⟨c, col_lt hs⟩) :=
  (broadcastTo_apply _ hb (ix2 o k) (ix2 o (0 : Fin 1)) fun ax => by
    match ax with
    | ⟨0, _⟩ => rfl
    | ⟨1, _⟩ => rfl).trans (slice2_axis1_apply c X hs o 0 _ rfl)

/-- Slot `p`'s term at `(o, k)`: the slot's value where the counter at `(o, k)` equals the slot's word. -/
def addend (cnt v3 : IVec S256x128 32) (v5 : FVec Ideal S256x128 .f32) (o : Fin 256) (k p : Fin 128) : EReal :=
  if cnt (ix2 o k) = v3 (ix2 o p) then v5 (ix2 o p) else 0

/-- The sum of the first `n` of 128 terms. -/
def psum (T : Fin 128 → EReal) (n : ℕ) : EReal := ∑ c ∈ Finset.range n, if h : c < 128 then T ⟨c, h⟩ else 0

theorem psum_succ (T : Fin 128 → EReal) (n : ℕ) (h : n < 128) : psum T n + T ⟨n, h⟩ = psum T (n + 1) := by
  unfold psum
  rw [Finset.sum_range_succ, dif_pos h]

theorem psum_first (T : Fin 128 → EReal) (h : 0 < 128) :
    (Scalar.ofBits .f32 0x00000000#32 : Ideal .f32) + T ⟨0, h⟩ = psum T 1 := by
  rw [← psum_succ T 0 h]
  unfold psum
  rw [Finset.sum_range_zero]
  exact congrArg (· + T ⟨0, h⟩) Ideal.ofBits_zero_f32

theorem psum_all (T : Fin 128 → EReal) : psum T 128 = ∑ p, T p := by
  unfold psum
  rw [← Fin.sum_univ_eq_sum_range (fun c => if h : c < 128 then T ⟨c, h⟩ else 0) 128]
  exact Finset.sum_congr rfl fun p _ => dif_pos p.isLt

/-- One selection step at `(o, k)` is slot `c`'s term: the select on a word equality is the `if` on it. -/
theorem step_apply (cnt v3 : IVec S256x128 32) (v5 : FVec Ideal S256x128 .f32) {c : ℕ}
    (hs hs' : S256x128.Slices ![0, c] S256x1) (hb hb' : S256x1.Broadcasts S256x128) (o : Fin 256) (k : Fin 128) :
    select (cmpi .eq cnt (broadcastTo S256x128 (extractStridedSlice S256x1 ![0, c] v3 hs) hb))
        (broadcastTo S256x128 (extractStridedSlice S256x1 ![0, c] v5 hs') hb')
        (broadcast S256x128 (Scalar.ofBits .f32 0x00000000#32)) (ix2 o k)
      = addend cnt v3 v5 o k ⟨c, col_lt hs⟩ := by
  rw [select_apply, col_apply, broadcast_apply]
  show Scalar.select (BitVec.ofBool (cnt (ix2 o k)
    == broadcastTo S256x128 (extractStridedSlice S256x1 ![0, c] v3 hs) hb (ix2 o k))) _ (Ideal.ofBits .f32 0x00000000#32) = _
  rw [col_apply, Ideal.ofBits_zero_f32]
  unfold addend
  by_cases he : cnt (ix2 o k) = v3 (ix2 o ⟨c, col_lt hs⟩)
  · rw [if_pos he, he, beq_self_eq_true]
    exact select_one _ _
  · rw [if_neg he, beq_eq_false_iff_ne.mpr he]
    exact select_zero _ _

/-- The counter block of input block `ib`: at `(o, k)` the word of the column number `128 * ib + k`. -/
def cntv (ib : ℕ) : IVec S256x128 32 :=
  addi (iota .tc S256x128 32 [1] iota_S256x128_d1_w32) (broadcast S256x128 (Scalar.muli (BitVec.ofNat 32 ib) 128#32))

/-- Below `2 ^ 24` blocks the 32-bit sum does not wrap, so a word equals the counter iff it is that column number. -/
theorem cntv_eq_iff (ib : ℕ) (hib : ib < 2 ^ 24) (o : Fin 256) (k : Fin 128) (w : BitVec 32) :
    cntv ib (ix2 o k) = w ↔ w.toNat = 128 * ib + k.val := by
  have hk := k.isLt
  have e : (cntv ib (ix2 o k)).toNat = 128 * ib + k.val := by
    show (IntOp.addi (iota .tc S256x128 32 [1] iota_S256x128_d1_w32 (ix2 o k))
      (Scalar.muli (BitVec.ofNat 32 ib) 128#32)).toNat = _
    rw [iota_single_apply]
    show (BitVec.ofNat 32 k.val + BitVec.ofNat 32 ib * 128#32).toNat = _
    rw [BitVec.toNat_add, BitVec.toNat_mul, BitVec.toNat_ofNat, BitVec.toNat_ofNat, BitVec.toNat_ofNat]
    omega
  exact ⟨fun h => h ▸ e, fun h => BitVec.eq_of_toNat_eq (e.trans h.symm)⟩

/-- All 128 slots' terms against the counter of block `ib`: the values of the slots whose word is `128 * ib + k`. -/
theorem psum_cntv (ib : ℕ) (hib : ib < 2 ^ 24) (v3 : IVec S256x128 32) (v5 : FVec Ideal S256x128 .f32)
    (o : Fin 256) (k : Fin 128) :
    psum (addend (cntv ib) v3 v5 o k) 128
      = ∑ p : Fin 128, if (v3 (ix2 o p)).toNat = 128 * ib + k.val then v5 (ix2 o p) else 0 :=
  (psum_all _).trans (Finset.sum_congr rfl fun p _ => if_congr (cntv_eq_iff ib hib o k _) rfl rfl)

/-- A block times the transpose of another, into the zero block: at `(b, o)` the two rows' products summed over the 128 columns. -/
theorem mm_apply {φ₁ φ₂ : FTy} (x : FVec Ideal S256x128 φ₁) (a : FVec Ideal S256x128 φ₂) (b o : Fin 256) :
    matmul dot_S256x128_S256x128_S256x256_1_1_0_0_n_n none x a (constant S256x256 .f32 0x00000000#32) (ix2 b o)
      = ∑ k : Fin 128, x (ix2 b k) * a (ix2 o k) := by
  show FloatOps.matmul dot_S256x128_S256x128_S256x256_1_1_0_0_n_n none x a _ (ix2 b o) = _
  rw [Ideal.matmul_constant_zero_apply, ← Equiv.sum_comp (contrEquiv1 dot_S256x128_S256x128_S256x256_1_1_0_0_n_n 128 rfl rfl).symm]
  refine Finset.sum_congr rfl fun k _ => ?_
  have hk := contrEquiv1_symm_val dot_S256x128_S256x128_S256x256_1_1_0_0_n_n 128 rfl rfl k
  refine congrArg₂ (x · * a ·) (funext fun ax => ?_) (funext fun ax => ?_)
  · match ax with
    | ⟨0, _⟩ => rfl
    | ⟨1, _⟩ => exact Fin.ext ((dot_S256x128_S256x128_S256x256_1_1_0_0_n_n.lhsIdx_val_of_single rfl _ _).trans hk)
  · match ax with
    | ⟨0, _⟩ => rfl
    | ⟨1, _⟩ => exact Fin.ext ((dot_S256x128_S256x128_S256x256_1_1_0_0_n_n.rhsIdx_val_of_single rfl _ _).trans hk)

/-- The stored output at `(b, o)`: the gate of the accumulated entry minus the bias of unit `o`. -/
theorem outv_apply (bias : Vec Ideal S256 .f32) (acc : Vec Ideal S256x256 .f32) (h₁ : S256.ShapeCasts S1x256)
    (h₂ : S1x256.Broadcasts S256x256) (b o : Fin 256) :
    (logistic (subf acc (broadcastTo S256x256 (shapeCast S1x256 bias h₁) h₂)) : FVec Ideal S256x256 .f32) (ix2 b o)
      = Ideal.logistic (acc (ix2 b o) - bias (ix1 o)) := by
  show Ideal.logistic (acc (ix2 b o) - broadcastTo S256x256 (shapeCast S1x256 bias h₁) h₂ (ix2 b o)) = _
  rw [broadcastTo_1b_ab_apply, shapeCast_a_1a_apply]

/-- The initial block is zero everywhere. -/
theorem zero_apply (h : S256x256.ShapeCasts S256x256) (j : S256x256.Idx) :
    shapeCast S256x256 (broadcast S256x256 (Scalar.ofBits .f32 0x00000000#32 : Ideal .f32)) h j = 0 := by
  rw [shapeCast_self]
  exact Ideal.ofBits_zero_f32

end Cert.LibPopPay
end
-- ==== Proof.KIPop0Pay.lean ====
import proofs.«409654_j14731737825611_1_alg».proof.Proof.KIPop0Defs
import proofs.«409654_j14731737825611_1_alg».proof.Proof.LibPopPay

noncomputable section

namespace Cert.KernelIdeal.Hand
open Idealize.ShloMosaic Idealize.ShloMosaic.ValueIdx Cert.KernelIdeal Cert.KernelIdeal.Gen Cert.LibPopPay
open scoped BigOperators

/-- The 128 selection steps sum, for column `k`, the gates of the slots of unit `o` whose word is `128 * ib + k`; the block product contracts that against row `b` of the input block. -/
theorem upd0_apply (i : grid0.Coords) (v3 : Vec Ideal S256x128 .i32) (v4 v6 : Vec Ideal S256x128 .f32)
    (acc : Vec Ideal S256x256 .f32) (b o : Fin 256) :
    upd0 i v3 v4 v6 acc (ix2 b o) = acc (ix2 b o) + ∑ k : Fin 128, v6 (ix2 b k) *
      (∑ p : Fin 128, if (v3 (ix2 o p)).toNat = 128 * (i 1).val + k.val then Ideal.logistic (v4 (ix2 o p)) else 0) := by
  simp only [upd0,
    k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63,
    k0_pay64, k0_pay65, k0_pay66, k0_pay67, k0_pay68,
    shapeCast_self, addf_apply, mm_apply, truncf_apply, step_apply, broadcast_apply, psum_first, psum_succ, Nat.reduceAdd]
  refine congrArg (acc (ix2 b o) + ·) (Finset.sum_congr rfl fun k _ => congrArg (v6 (ix2 b k) * ·) ?_)
  exact psum_cntv (i 1).val ((i 1).isLt.trans (by decide)) v3 _ o k

theorem outv0_apply (bias : Vec Ideal S256 .f32) (acc : Vec Ideal S256x256 .f32) (b o : Fin 256) :
    outv0 bias acc (ix2 b o) = Ideal.logistic (acc (ix2 b o) - bias (ix1 o)) :=
  outv_apply bias acc _ _ b o

theorem zero0_apply (b o : Fin 256) : zero0 (F := Ideal) (ix2 b o) = 0 := zero_apply shapeCasts_S256x256_S256x256 (ix2 b o)

end Cert.KernelIdeal.Hand
end
-- ==== Proof.LawOneHot.lean ====
import Idealize.ShloMosaic.PureOps.Ideal
import Mathlib.Data.EReal.Operations
import Mathlib.Data.Fintype.BigOperators
import Mathlib.Algebra.BigOperators.Fin
import Mathlib.Algebra.Order.BigOperators.Group.Finset
import Mathlib.Logic.Equiv.Fin.Basic

namespace Cert.Law

open Idealize.ShloMosaic
open scoped BigOperators

theorem logistic_nonneg (z : EReal) : 0 ≤ Ideal.logistic z := by
  induction z using EReal.rec with
  | bot => rw [Ideal.logistic_bot]
  | coe r =>
    rw [Ideal.logistic_coe]
    have h : (0 : ℝ) ≤ (1 + Real.exp (-r))⁻¹ := inv_nonneg.mpr (by positivity)
    exact_mod_cast h
  | top => rw [Ideal.logistic_top]; exact zero_le_one

theorem mul_sum_of_nonneg {ι : Type*} (t : Finset ι) (c : EReal) (g : ι → EReal)
    (hg : ∀ i ∈ t, 0 ≤ g i) : c * ∑ i ∈ t, g i = ∑ i ∈ t, c * g i := by
  classical
  induction t using Finset.induction_on with
  | empty => simp
  | insert a t ha ih =>
    have hga : 0 ≤ g a := hg a (Finset.mem_insert_self a t)
    have hgt : ∀ i ∈ t, 0 ≤ g i := fun i hi => hg i (Finset.mem_insert_of_mem hi)
    rw [Finset.sum_insert ha, Finset.sum_insert ha,
      EReal.left_distrib_of_nonneg hga (Finset.sum_nonneg hgt), ih hgt]

theorem onehot_contract {n : ℕ} (x : Fin n → EReal) (s : Fin 128 → ℕ) (r : Fin 128 → EReal)
    (hr : ∀ p, 0 ≤ r p) :
    ∑ i : Fin n, x i * (∑ p : Fin 128, if s p = i.val then r p else 0)
      = ∑ p : Fin 128, (if h : s p < n then x ⟨s p, h⟩ else 0) * r p := by
  have h1 : ∀ i : Fin n, x i * (∑ p : Fin 128, if s p = i.val then r p else 0)
      = ∑ p : Fin 128, x i * (if s p = i.val then r p else 0) := fun i =>
    mul_sum_of_nonneg _ _ _ (fun p _ => by
      by_cases hp : s p = i.val
      · rw [if_pos hp]; exact hr p
      · rw [if_neg hp])
  rw [Finset.sum_congr rfl (fun i _ => h1 i), Finset.sum_comm]
  refine Finset.sum_congr rfl (fun p _ => ?_)
  by_cases h : s p < n
  · rw [dif_pos h, Finset.sum_eq_single (⟨s p, h⟩ : Fin n)]
    · rw [if_pos rfl]
    · intro i _ hi
      rw [if_neg (fun heq => hi (Fin.ext heq.symm)), mul_zero]
    · intro habs
      exact absurd (Finset.mem_univ _) habs
  · rw [dif_neg h, zero_mul]
    refine Finset.sum_eq_zero (fun i _ => ?_)
    have hne : ¬ s p = i.val := fun heq => h (by rw [heq]; exact i.isLt)
    rw [if_neg hne, mul_zero]

theorem sum_blocks {n : ℕ} (nb : ℕ) (hn : nb * 128 = n) (f : Fin n → EReal) :
    ∑ ib : Fin nb, ∑ k : Fin 128,
        f ⟨128 * ib.val + k.val, by have := ib.isLt; have := k.isLt; omega⟩ = ∑ i, f i := by
  subst hn
  rw [← (finProdFinEquiv (m := nb) (n := 128)).sum_comp f, Fintype.sum_prod_type]
  refine Finset.sum_congr rfl (fun ib _ => Finset.sum_congr rfl (fun k _ => ?_))
  congr 1
  exact Fin.ext (Nat.add_comm _ _)

theorem onehot_blocks {n : ℕ} (nb : ℕ) (hn : nb * 128 = n) (x : Fin n → EReal) (s : Fin 128 → ℕ)
    (r : Fin 128 → EReal) (hr : ∀ p, 0 ≤ r p) :
    ∑ ib : Fin nb, ∑ k : Fin 128,
        x ⟨128 * ib.val + k.val, by have := ib.isLt; have := k.isLt; omega⟩
          * (∑ p : Fin 128, if s p = 128 * ib.val + k.val then r p else 0)
      = ∑ p : Fin 128, (if h : s p < n then x ⟨s p, h⟩ else 0) * r p := by
  rw [← onehot_contract x s r hr]
  exact sum_blocks nb hn (fun i => x i * (∑ p : Fin 128, if s p = i.val then r p else 0))

end Cert.Law
-- ==== Proof.KIPopAcc.lean ====
import Mathlib.Data.EReal.Operations
import Mathlib.Algebra.BigOperators.Fin
import Mathlib.Algebra.BigOperators.Intervals

namespace Cert.PopAcc

open scoped BigOperators

/-- A quantity set to `g 0` at the first point of block `ob` and increased by `g (ib + 1)` at each later point is, at point `ib`, the sum of `g` up to `ib`. -/
theorem acc_partial {N : ℕ} (nib : ℕ) (ob : ℕ) (g : ℕ → EReal) (a : (n : ℕ) → n < N → EReal)
    (h0 : ∀ (h : ob * nib + 0 < N), a (ob * nib + 0) h = g 0)
    (hs : ∀ (ib : ℕ) (_ : ib + 1 < nib) (h : ob * nib + (ib + 1) < N),
      a (ob * nib + (ib + 1)) h = a (ob * nib + ib) (by omega) + g (ib + 1)) :
    ∀ (ib : ℕ) (_ : ib < nib) (h : ob * nib + ib < N),
      a (ob * nib + ib) h = ∑ j ∈ Finset.range (ib + 1), g j := by
  intro ib
  induction ib with
  | zero => intro _ h; rw [h0 h]; simp
  | succ ib ih =>
    intro hib h
    rw [hs ib hib h, ih (by omega) (by omega), Finset.sum_range_succ (fun j => g j) (ib + 1)]

/-- So after the last point of the block it is the sum of the block's `nib` contributions. -/
theorem acc_closed {N : ℕ} (nib : ℕ) (hnib : 0 < nib) (ob : ℕ) (g : Fin nib → EReal)
    (a : (n : ℕ) → n < N → EReal)
    (h0 : ∀ (h : ob * nib + 0 < N), a (ob * nib + 0) h = g ⟨0, hnib⟩)
    (hs : ∀ (ib : ℕ) (hib : ib + 1 < nib) (h : ob * nib + (ib + 1) < N),
      a (ob * nib + (ib + 1)) h = a (ob * nib + ib) (by omega) + g ⟨ib + 1, hib⟩)
    (h : ob * nib + (nib - 1) < N) :
    a (ob * nib + (nib - 1)) h = ∑ ib : Fin nib, g ib := by
  have key := acc_partial nib ob (fun j => if hj : j < nib then g ⟨j, hj⟩ else 0) a
    (fun h => by rw [h0 h, dif_pos hnib])
    (fun ib hib h => by rw [hs ib hib h, dif_pos hib])
    (nib - 1) (by omega) h
  rw [key, show nib - 1 + 1 = nib by omega,
    ← Fin.sum_univ_eq_sum_range (fun j => if hj : j < nib then g ⟨j, hj⟩ else 0) nib]
  exact Finset.sum_congr rfl (fun ib _ => by rw [dif_pos ib.isLt])

theorem point_div (nib ob ib : ℕ) (hib : ib < nib) : (ob * nib + ib) / nib = ob := by
  rw [Nat.add_comm, Nat.add_mul_div_right _ _ (by omega : 0 < nib), Nat.div_eq_of_lt hib, Nat.zero_add]

theorem point_mod (nib ob ib : ℕ) (hib : ib < nib) : (ob * nib + ib) % nib = ib := by
  rw [Nat.add_comm, Nat.add_mul_mod_self_right, Nat.mod_eq_of_lt hib]

end Cert.PopAcc
-- ==== Proof.KIPop0Value.lean ====
import proofs.«409654_j14731737825611_1_alg».proof.Proof.Gen.KernelIdeal.Points
import proofs.«409654_j14731737825611_1_alg».proof.Proof.KIPop0
import proofs.«409654_j14731737825611_1_alg».proof.Proof.KIPop0Pay
import proofs.«409654_j14731737825611_1_alg».proof.Proof.Spec
import proofs.«409654_j14731737825611_1_alg».proof.Proof.LawOneHot
import proofs.«409654_j14731737825611_1_alg».proof.Proof.KIPopAcc
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem idx_facts0 : ∀ t : Fin cfg0.N,
    (grid0.coords t 0).val = t.val / 25 ∧ (grid0.coords t 1).val = t.val % 25
    ∧ win0_0.index t (0 : Fin 2) = 0 ∧ win0_0.index t (1 : Fin 2) = t.val % 25
    ∧ win0_1.index t (0 : Fin 2) = t.val / 25 ∧ win0_1.index t (1 : Fin 2) = 0
    ∧ win0_2.index t (0 : Fin 2) = t.val / 25 ∧ win0_2.index t (1 : Fin 2) = 0
    ∧ win0_3.index t (0 : Fin 1) = t.val / 25
    ∧ win0_4.index t (0 : Fin 2) = 0 ∧ win0_4.index t (1 : Fin 2) = t.val / 25 :=
  (by decide +kernel : ∀ t : Fin grid0.N, _)

theorem xblk0_apply (c : Dev nD) (t : Fin cfg0.N) (b : Fin 256) (k : Fin 128) (i : Fin 3200)
    (hi : i.val = 128 * (t.val % 25) + k.val) :
    iblk0 V c 0 t (ix2 b k) = V c main_arg0 (ix2 b i) := by
  obtain ⟨-, -, e0, e1, -⟩ := idx_facts0 t
  show V c main_arg0 _ = V c main_arg0 _
  congr 1
  funext a
  apply Fin.ext
  match a with
  | ⟨0, _⟩ => show win0_0.index t (0 : Fin 2) * 256 + 1 * b.val = b.val; omega
  | ⟨1, _⟩ => show win0_0.index t (1 : Fin 2) * 128 + 1 * k.val = i.val; omega

theorem selblk0_apply (c : Dev nD) (t : Fin cfg0.N) (o : Fin 256) (p : Fin 128) (r : Fin 8192)
    (hr : r.val = 256 * (t.val / 25) + o.val) :
    iblk0 V c 1 t (ix2 o p) = V c main_arg1 (ix2 r p) := by
  obtain ⟨-, -, -, -, e0, e1, -⟩ := idx_facts0 t
  show V c main_arg1 _ = V c main_arg1 _
  congr 1
  funext a
  apply Fin.ext
  match a with
  | ⟨0, _⟩ => show win0_1.index t (0 : Fin 2) * 256 + 1 * o.val = r.val; omega
  | ⟨1, _⟩ => show win0_1.index t (1 : Fin 2) * 128 + 1 * p.val = p.val; omega

theorem wblk0_apply (c : Dev nD) (t : Fin cfg0.N) (o : Fin 256) (p : Fin 128) (r : Fin 8192)
    (hr : r.val = 256 * (t.val / 25) + o.val) :
    iblk0 V c 2 t (ix2 o p) = V c main_arg2 (ix2 r p) := by
  obtain ⟨-, -, -, -, -, -, e0, e1, -⟩ := idx_facts0 t
  show V c main_arg2 _ = V c main_arg2 _
  congr 1
  funext a
  apply Fin.ext
  match a with
  | ⟨0, _⟩ => show win0_2.index t (0 : Fin 2) * 256 + 1 * o.val = r.val; omega
  | ⟨1, _⟩ => show win0_2.index t (1 : Fin 2) * 128 + 1 * p.val = p.val; omega

theorem bblk0_apply (c : Dev nD) (t : Fin cfg0.N) (o : Fin 256) (r : Fin 8192)
    (hr : r.val = 256 * (t.val / 25) + o.val) :
    iblk0 V c 3 t (ix1 o) = V c main_arg3 (ix1 r) := by
  obtain ⟨-, -, -, -, -, -, -, -, e0, -⟩ := idx_facts0 t
  show V c main_arg3 _ = V c main_arg3 _
  congr 1
  funext a
  apply Fin.ext
  match a with
  | ⟨0, _⟩ => show win0_3.index t (0 : Fin 1) * 256 + 1 * o.val = r.val; omega

theorem acc0_congr (c : Dev nD) {n n' : ℕ} (e : n = n') (h : n < cfg0.N) (h' : n' < cfg0.N) :
    acc0 V c n h = acc0 V c n' h' := by subst e; rfl

abbrev srow0 (c : Dev nD) (r : Fin 8192) : Fin 128 → ℕ := fun p => (V c main_arg1 (ix2 r p)).toNat
abbrev grow0 (c : Dev nD) (r : Fin 8192) : Fin 128 → EReal := fun p => Ideal.logistic (V c main_arg2 (ix2 r p))
abbrev xrow0 (c : Dev nD) (b : Fin 256) : Fin 3200 → EReal := fun i => V c main_arg0 (ix2 b i)

abbrev contrib0 (c : Dev nD) (b : Fin 256) (r : Fin 8192) (ib : Fin 25) : EReal :=
  ∑ k : Fin 128, xrow0 V c b ⟨128 * ib.val + k.val, by have := ib.isLt; have := k.isLt; omega⟩
    * (∑ p : Fin 128, if srow0 V c r p = 128 * ib.val + k.val then grow0 V c r p else 0)

theorem term0_eq (c : Dev nD) (t : Fin cfg0.N) (ib : Fin 25) (hib : t.val % 25 = ib.val) (b o : Fin 256)
    (r : Fin 8192) (hr : r.val = 256 * (t.val / 25) + o.val) (a : Vec Ideal S256x256 .f32) :
    upd0 (grid0.coords t) (iblk0 V c 1 t) (iblk0 V c 2 t) (iblk0 V c 0 t) a (ix2 b o) = a (ix2 b o) + contrib0 V c b r ib := by
  obtain ⟨-, ec, -⟩ := idx_facts0 t
  rw [upd0_apply]
  refine congrArg _ (Finset.sum_congr rfl fun k _ => ?_)
  rw [xblk0_apply V c t b k ⟨128 * ib.val + k.val, by have := ib.isLt; have := k.isLt; omega⟩ (by show _ = _; rw [hib])]
  refine congrArg _ (Finset.sum_congr rfl fun p _ => ?_)
  rw [selblk0_apply V c t o p r hr, wblk0_apply V c t o p r hr, ec, hib]

theorem acc0_last (c : Dev nD) (ob : Fin 32) (b o : Fin 256) (r : Fin 8192) (hr : r.val = 256 * ob.val + o.val)
    (h : ob.val * 25 + (25 - 1) < cfg0.N) :
    acc0 V c (ob.val * 25 + (25 - 1)) h (ix2 b o) = ∑ ib : Fin 25, contrib0 V c b r ib := by
  refine Cert.PopAcc.acc_closed 25 (by decide) ob.val (contrib0 V c b r) (fun n hn => acc0 V c n hn (ix2 b o)) ?_ ?_ h
  · intro h0
    have hm := Cert.PopAcc.point_mod 25 ob.val 0 (by decide)
    have hd := Cert.PopAcc.point_div 25 ob.val 0 (by decide)
    refine (congrFun (acc0_reset V c ⟨_, h0⟩ hm) (ix2 b o)).trans ?_
    rw [term0_eq V c ⟨_, h0⟩ ⟨0, by decide⟩ hm b o r (by show r.val = 256 * ((ob.val * 25 + 0) / 25) + o.val; rw [hd]; exact hr),
      zero0_apply, zero_add]
  · intro ib hib hs
    have hm := Cert.PopAcc.point_mod 25 ob.val (ib + 1) hib
    have hd := Cert.PopAcc.point_div 25 ob.val (ib + 1) hib
    refine (congrFun (acc0_step V c ⟨_, hs⟩ (by show ¬(ob.val * 25 + (ib + 1)) % 25 = 0; rw [hm]; omega)) (ix2 b o)).trans ?_
    rw [term0_eq V c ⟨_, hs⟩ ⟨ib + 1, hib⟩ hm b o r (by show r.val = 256 * ((ob.val * 25 + (ib + 1)) / 25) + o.val; rw [hd]; exact hr),
      acc0_congr V c (show ob.val * 25 + (ib + 1) - 1 = ob.val * 25 + ib by omega) _ (by omega)]

abbrev G0 (c : Dev nD) : S256x8192.Idx → EReal := fun i =>
  Cert.Spec.pop (Cert.Spec.at2 (V c main_arg0)) (Cert.Spec.nat2 (V c main_arg1)) (Cert.Spec.at2 (V c main_arg2))
    (Cert.Spec.at1 (V c main_arg3)) (i 0) (i 1)

theorem out0_last (c : Dev nD) (t : Fin cfg0.N) (ht : t.val % 25 = 24) (b o : Fin 256) (r : Fin 8192)
    (hr : r.val = 256 * (t.val / 25) + o.val) :
    outv0 (iblk0 V c 3 t) (acc0 V c t.val t.isLt) (ix2 b o) = G0 V c (ix2 b r) := by
  have hN : cfg0.N = 800 := N_0
  have hlt := t.isLt
  have hob : t.val / 25 < 32 := by omega
  have hpt : t.val = (⟨t.val / 25, hob⟩ : Fin 32).val * 25 + (25 - 1) := by
    show t.val = t.val / 25 * 25 + (25 - 1); omega
  rw [outv0_apply, acc0_congr V c hpt t.isLt (by omega), acc0_last V c ⟨t.val / 25, hob⟩ b o r hr, bblk0_apply V c t o r hr,
    Cert.Law.onehot_blocks 25 (by decide) (xrow0 V c b) (srow0 V c r) (grow0 V c r) (fun p => Cert.Law.logistic_nonneg _)]
  rfl

theorem flushed0_eq (c : Dev nD) (t : Fin cfg0.N) (hf : (cfg0.win 4).flush t = true) :
    (dat0 V c).flushed 4 t = ((cfg0.win 4).blk t).view.read (Elt Ideal) (G0 V c) := by
  have ht : t.val % 25 = 24 := (flush0_4 t).mp hf
  have hN : cfg0.N = 800 := N_0
  have hlt := t.isLt
  obtain ⟨-, -, -, -, -, -, -, -, -, e0, e1⟩ := idx_facts0 t
  show (cfg0.win 4).cut (grid0.coords t) ((dat0 V c).after 4 t) = _
  rw [after0_4]
  funext j
  obtain ⟨b, o, rfl⟩ : ∃ (b o : Fin 256), j = ix2 b o := ⟨j 0, j 1, eq_ix2 j⟩
  rw [View.read_apply]
  show outv0 (iblk0 V c 3 t) (acc0 V c t.val t.isLt) (ix2 b o) = G0 V c (((cfg0.win 4).blk t).view.emb (ix2 b o))
  rw [out0_last V c t ht b o ⟨256 * (t.val / 25) + o.val, by have := o.isLt; omega⟩ rfl]
  congr 1
  funext a
  apply Fin.ext
  match a with
  | ⟨0, _⟩ => show b.val = win0_4.index t (0 : Fin 2) * 256 + 1 * b.val; omega
  | ⟨1, _⟩ => show 256 * (t.val / 25) + o.val = win0_4.index t (1 : Fin 2) * 256 + 1 * o.val; omega

theorem cover0_4 (i : S256x8192.Idx) :
    ∃ t : Fin cfg0.N, (cfg0.win 4).flush t = true ∧ i ∈ ((cfg0.win 4).blk t).view.set := by
  have hN : cfg0.N = 800 := N_0
  have hi0 : (i 0).val < 256 := (i 0).isLt
  have hi1 : (i 1).val < 8192 := (i 1).isLt
  obtain ⟨t, ht⟩ : ∃ t : Fin cfg0.N, t.val = (i 1).val / 256 * 25 + 24 := ⟨⟨_, by omega⟩, rfl⟩
  obtain ⟨-, -, -, -, -, -, -, -, -, e0, e1⟩ := idx_facts0 t
  refine ⟨t, (flush0_4 t).mpr (by omega), ?_⟩
  show i ∈ ((View.whole main_v0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

theorem arrAt0_out (c : Dev nD) : (dat0 V c).arrAt 4 cfg0.N = fun i =>
    Cert.Spec.pop (Cert.Spec.at2 (V c main_arg0)) (Cert.Spec.nat2 (V c main_arg1)) (Cert.Spec.at2 (V c main_arg2))
      (Cert.Spec.at1 (V c main_arg3)) (i 0) (i 1) :=
  (dat0 V c).arrAt_eq_of_cover 4 (G0 V c) (flushed0_eq V c) cover0_4

end Cert.KernelIdeal.Hand
end
-- ==== Proof.KILn1Value.lean ====
import proofs.«409654_j14731737825611_1_alg».proof.Proof.Spec
import proofs.«409654_j14731737825611_1_alg».proof.Proof.KILn1
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

-- an `[a]` array cast to the column `[a, 1]` reads, at `(i, u)`, the operand at `i`
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

-- a column `[a, 1]` broadcast to `[a, b]` reads, at `(p, c)`, the column's entry of row `p`
theorem broadcastTo_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · omega
    · rfl
  | ⟨1, _⟩ => rfl

theorem rsqrt_apply {s : Shape} {φ : FTy} (a : FVec Ideal s φ) (i : s.Idx) : rsqrt a i = Ideal.rsqrt (a i) := rfl

-- the payload at `(r, j)` is the normalised entry `(b, j)` of any array whose row `b` is the block's row `r`
theorem pay1_ln_eq_spec (x0 : Vec Ideal S128x8192 .f32) (g be G B : Vec Ideal S8192 .f32) (h : Fin 256 → Fin 8192 → EReal)
    (r : Fin 128) (j : Fin 8192) (b : Fin 256) (jj : Fin 8192) (hj : jj.val = j.val) (hx : ∀ k, x0 (ix2 r k) = h b k)
    (hg : g = G) (hb : be = B) : k1_pay1 x0 g be (ix2 r j) = Cert.Spec.ln h (Cert.Spec.at1 G) (Cert.Spec.at1 B) b jj := by
  obtain rfl : j = jj := Fin.ext hj.symm
  subst hg hb
  have hsum : ∀ v : FVec Ideal S128x8192 .f32,
      multiReduction .add [1] S128 v 0x00000000#32 reduces_S128x8192_S128 (.inl rfl) rfl (ix1 r) = ∑ k : Fin 8192, v (ix2 r k) :=
    fun v => (Ideal.multiReduction_add_single v _ _ _ _ (ix1 r)).trans
      (Finset.sum_congr rfl fun k _ => congrArg v (Shape.idx_ext₂ rfl rfl))
  simp only [k1_pay1, addf_apply, mulf_apply, subf_apply, divf_apply, shapeCast_self, broadcastTo_1b_ab_apply, shapeCast_a_1a_apply,
    broadcastTo_col_apply, shapeCast_col_apply, broadcast_apply, rsqrt_apply, hsum, hx]
  rfl

section Region1Value

variable (V : (c : Dev nD) → (b : Ref sig .tc) → Buf (Elt Ideal) ((c : Thread nD τ).loc b))

abbrev lnArr1 (c : Dev nD) : Vec Ideal S256x8192 .f32 :=
  fun i => Cert.Spec.ln (Cert.Spec.at2 (V c main_v0)) (Cert.Spec.at1 (V c main_arg4)) (Cert.Spec.at1 (V c main_arg5)) (i 0) (i 1)

-- what point `t` leaves is rows `128 t … 128 t + 127` of the normalised array: its input block is those rows, the scale and the shift are whole
theorem flushed1_eq (c : Dev nD) (t : Fin cfg1.N) :
    (dat1 V c).flushed 3 t = ((cfg1.win 3).blk t).view.read (Elt Ideal) (lnArr1 V c) := by
  funext y
  obtain ⟨r, j, rfl⟩ : ∃ (r : Fin 128) (j : Fin 8192), y = ix2 r j := ⟨y 0, y 1, eq_ix2 y⟩
  show k1_pay1 (iblk1 V c 0 t) (iblk1 V c 1 t) (iblk1 V c 2 t) (ix2 r j) = lnArr1 V c (((cfg1.win 3).blk t).view.emb (ix2 r j))
  refine pay1_ln_eq_spec _ _ _ _ _ _ r j _ _ ?_ (fun k => congrArg (V c main_v0) (Shape.idx_ext₂ rfl ?_))
    (funext fun x => congrArg (V c main_arg4) (funext fun a => Fin.ext ?_)) (funext fun x => congrArg (V c main_arg5) (funext fun a => Fin.ext ?_))
  · show 0 * 8192 + 1 * j.val = j.val; omega
  · show 0 * 8192 + 1 * k.val = k.val; omega
  · match a with | ⟨0, _⟩ => show 0 * 8192 + 1 * (x 0).val = (x 0).val; omega
  · match a with | ⟨0, _⟩ => show 0 * 8192 + 1 * (x 0).val = (x 0).val; omega

-- row `b` of the output array lies in the block of point `b / 128`
theorem cover1 (i : S256x8192.Idx) : ∃ t : Fin cfg1.N, (cfg1.win 3).flush t = true ∧ i ∈ ((cfg1.win 3).blk t).view.set := by
  have hi0 : (i 0).val < 256 := (i 0).isLt
  have hi1 : (i 1).val < 8192 := (i 1).isLt
  have ht : (i 0).val / 128 < cfg1.N := by rw [show cfg1.N = 2 from N_1]; omega
  refine ⟨⟨_, ht⟩, flush1_3 _, ?_⟩
  show i ∈ ((View.whole main_v1).slice (win1_3.rect ⟨_, ht⟩)).set
  rw [View.set_slice_whole, Rect.mem_set_unit]
  intro a
  match a with
  | ⟨0, _⟩ =>
    show win1_3.index ⟨_, ht⟩ (0 : Fin 2) * 128 ≤ (i 0).val ∧ (i 0).val < win1_3.index ⟨_, ht⟩ (0 : Fin 2) * 128 + 128
    simp only [(by decide +kernel : ∀ t : Fin grid1.N, win1_3.index t (0 : Fin 2) = t.val)]; omega
  | ⟨1, _⟩ => show 0 * 8192 ≤ (i 1).val ∧ (i 1).val < 0 * 8192 + 8192; omega

theorem arrAt1_out (c : Dev nD) : (dat1 V c).arrAt 3 cfg1.N = lnArr1 V c :=
  (dat1 V c).arrAt_eq_of_cover 3 (lnArr1 V c) (fun t _ => flushed1_eq V c t) cover1

end Region1Value

end Cert.KernelIdeal.Hand

end
-- ==== Proof.KIPop2Pay.lean ====
import proofs.«409654_j14731737825611_1_alg».proof.Proof.KIPop2Defs
import proofs.«409654_j14731737825611_1_alg».proof.Proof.LibPopPay

noncomputable section

namespace Cert.KernelIdeal.Hand
open Idealize.ShloMosaic Idealize.ShloMosaic.ValueIdx Cert.KernelIdeal Cert.KernelIdeal.Gen Cert.LibPopPay
open scoped BigOperators

/-- The 128 selection steps sum, for column `k`, the gates of the slots of unit `o` whose word is `128 * ib + k`; the block product contracts that against row `b` of the input block. -/
theorem upd2_apply (i : grid2.Coords) (v3 : Vec Ideal S256x128 .i32) (v4 v6 : Vec Ideal S256x128 .f32)
    (acc : Vec Ideal S256x256 .f32) (b o : Fin 256) :
    upd2 i v3 v4 v6 acc (ix2 b o) = acc (ix2 b o) + ∑ k : Fin 128, v6 (ix2 b k) *
      (∑ p : Fin 128, if (v3 (ix2 o p)).toNat = 128 * (i 1).val + k.val then Ideal.logistic (v4 (ix2 o p)) else 0) := by
  simp only [upd2, k2_pay69, k2_pay4,
    k2_pay6, k2_pay7, k2_pay8, k2_pay9, k2_pay10, k2_pay11, k2_pay12, k2_pay13, k2_pay14,
    k2_pay15, k2_pay16, k2_pay17, k2_pay18, k2_pay19, k2_pay20, k2_pay21, k2_pay22, k2_pay23,
    k2_pay24, k2_pay25, k2_pay26, k2_pay27, k2_pay28, k2_pay29, k2_pay30, k2_pay31, k2_pay32,
    k2_pay33, k2_pay34, k2_pay35, k2_pay36, k2_pay37, k2_pay38, k2_pay39, k2_pay40, k2_pay41,
    k2_pay42, k2_pay43, k2_pay44, k2_pay45, k2_pay46, k2_pay47, k2_pay48, k2_pay49, k2_pay50,
    k2_pay51, k2_pay52, k2_pay53, k2_pay54, k2_pay55, k2_pay56, k2_pay57, k2_pay58, k2_pay59,
    k2_pay60, k2_pay61, k2_pay62, k2_pay63, k2_pay64, k2_pay65, k2_pay66, k2_pay67, k2_pay68,
    shapeCast_self, addf_apply, mm_apply, truncf_apply, step_apply, broadcast_apply, psum_first, psum_succ, Nat.reduceAdd]
  refine congrArg (acc (ix2 b o) + ·) (Finset.sum_congr rfl fun k _ => congrArg (v6 (ix2 b k) * ·) ?_)
  exact psum_cntv (i 1).val ((i 1).isLt.trans (by decide)) v3 _ o k

theorem outv2_apply (bias : Vec Ideal S256 .f32) (acc : Vec Ideal S256x256 .f32) (b o : Fin 256) :
    outv2 bias acc (ix2 b o) = Ideal.logistic (acc (ix2 b o) - bias (ix1 o)) :=
  outv_apply bias acc _ _ b o

theorem zero2_apply (b o : Fin 256) : zero2 (F := Ideal) (ix2 b o) = 0 := zero_apply shapeCasts_S256x256_S256x256 (ix2 b o)

end Cert.KernelIdeal.Hand
end
-- ==== Proof.KIPop2Value.lean ====
import proofs.«409654_j14731737825611_1_alg».proof.Proof.Gen.KernelIdeal.Points
import proofs.«409654_j14731737825611_1_alg».proof.Proof.KIPop2
import proofs.«409654_j14731737825611_1_alg».proof.Proof.KIPop2Pay
import proofs.«409654_j14731737825611_1_alg».proof.Proof.Spec
import proofs.«409654_j14731737825611_1_alg».proof.Proof.LawOneHot
import proofs.«409654_j14731737825611_1_alg».proof.Proof.KIPopAcc
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem idx_facts2 : ∀ t : Fin cfg2.N,
    (grid2.coords t 0).val = t.val / 64 ∧ (grid2.coords t 1).val = t.val % 64
    ∧ win2_0.index t (0 : Fin 2) = 0 ∧ win2_0.index t (1 : Fin 2) = t.val % 64
    ∧ win2_1.index t (0 : Fin 2) = t.val / 64 ∧ win2_1.index t (1 : Fin 2) = 0
    ∧ win2_2.index t (0 : Fin 2) = t.val / 64 ∧ win2_2.index t (1 : Fin 2) = 0
    ∧ win2_3.index t (0 : Fin 1) = t.val / 64
    ∧ win2_4.index t (0 : Fin 2) = 0 ∧ win2_4.index t (1 : Fin 2) = t.val / 64 :=
  (by decide +kernel : ∀ t : Fin grid2.N, _)

theorem xblk2_apply (c : Dev nD) (t : Fin cfg2.N) (b : Fin 256) (k : Fin 128) (i : Fin 8192)
    (hi : i.val = 128 * (t.val % 64) + k.val) :
    iblk2 V c 0 t (ix2 b k) = V c main_v1 (ix2 b i) := by
  obtain ⟨-, -, e0, e1, -⟩ := idx_facts2 t
  show V c main_v1 _ = V c main_v1 _
  congr 1
  funext a
  apply Fin.ext
  match a with
  | ⟨0, _⟩ => show win2_0.index t (0 : Fin 2) * 256 + 1 * b.val = b.val; omega
  | ⟨1, _⟩ => show win2_0.index t (1 : Fin 2) * 128 + 1 * k.val = i.val; omega

theorem selblk2_apply (c : Dev nD) (t : Fin cfg2.N) (o : Fin 256) (p : Fin 128) (r : Fin 8192)
    (hr : r.val = 256 * (t.val / 64) + o.val) :
    iblk2 V c 1 t (ix2 o p) = V c main_arg6 (ix2 r p) := by
  obtain ⟨-, -, -, -, e0, e1, -⟩ := idx_facts2 t
  show V c main_arg6 _ = V c main_arg6 _
  congr 1
  funext a
  apply Fin.ext
  match a with
  | ⟨0, _⟩ => show win2_1.index t (0 : Fin 2) * 256 + 1 * o.val = r.val; omega
  | ⟨1, _⟩ => show win2_1.index t (1 : Fin 2) * 128 + 1 * p.val = p.val; omega

theorem wblk2_apply (c : Dev nD) (t : Fin cfg2.N) (o : Fin 256) (p : Fin 128) (r : Fin 8192)
    (hr : r.val = 256 * (t.val / 64) + o.val) :
    iblk2 V c 2 t (ix2 o p) = V c main_arg7 (ix2 r p) := by
  obtain ⟨-, -, -, -, -, -, e0, e1, -⟩ := idx_facts2 t
  show V c main_arg7 _ = V c main_arg7 _
  congr 1
  funext a
  apply Fin.ext
  match a with
  | ⟨0, _⟩ => show win2_2.index t (0 : Fin 2) * 256 + 1 * o.val = r.val; omega
  | ⟨1, _⟩ => show win2_2.index t (1 : Fin 2) * 128 + 1 * p.val = p.val; omega

theorem bblk2_apply (c : Dev nD) (t : Fin cfg2.N) (o : Fin 256) (r : Fin 8192)
    (hr : r.val = 256 * (t.val / 64) + o.val) :
    iblk2 V c 3 t (ix1 o) = V c main_arg8 (ix1 r) := by
  obtain ⟨-, -, -, -, -, -, -, -, e0, -⟩ := idx_facts2 t
  show V c main_arg8 _ = V c main_arg8 _
  congr 1
  funext a
  apply Fin.ext
  match a with
  | ⟨0, _⟩ => show win2_3.index t (0 : Fin 1) * 256 + 1 * o.val = r.val; omega

theorem acc2_congr (c : Dev nD) {n n' : ℕ} (e : n = n') (h : n < cfg2.N) (h' : n' < cfg2.N) :
    acc2 V c n h = acc2 V c n' h' := by subst e; rfl

abbrev srow2 (c : Dev nD) (r : Fin 8192) : Fin 128 → ℕ := fun p => (V c main_arg6 (ix2 r p)).toNat
abbrev grow2 (c : Dev nD) (r : Fin 8192) : Fin 128 → EReal := fun p => Ideal.logistic (V c main_arg7 (ix2 r p))
abbrev xrow2 (c : Dev nD) (b : Fin 256) : Fin 8192 → EReal := fun i => V c main_v1 (ix2 b i)

abbrev contrib2 (c : Dev nD) (b : Fin 256) (r : Fin 8192) (ib : Fin 64) : EReal :=
  ∑ k : Fin 128, xrow2 V c b ⟨128 * ib.val + k.val, by have := ib.isLt; have := k.isLt; omega⟩
    * (∑ p : Fin 128, if srow2 V c r p = 128 * ib.val + k.val then grow2 V c r p else 0)

theorem term2_eq (c : Dev nD) (t : Fin cfg2.N) (ib : Fin 64) (hib : t.val % 64 = ib.val) (b o : Fin 256)
    (r : Fin 8192) (hr : r.val = 256 * (t.val / 64) + o.val) (a : Vec Ideal S256x256 .f32) :
    upd2 (grid2.coords t) (iblk2 V c 1 t) (iblk2 V c 2 t) (iblk2 V c 0 t) a (ix2 b o) = a (ix2 b o) + contrib2 V c b r ib := by
  obtain ⟨-, ec, -⟩ := idx_facts2 t
  rw [upd2_apply]
  refine congrArg _ (Finset.sum_congr rfl fun k _ => ?_)
  rw [xblk2_apply V c t b k ⟨128 * ib.val + k.val, by have := ib.isLt; have := k.isLt; omega⟩ (by show _ = _; rw [hib])]
  refine congrArg _ (Finset.sum_congr rfl fun p _ => ?_)
  rw [selblk2_apply V c t o p r hr, wblk2_apply V c t o p r hr, ec, hib]

theorem acc2_last (c : Dev nD) (ob : Fin 32) (b o : Fin 256) (r : Fin 8192) (hr : r.val = 256 * ob.val + o.val)
    (h : ob.val * 64 + (64 - 1) < cfg2.N) :
    acc2 V c (ob.val * 64 + (64 - 1)) h (ix2 b o) = ∑ ib : Fin 64, contrib2 V c b r ib := by
  refine Cert.PopAcc.acc_closed 64 (by decide) ob.val (contrib2 V c b r) (fun n hn => acc2 V c n hn (ix2 b o)) ?_ ?_ h
  · intro h0
    have hm := Cert.PopAcc.point_mod 64 ob.val 0 (by decide)
    have hd := Cert.PopAcc.point_div 64 ob.val 0 (by decide)
    refine (congrFun (acc2_reset V c ⟨_, h0⟩ hm) (ix2 b o)).trans ?_
    rw [term2_eq V c ⟨_, h0⟩ ⟨0, by decide⟩ hm b o r (by show r.val = 256 * ((ob.val * 64 + 0) / 64) + o.val; rw [hd]; exact hr),
      zero2_apply, zero_add]
  · intro ib hib hs
    have hm := Cert.PopAcc.point_mod 64 ob.val (ib + 1) hib
    have hd := Cert.PopAcc.point_div 64 ob.val (ib + 1) hib
    refine (congrFun (acc2_step V c ⟨_, hs⟩ (by show ¬(ob.val * 64 + (ib + 1)) % 64 = 0; rw [hm]; omega)) (ix2 b o)).trans ?_
    rw [term2_eq V c ⟨_, hs⟩ ⟨ib + 1, hib⟩ hm b o r (by show r.val = 256 * ((ob.val * 64 + (ib + 1)) / 64) + o.val; rw [hd]; exact hr),
      acc2_congr V c (show ob.val * 64 + (ib + 1) - 1 = ob.val * 64 + ib by omega) _ (by omega)]

abbrev G2 (c : Dev nD) : S256x8192.Idx → EReal := fun i =>
  Cert.Spec.pop (Cert.Spec.at2 (V c main_v1)) (Cert.Spec.nat2 (V c main_arg6)) (Cert.Spec.at2 (V c main_arg7))
    (Cert.Spec.at1 (V c main_arg8)) (i 0) (i 1)

theorem out2_last (c : Dev nD) (t : Fin cfg2.N) (ht : t.val % 64 = 63) (b o : Fin 256) (r : Fin 8192)
    (hr : r.val = 256 * (t.val / 64) + o.val) :
    outv2 (iblk2 V c 3 t) (acc2 V c t.val t.isLt) (ix2 b o) = G2 V c (ix2 b r) := by
  have hN : cfg2.N = 2048 := N_2
  have hlt := t.isLt
  have hob : t.val / 64 < 32 := by omega
  have hpt : t.val = (⟨t.val / 64, hob⟩ : Fin 32).val * 64 + (64 - 1) := by
    show t.val = t.val / 64 * 64 + (64 - 1); omega
  rw [outv2_apply, acc2_congr V c hpt t.isLt (by omega), acc2_last V c ⟨t.val / 64, hob⟩ b o r hr, bblk2_apply V c t o r hr,
    Cert.Law.onehot_blocks 64 (by decide) (xrow2 V c b) (srow2 V c r) (grow2 V c r) (fun p => Cert.Law.logistic_nonneg _)]
  rfl

theorem flushed2_eq (c : Dev nD) (t : Fin cfg2.N) (hf : (cfg2.win 4).flush t = true) :
    (dat2 V c).flushed 4 t = ((cfg2.win 4).blk t).view.read (Elt Ideal) (G2 V c) := by
  have ht : t.val % 64 = 63 := (flush2_4 t).mp hf
  have hN : cfg2.N = 2048 := N_2
  have hlt := t.isLt
  obtain ⟨-, -, -, -, -, -, -, -, -, e0, e1⟩ := idx_facts2 t
  show (cfg2.win 4).cut (grid2.coords t) ((dat2 V c).after 4 t) = _
  rw [after2_4]
  funext j
  obtain ⟨b, o, rfl⟩ : ∃ (b o : Fin 256), j = ix2 b o := ⟨j 0, j 1, eq_ix2 j⟩
  rw [View.read_apply]
  show outv2 (iblk2 V c 3 t) (acc2 V c t.val t.isLt) (ix2 b o) = G2 V c (((cfg2.win 4).blk t).view.emb (ix2 b o))
  rw [out2_last V c t ht b o ⟨256 * (t.val / 64) + o.val, by have := o.isLt; omega⟩ rfl]
  congr 1
  funext a
  apply Fin.ext
  match a with
  | ⟨0, _⟩ => show b.val = win2_4.index t (0 : Fin 2) * 256 + 1 * b.val; omega
  | ⟨1, _⟩ => show 256 * (t.val / 64) + o.val = win2_4.index t (1 : Fin 2) * 256 + 1 * o.val; omega

theorem cover2_4 (i : S256x8192.Idx) :
    ∃ t : Fin cfg2.N, (cfg2.win 4).flush t = true ∧ i ∈ ((cfg2.win 4).blk t).view.set := by
  have hN : cfg2.N = 2048 := N_2
  have hi0 : (i 0).val < 256 := (i 0).isLt
  have hi1 : (i 1).val < 8192 := (i 1).isLt
  obtain ⟨t, ht⟩ : ∃ t : Fin cfg2.N, t.val = (i 1).val / 256 * 64 + 63 := ⟨⟨_, by omega⟩, rfl⟩
  obtain ⟨-, -, -, -, -, -, -, -, -, e0, e1⟩ := idx_facts2 t
  refine ⟨t, (flush2_4 t).mpr (by omega), ?_⟩
  show i ∈ ((View.whole main_v2).slice (win2_4.rect t)).set
  rw [View.set_slice_whole, Rect.mem_set_unit]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 256 ≤ (i 1).val ∧ (i 1).val < win2_4.index t (1 : Fin 2) * 256 + 256; omega

theorem arrAt2_out (c : Dev nD) : (dat2 V c).arrAt 4 cfg2.N = fun i =>
    Cert.Spec.pop (Cert.Spec.at2 (V c main_v1)) (Cert.Spec.nat2 (V c main_arg6)) (Cert.Spec.at2 (V c main_arg7))
      (Cert.Spec.at1 (V c main_arg8)) (i 0) (i 1) :=
  (dat2 V c).arrAt_eq_of_cover 4 (G2 V c) (flushed2_eq V c) cover2_4

end Cert.KernelIdeal.Hand
end
-- ==== Proof.KILn3Value.lean ====
import proofs.«409654_j14731737825611_1_alg».proof.Proof.KILn3
import proofs.«409654_j14731737825611_1_alg».proof.Proof.KILn1Value

noncomputable section

namespace Cert.KernelIdeal.Hand

open Cert.KernelIdeal Cert.KernelIdeal.Gen
open Idealize.ShloMosaic Idealize.ShloMosaic.TcCoe Idealize.ShloMosaic.ValueIdx

section Region3Value

variable (V : (c : Dev nD) → (b : Ref sig .tc) → Buf (Elt Ideal) ((c : Thread nD τ).loc b))

abbrev lnArr3 (c : Dev nD) : Vec Ideal S256x8192 .f32 :=
  fun i => Cert.Spec.ln (Cert.Spec.at2 (V c main_v2)) (Cert.Spec.at1 (V c main_arg9)) (Cert.Spec.at1 (V c main_arg10)) (i 0) (i 1)

-- what point `t` leaves is rows `128 t … 128 t + 127` of the normalised array: its input block is those rows, the scale and the shift are whole
theorem flushed3_eq (c : Dev nD) (t : Fin cfg3.N) :
    (dat3 V c).flushed 3 t = ((cfg3.win 3).blk t).view.read (Elt Ideal) (lnArr3 V c) := by
  funext y
  obtain ⟨r, j, rfl⟩ : ∃ (r : Fin 128) (j : Fin 8192), y = ix2 r j := ⟨y 0, y 1, eq_ix2 y⟩
  show k1_pay1 (iblk3 V c 0 t) (iblk3 V c 1 t) (iblk3 V c 2 t) (ix2 r j) = lnArr3 V c (((cfg3.win 3).blk t).view.emb (ix2 r j))
  refine pay1_ln_eq_spec _ _ _ _ _ _ r j _ _ ?_ (fun k => congrArg (V c main_v2) (Shape.idx_ext₂ rfl ?_))
    (funext fun x => congrArg (V c main_arg9) (funext fun a => Fin.ext ?_)) (funext fun x => congrArg (V c main_arg10) (funext fun a => Fin.ext ?_))
  · show 0 * 8192 + 1 * j.val = j.val; omega
  · show 0 * 8192 + 1 * k.val = k.val; omega
  · match a with | ⟨0, _⟩ => show 0 * 8192 + 1 * (x 0).val = (x 0).val; omega
  · match a with | ⟨0, _⟩ => show 0 * 8192 + 1 * (x 0).val = (x 0).val; omega

-- row `b` of the output array lies in the block of point `b / 128`
theorem cover3 (i : S256x8192.Idx) : ∃ t : Fin cfg3.N, (cfg3.win 3).flush t = true ∧ i ∈ ((cfg3.win 3).blk t).view.set := by
  have hi0 : (i 0).val < 256 := (i 0).isLt
  have hi1 : (i 1).val < 8192 := (i 1).isLt
  have ht : (i 0).val / 128 < cfg3.N := by rw [show cfg3.N = 2 from N_3]; omega
  refine ⟨⟨_, ht⟩, flush3_3 _, ?_⟩
  show i ∈ ((View.whole main_v3).slice (win3_3.rect ⟨_, ht⟩)).set
  rw [View.set_slice_whole, Rect.mem_set_unit]
  intro a
  match a with
  | ⟨0, _⟩ =>
    show win3_3.index ⟨_, ht⟩ (0 : Fin 2) * 128 ≤ (i 0).val ∧ (i 0).val < win3_3.index ⟨_, ht⟩ (0 : Fin 2) * 128 + 128
    simp only [(by decide +kernel : ∀ t : Fin grid3.N, win3_3.index t (0 : Fin 2) = t.val)]; omega
  | ⟨1, _⟩ => show 0 * 8192 ≤ (i 1).val ∧ (i 1).val < 0 * 8192 + 8192; omega

theorem arrAt3_out (c : Dev nD) : (dat3 V c).arrAt 3 cfg3.N = lnArr3 V c :=
  (dat3 V c).arrAt_eq_of_cover 3 (lnArr3 V c) (fun t _ => flushed3_eq V c t) cover3

end Region3Value

end Cert.KernelIdeal.Hand

end
-- ==== Proof.KIPop4Pay.lean ====
import proofs.«409654_j14731737825611_1_alg».proof.Proof.KIPop4Defs
import proofs.«409654_j14731737825611_1_alg».proof.Proof.LibPopPay

noncomputable section

namespace Cert.KernelIdeal.Hand
open Idealize.ShloMosaic Idealize.ShloMosaic.ValueIdx Cert.KernelIdeal Cert.KernelIdeal.Gen Cert.LibPopPay
open scoped BigOperators

/-- The 128 selection steps sum, for column `k`, the gates of the slots of unit `o` whose word is `128 * ib + k`; the block product contracts that against row `b` of the input block. -/
theorem upd4_apply (i : grid4.Coords) (v3 : Vec Ideal S256x128 .i32) (v4 v6 : Vec Ideal S256x128 .f32)
    (acc : Vec Ideal S256x256 .f32) (b o : Fin 256) :
    upd4 i v3 v4 v6 acc (ix2 b o) = acc (ix2 b o) + ∑ k : Fin 128, v6 (ix2 b k) *
      (∑ p : Fin 128, if (v3 (ix2 o p)).toNat = 128 * (i 1).val + k.val then Ideal.logistic (v4 (ix2 o p)) else 0) := by
  simp only [upd4, k4_pay69, k4_pay4,
    k4_pay6, k4_pay7, k4_pay8, k4_pay9, k4_pay10, k4_pay11, k4_pay12, k4_pay13, k4_pay14,
    k4_pay15, k4_pay16, k4_pay17, k4_pay18, k4_pay19, k4_pay20, k4_pay21, k4_pay22, k4_pay23,
    k4_pay24, k4_pay25, k4_pay26, k4_pay27, k4_pay28, k4_pay29, k4_pay30, k4_pay31, k4_pay32,
    k4_pay33, k4_pay34, k4_pay35, k4_pay36, k4_pay37, k4_pay38, k4_pay39, k4_pay40, k4_pay41,
    k4_pay42, k4_pay43, k4_pay44, k4_pay45, k4_pay46, k4_pay47, k4_pay48, k4_pay49, k4_pay50,
    k4_pay51, k4_pay52, k4_pay53, k4_pay54, k4_pay55, k4_pay56, k4_pay57, k4_pay58, k4_pay59,
    k4_pay60, k4_pay61, k4_pay62, k4_pay63, k4_pay64, k4_pay65, k4_pay66, k4_pay67, k4_pay68,
    shapeCast_self, addf_apply, mm_apply, truncf_apply, step_apply, broadcast_apply, psum_first, psum_succ, Nat.reduceAdd]
  refine congrArg (acc (ix2 b o) + ·) (Finset.sum_congr rfl fun k _ => congrArg (v6 (ix2 b k) * ·) ?_)
  exact psum_cntv (i 1).val ((i 1).isLt.trans (by decide)) v3 _ o k

theorem outv4_apply (bias : Vec Ideal S256 .f32) (acc : Vec Ideal S256x256 .f32) (b o : Fin 256) :
    outv4 bias acc (ix2 b o) = Ideal.logistic (acc (ix2 b o) - bias (ix1 o)) :=
  outv_apply bias acc _ _ b o

theorem zero4_apply (b o : Fin 256) : zero4 (F := Ideal) (ix2 b o) = 0 := zero_apply shapeCasts_S256x256_S256x256 (ix2 b o)

end Cert.KernelIdeal.Hand
end
-- ==== Proof.KIPop4Value.lean ====
import proofs.«409654_j14731737825611_1_alg».proof.Proof.Gen.KernelIdeal.Points
import proofs.«409654_j14731737825611_1_alg».proof.Proof.KIPop4
import proofs.«409654_j14731737825611_1_alg».proof.Proof.KIPop4Pay
import proofs.«409654_j14731737825611_1_alg».proof.Proof.Spec
import proofs.«409654_j14731737825611_1_alg».proof.Proof.LawOneHot
import proofs.«409654_j14731737825611_1_alg».proof.Proof.KIPopAcc
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

theorem idx_facts4 : ∀ t : Fin cfg4.N,
    (grid4.coords t 0).val = t.val / 64 ∧ (grid4.coords t 1).val = t.val % 64
    ∧ win4_0.index t (0 : Fin 2) = 0 ∧ win4_0.index t (1 : Fin 2) = t.val % 64
    ∧ win4_1.index t (0 : Fin 2) = t.val / 64 ∧ win4_1.index t (1 : Fin 2) = 0
    ∧ win4_2.index t (0 : Fin 2) = t.val / 64 ∧ win4_2.index t (1 : Fin 2) = 0
    ∧ win4_3.index t (0 : Fin 1) = t.val / 64
    ∧ win4_4.index t (0 : Fin 2) = 0 ∧ win4_4.index t (1 : Fin 2) = t.val / 64 :=
  (by decide +kernel : ∀ t : Fin grid4.N, _)

theorem xblk4_apply (c : Dev nD) (t : Fin cfg4.N) (b : Fin 256) (k : Fin 128) (i : Fin 8192)
    (hi : i.val = 128 * (t.val % 64) + k.val) :
    iblk4 V c 0 t (ix2 b k) = V c main_v3 (ix2 b i) := by
  obtain ⟨-, -, e0, e1, -⟩ := idx_facts4 t
  show V c main_v3 _ = V c main_v3 _
  congr 1
  funext a
  apply Fin.ext
  match a with
  | ⟨0, _⟩ => show win4_0.index t (0 : Fin 2) * 256 + 1 * b.val = b.val; omega
  | ⟨1, _⟩ => show win4_0.index t (1 : Fin 2) * 128 + 1 * k.val = i.val; omega

theorem selblk4_apply (c : Dev nD) (t : Fin cfg4.N) (o : Fin 256) (p : Fin 128) (r : Fin 4096)
    (hr : r.val = 256 * (t.val / 64) + o.val) :
    iblk4 V c 1 t (ix2 o p) = V c main_arg11 (ix2 r p) := by
  obtain ⟨-, -, -, -, e0, e1, -⟩ := idx_facts4 t
  show V c main_arg11 _ = V c main_arg11 _
  congr 1
  funext a
  apply Fin.ext
  match a with
  | ⟨0, _⟩ => show win4_1.index t (0 : Fin 2) * 256 + 1 * o.val = r.val; omega
  | ⟨1, _⟩ => show win4_1.index t (1 : Fin 2) * 128 + 1 * p.val = p.val; omega

theorem wblk4_apply (c : Dev nD) (t : Fin cfg4.N) (o : Fin 256) (p : Fin 128) (r : Fin 4096)
    (hr : r.val = 256 * (t.val / 64) + o.val) :
    iblk4 V c 2 t (ix2 o p) = V c main_arg12 (ix2 r p) := by
  obtain ⟨-, -, -, -, -, -, e0, e1, -⟩ := idx_facts4 t
  show V c main_arg12 _ = V c main_arg12 _
  congr 1
  funext a
  apply Fin.ext
  match a with
  | ⟨0, _⟩ => show win4_2.index t (0 : Fin 2) * 256 + 1 * o.val = r.val; omega
  | ⟨1, _⟩ => show win4_2.index t (1 : Fin 2) * 128 + 1 * p.val = p.val; omega

theorem bblk4_apply (c : Dev nD) (t : Fin cfg4.N) (o : Fin 256) (r : Fin 4096)
    (hr : r.val = 256 * (t.val / 64) + o.val) :
    iblk4 V c 3 t (ix1 o) = V c main_arg13 (ix1 r) := by
  obtain ⟨-, -, -, -, -, -, -, -, e0, -⟩ := idx_facts4 t
  show V c main_arg13 _ = V c main_arg13 _
  congr 1
  funext a
  apply Fin.ext
  match a with
  | ⟨0, _⟩ => show win4_3.index t (0 : Fin 1) * 256 + 1 * o.val = r.val; omega

theorem acc4_congr (c : Dev nD) {n n' : ℕ} (e : n = n') (h : n < cfg4.N) (h' : n' < cfg4.N) :
    acc4 V c n h = acc4 V c n' h' := by subst e; rfl

abbrev srow4 (c : Dev nD) (r : Fin 4096) : Fin 128 → ℕ := fun p => (V c main_arg11 (ix2 r p)).toNat
abbrev grow4 (c : Dev nD) (r : Fin 4096) : Fin 128 → EReal := fun p => Ideal.logistic (V c main_arg12 (ix2 r p))
abbrev xrow4 (c : Dev nD) (b : Fin 256) : Fin 8192 → EReal := fun i => V c main_v3 (ix2 b i)

abbrev contrib4 (c : Dev nD) (b : Fin 256) (r : Fin 4096) (ib : Fin 64) : EReal :=
  ∑ k : Fin 128, xrow4 V c b ⟨128 * ib.val + k.val, by have := ib.isLt; have := k.isLt; omega⟩
    * (∑ p : Fin 128, if srow4 V c r p = 128 * ib.val + k.val then grow4 V c r p else 0)

theorem term4_eq (c : Dev nD) (t : Fin cfg4.N) (ib : Fin 64) (hib : t.val % 64 = ib.val) (b o : Fin 256)
    (r : Fin 4096) (hr : r.val = 256 * (t.val / 64) + o.val) (a : Vec Ideal S256x256 .f32) :
    upd4 (grid4.coords t) (iblk4 V c 1 t) (iblk4 V c 2 t) (iblk4 V c 0 t) a (ix2 b o) = a (ix2 b o) + contrib4 V c b r ib := by
  obtain ⟨-, ec, -⟩ := idx_facts4 t
  rw [upd4_apply]
  refine congrArg _ (Finset.sum_congr rfl fun k _ => ?_)
  rw [xblk4_apply V c t b k ⟨128 * ib.val + k.val, by have := ib.isLt; have := k.isLt; omega⟩ (by show _ = _; rw [hib])]
  refine congrArg _ (Finset.sum_congr rfl fun p _ => ?_)
  rw [selblk4_apply V c t o p r hr, wblk4_apply V c t o p r hr, ec, hib]

theorem acc4_last (c : Dev nD) (ob : Fin 16) (b o : Fin 256) (r : Fin 4096) (hr : r.val = 256 * ob.val + o.val)
    (h : ob.val * 64 + (64 - 1) < cfg4.N) :
    acc4 V c (ob.val * 64 + (64 - 1)) h (ix2 b o) = ∑ ib : Fin 64, contrib4 V c b r ib := by
  refine Cert.PopAcc.acc_closed 64 (by decide) ob.val (contrib4 V c b r) (fun n hn => acc4 V c n hn (ix2 b o)) ?_ ?_ h
  · intro h0
    have hm := Cert.PopAcc.point_mod 64 ob.val 0 (by decide)
    have hd := Cert.PopAcc.point_div 64 ob.val 0 (by decide)
    refine (congrFun (acc4_reset V c ⟨_, h0⟩ hm) (ix2 b o)).trans ?_
    rw [term4_eq V c ⟨_, h0⟩ ⟨0, by decide⟩ hm b o r (by show r.val = 256 * ((ob.val * 64 + 0) / 64) + o.val; rw [hd]; exact hr),
      zero4_apply, zero_add]
  · intro ib hib hs
    have hm := Cert.PopAcc.point_mod 64 ob.val (ib + 1) hib
    have hd := Cert.PopAcc.point_div 64 ob.val (ib + 1) hib
    refine (congrFun (acc4_step V c ⟨_, hs⟩ (by show ¬(ob.val * 64 + (ib + 1)) % 64 = 0; rw [hm]; omega)) (ix2 b o)).trans ?_
    rw [term4_eq V c ⟨_, hs⟩ ⟨ib + 1, hib⟩ hm b o r (by show r.val = 256 * ((ob.val * 64 + (ib + 1)) / 64) + o.val; rw [hd]; exact hr),
      acc4_congr V c (show ob.val * 64 + (ib + 1) - 1 = ob.val * 64 + ib by omega) _ (by omega)]

abbrev G4 (c : Dev nD) : S256x4096.Idx → EReal := fun i =>
  Cert.Spec.pop (Cert.Spec.at2 (V c main_v3)) (Cert.Spec.nat2 (V c main_arg11)) (Cert.Spec.at2 (V c main_arg12))
    (Cert.Spec.at1 (V c main_arg13)) (i 0) (i 1)

theorem out4_last (c : Dev nD) (t : Fin cfg4.N) (ht : t.val % 64 = 63) (b o : Fin 256) (r : Fin 4096)
    (hr : r.val = 256 * (t.val / 64) + o.val) :
    outv4 (iblk4 V c 3 t) (acc4 V c t.val t.isLt) (ix2 b o) = G4 V c (ix2 b r) := by
  have hN : cfg4.N = 1024 := N_4
  have hlt := t.isLt
  have hob : t.val / 64 < 16 := by omega
  have hpt : t.val = (⟨t.val / 64, hob⟩ : Fin 16).val * 64 + (64 - 1) := by
    show t.val = t.val / 64 * 64 + (64 - 1); omega
  rw [outv4_apply, acc4_congr V c hpt t.isLt (by omega), acc4_last V c ⟨t.val / 64, hob⟩ b o r hr, bblk4_apply V c t o r hr,
    Cert.Law.onehot_blocks 64 (by decide) (xrow4 V c b) (srow4 V c r) (grow4 V c r) (fun p => Cert.Law.logistic_nonneg _)]
  rfl

theorem flushed4_eq (c : Dev nD) (t : Fin cfg4.N) (hf : (cfg4.win 4).flush t = true) :
    (dat4 V c).flushed 4 t = ((cfg4.win 4).blk t).view.read (Elt Ideal) (G4 V c) := by
  have ht : t.val % 64 = 63 := (flush4_4 t).mp hf
  have hN : cfg4.N = 1024 := N_4
  have hlt := t.isLt
  obtain ⟨-, -, -, -, -, -, -, -, -, e0, e1⟩ := idx_facts4 t
  show (cfg4.win 4).cut (grid4.coords t) ((dat4 V c).after 4 t) = _
  rw [after4_4]
  funext j
  obtain ⟨b, o, rfl⟩ : ∃ (b o : Fin 256), j = ix2 b o := ⟨j 0, j 1, eq_ix2 j⟩
  rw [View.read_apply]
  show outv4 (iblk4 V c 3 t) (acc4 V c t.val t.isLt) (ix2 b o) = G4 V c (((cfg4.win 4).blk t).view.emb (ix2 b o))
  rw [out4_last V c t ht b o ⟨256 * (t.val / 64) + o.val, by have := o.isLt; omega⟩ rfl]
  congr 1
  funext a
  apply Fin.ext
  match a with
  | ⟨0, _⟩ => show b.val = win4_4.index t (0 : Fin 2) * 256 + 1 * b.val; omega
  | ⟨1, _⟩ => show 256 * (t.val / 64) + o.val = win4_4.index t (1 : Fin 2) * 256 + 1 * o.val; omega

theorem cover4_4 (i : S256x4096.Idx) :
    ∃ t : Fin cfg4.N, (cfg4.win 4).flush t = true ∧ i ∈ ((cfg4.win 4).blk t).view.set := by
  have hN : cfg4.N = 1024 := N_4
  have hi0 : (i 0).val < 256 := (i 0).isLt
  have hi1 : (i 1).val < 4096 := (i 1).isLt
  obtain ⟨t, ht⟩ : ∃ t : Fin cfg4.N, t.val = (i 1).val / 256 * 64 + 63 := ⟨⟨_, by omega⟩, rfl⟩
  obtain ⟨-, -, -, -, -, -, -, -, -, e0, e1⟩ := idx_facts4 t
  refine ⟨t, (flush4_4 t).mpr (by omega), ?_⟩
  show i ∈ ((View.whole main_v4).slice (win4_4.rect t)).set
  rw [View.set_slice_whole, Rect.mem_set_unit]
  intro a
  match a with
  | ⟨0, _⟩ => show win4_4.index t (0 : Fin 2) * 256 ≤ (i 0).val ∧ (i 0).val < win4_4.index t (0 : Fin 2) * 256 + 256; omega
  | ⟨1, _⟩ => show win4_4.index t (1 : Fin 2) * 256 ≤ (i 1).val ∧ (i 1).val < win4_4.index t (1 : Fin 2) * 256 + 256; omega

theorem arrAt4_out (c : Dev nD) : (dat4 V c).arrAt 4 cfg4.N = fun i =>
    Cert.Spec.pop (Cert.Spec.at2 (V c main_v3)) (Cert.Spec.nat2 (V c main_arg11)) (Cert.Spec.at2 (V c main_arg12))
      (Cert.Spec.at1 (V c main_arg13)) (i 0) (i 1) :=
  (dat4 V c).arrAt_eq_of_cover 4 (G4 V c) (flushed4_eq V c) cover4_4

end Cert.KernelIdeal.Hand
end
-- ==== Proof.KITail.lean ====
import proofs.«409654_j14731737825611_1_alg».proof.Proof.Gen.KernelIdeal.Launch
import proofs.«409654_j14731737825611_1_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

theorem reduces_d2 : S256x256x16.Reduces [2] S256x256 := by decide

theorem tail_apply (W : Valuation τ sig (Elt Ideal)) :
    StableHlo.after (hostOps5 (F := Ideal)) W (Proc.devRef .tc main_v8)
      = fun i => Cert.Spec.tail
          (Cert.Spec.at2 (W (Proc.devRef .tc main_v4) : (⟨2, ![256, 4096]⟩ : Shape).Idx → EReal)) (i 0) (i 1) := by
  after_results
  funext i

  show Ideal.hostReduceAdd reducesTo_S256x256x16_S256x256_d2 _ _ i - Ideal.ofBits .f32 0x41000000#32 = _
  rw [Ideal.hostReduceAdd_single reducesTo_S256x256x16_S256x256_d2 reduces_d2]
  rw [show constant (F := Ideal) S_ .f32 0x00000000#32 (Shape.Idx.first h_S_) = 0 from Ideal.ofBits_zero_f32,
    zero_add]
  unfold Cert.Spec.tail
  refine congrArg (fun s : EReal => s - Ideal.ofBits .f32 0x41000000#32) ?_
  refine Finset.sum_congr rfl (fun r _ => ?_)

  show shapeCast (⟨3, ![256, 256, 16]⟩ : Shape)
      (W (Proc.devRef .tc main_v4) : (⟨2, ![256, 4096]⟩ : Shape).Idx → EReal)
      shapeCasts_S256x4096_S256x256x16 (reduces_d2.lift i r)
    = (W (Proc.devRef .tc main_v4) : (⟨2, ![256, 4096]⟩ : Shape).Idx → EReal)
        (ix2 (i 0) ⟨(i 1).val * 16 + r.val, _⟩)
  refine shapeCast_apply (s := (⟨2, ![256, 4096]⟩ : Shape)) (t := (⟨3, ![256, 256, 16]⟩ : Shape)) _ _ _ _ ?_
  show ((⟨2, ![256, 4096]⟩ : Shape).rowMajor (ix2 (i 0) ⟨(i 1).val * 16 + r.val, _⟩)).val
    = ((⟨3, ![256, 256, 16]⟩ : Shape).rowMajor (reduces_d2.lift i r)).val
  rw [Shape.rowMajor_val_two, Shape.rowMajor_val_three]
  show (i 0).val * 4096 + ((i 1).val * 16 + r.val) = ((i 0).val * 256 + (i 1).val) * 16 + r.val
  omega

end Cert.KernelIdeal.Hand

end
-- ==== Proof.KIValueRun.lean ====
import proofs.«409654_j14731737825611_1_alg».proof.Proof.KIFrame
import proofs.«409654_j14731737825611_1_alg».proof.Proof.KIPop0Value
import proofs.«409654_j14731737825611_1_alg».proof.Proof.KILn1Value
import proofs.«409654_j14731737825611_1_alg».proof.Proof.KIPop2Value
import proofs.«409654_j14731737825611_1_alg».proof.Proof.KILn3Value
import proofs.«409654_j14731737825611_1_alg».proof.Proof.KIPop4Value
import proofs.«409654_j14731737825611_1_alg».proof.Proof.KITail
import proofs.«409654_j14731737825611_1_alg».proof.Proof.KIValueCond
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A buffer that is none of the first four regions' outputs keeps its initial contents through them. -/
theorem W_base (c : Dev nD) (r : Ref sig .tc) (h : ∀ v ∈ [main_v0, main_v1, main_v2, main_v3], r ≠ v) :
    W1 m c r = Gen.V0 m c r ∧ W2 m c r = Gen.V0 m c r ∧ W3 m c r = Gen.V0 m c r ∧ W4 m c r = Gen.V0 m c r := by
  have h1 := W1_ne m c r (h _ (by simp))
  have h2 := (W2_ne m c r (h _ (by simp))).trans h1
  have h3 := (W3_ne m c r (h _ (by simp))).trans h2
  exact ⟨h1, h2, h3, (W4_ne m c r (h _ (by simp))).trans h3⟩

open Cert.Spec (pop ln at1 at2 nat2)

def g1 (c : Dev nD) : Fin 256 → Fin 8192 → EReal :=
  pop (at2 (Gen.V0 m c main_arg0)) (nat2 (Gen.V0 m c main_arg1)) (at2 (Gen.V0 m c main_arg2)) (at1 (Gen.V0 m c main_arg3))

def g2 (c : Dev nD) : Fin 256 → Fin 8192 → EReal :=
  ln (g1 m c) (at1 (Gen.V0 m c main_arg4)) (at1 (Gen.V0 m c main_arg5))

def g3 (c : Dev nD) : Fin 256 → Fin 8192 → EReal :=
  pop (g2 m c) (nat2 (Gen.V0 m c main_arg6)) (at2 (Gen.V0 m c main_arg7)) (at1 (Gen.V0 m c main_arg8))

def g4 (c : Dev nD) : Fin 256 → Fin 8192 → EReal :=
  ln (g3 m c) (at1 (Gen.V0 m c main_arg9)) (at1 (Gen.V0 m c main_arg10))

def g5 (c : Dev nD) : Fin 256 → Fin 4096 → EReal :=
  pop (g4 m c) (nat2 (Gen.V0 m c main_arg11)) (at2 (Gen.V0 m c main_arg12)) (at1 (Gen.V0 m c main_arg13))

theorem out1 (c : Dev nD) : W1 m c main_v0 = fun i => g1 m c (i 0) (i 1) := by
  rw [W1_out, o1, arrAt0_out (U0 m) c]
  rfl

theorem out2 (c : Dev nD) : W2 m c main_v1 = fun i => g2 m c (i 0) (i 1) := by
  have e : (dat1 (U1 m) c).arrAt 3 cfg1.N
      = fun i : S256x8192.Idx => ln (at2 (W1 m c main_v0)) (at1 (W1 m c main_arg4)) (at1 (W1 m c main_arg5)) (i 0) (i 1) :=
    arrAt1_out (U1 m) c
  rw [W2_out, o2, e, out1 m c, (W_base m c main_arg4 (by decide)).1, (W_base m c main_arg5 (by decide)).1]
  rfl

theorem out3 (c : Dev nD) : W3 m c main_v2 = fun i => g3 m c (i 0) (i 1) := by
  rw [W3_out, o3, arrAt2_out (U2 m) c]
  dsimp only [U2]
  rw [out2 m c, (W_base m c main_arg6 (by decide)).2.1, (W_base m c main_arg7 (by decide)).2.1,
    (W_base m c main_arg8 (by decide)).2.1]
  rfl

theorem out4 (c : Dev nD) : W4 m c main_v3 = fun i => g4 m c (i 0) (i 1) := by
  have e : (dat3 (U3 m) c).arrAt 3 cfg3.N
      = fun i : S256x8192.Idx => ln (at2 (W3 m c main_v2)) (at1 (W3 m c main_arg9)) (at1 (W3 m c main_arg10)) (i 0) (i 1) :=
    arrAt3_out (U3 m) c
  rw [W4_out, o4, e, out3 m c, (W_base m c main_arg9 (by decide)).2.2.1, (W_base m c main_arg10 (by decide)).2.2.1]
  rfl

theorem out5 (c : Dev nD) : W5 m c main_v4 = fun i => g5 m c (i 0) (i 1) := by
  rw [W5_out, o5, arrAt4_out (U4 m) c]
  dsimp only [U4]
  rw [out4 m c, (W_base m c main_arg11 (by decide)).2.2.2, (W_base m c main_arg12 (by decide)).2.2.2,
    (W_base m c main_arg13 (by decide)).2.2.2]
  rfl

abbrev GK (c : Dev nD) : Buf (Elt Ideal) ((c.tc : Thread nD τ).loc main_v8) :=
  Cert.Spec.GArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

theorem V6_result (c : Dev nD) : Gen.V6 m (outs m) c (Proc.devRef .tc main_v8) = GK m c := by
  show StableHlo.after (hostOps5 (F := Ideal)) (Gen.V5 m (outs m) c) (Proc.devRef .tc main_v8) = _
  rw [tail_apply, V5_eq, out5 m c]
  rfl

set_option backward.isDefEq.respectTransparency.types false in
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v8) = GK m c ∧ Kept m r.2.mem c) := by
  have hv := value_cond (F := Ideal) m launchEP () Variants.none launchL launchLv launch_hL ρ (outs m) (pdats m) launchO₀ launchG launchU₀
    launch_hu₀ (launchE (F := Ideal)) (launch_hE0 ρ) launch_hE5
    (reg0 m) (fun c => .rfl) (fun c => by rw [V1_eq]; exact .rfl)
    (reg1 m) (fun c => by rw [V1_eq]; exact .rfl) (fun c => by rw [V2_eq]; exact .rfl)
    (reg2 m) (fun c => by rw [V2_eq]; exact .rfl) (fun c => by rw [V3_eq]; exact .rfl)
    (reg3 m) (fun c => by rw [V3_eq]; exact .rfl) (fun c => by rw [V4_eq]; exact .rfl)
    (reg4 m) (fun c => by rw [V4_eq]; exact .rfl) (fun c => by rw [V5_eq]; exact .rfl)
  exact (θ_run _ _ _).mono (fun r h c => ⟨(h c).1.trans (V6_result m c), (h c).2⟩) hv

end Cert.KernelIdeal.Hand

end
-- ==== Proof.KPop0Defs.lean ====
import proofs.«409654_j14731737825611_1_alg».proof.Defs
import proofs.«409654_j14731737825611_1_alg».proof.Proof.Gen.Kernel.Skeleton

noncomputable section

namespace Cert.Kernel.Hand
open Idealize.ShloMosaic Idealize.SL.Sem Cert.Kernel Cert.Kernel.Gen

variable {F : FTy → Type} [FloatOps F]

/-- The accumulated block after one input block, as a function of the blocks read: the 128 selection steps, the block product, the sum. -/
def upd0 (i : grid0.Coords) (v3 : Vec F S256x128 .i32) (v4 v6 : Vec F S256x128 .f32)
    (acc : Vec F S256x256 .f32) : FVec F S256x256 .f32 :=
  k0_pay68 v3 (k0_pay3 v4) v6 (k0_pay4 i)
      (k0_pay65 v3 (k0_pay3 v4) (k0_pay4 i)
      (k0_pay62 v3 (k0_pay3 v4) (k0_pay4 i)
      (k0_pay59 v3 (k0_pay3 v4) (k0_pay4 i)
      (k0_pay56 v3 (k0_pay3 v4) (k0_pay4 i)
      (k0_pay53 v3 (k0_pay3 v4) (k0_pay4 i)
      (k0_pay50 v3 (k0_pay3 v4) (k0_pay4 i)
      (k0_pay47 v3 (k0_pay3 v4) (k0_pay4 i)
      (k0_pay44 v3 (k0_pay3 v4) (k0_pay4 i)
      (k0_pay41 v3 (k0_pay3 v4) (k0_pay4 i)
      (k0_pay38 v3 (k0_pay3 v4) (k0_pay4 i)
      (k0_pay35 v3 (k0_pay3 v4) (k0_pay4 i)
      (k0_pay32 v3 (k0_pay3 v4) (k0_pay4 i)
      (k0_pay29 v3 (k0_pay3 v4) (k0_pay4 i)
      (k0_pay26 v3 (k0_pay3 v4) (k0_pay4 i)
      (k0_pay23 v3 (k0_pay3 v4) (k0_pay4 i)
      (k0_pay20 v3 (k0_pay3 v4) (k0_pay4 i)
      (k0_pay17 v3 (k0_pay3 v4) (k0_pay4 i)
      (k0_pay14 v3 (k0_pay3 v4) (k0_pay4 i)
      (k0_pay11 v3 (k0_pay3 v4) (k0_pay4 i)
      (k0_pay8 v3 (k0_pay3 v4) (k0_pay4 i)
      (k0_pay5 i v3 v4)
      (k0_pay6 v4) (k0_pay7 i v3) (Scalar.ofBits .f32 0x00000000#32))
      (k0_pay9 (k0_pay3 v4)) (k0_pay10 v3 (k0_pay4 i)) (Scalar.ofBits .f32 0x00000000#32))
      (k0_pay12 (k0_pay3 v4)) (k0_pay13 v3 (k0_pay4 i)) (Scalar.ofBits .f32 0x00000000#32))
      (k0_pay15 (k0_pay3 v4)) (k0_pay16 v3 (k0_pay4 i)) (Scalar.ofBits .f32 0x00000000#32))
      (k0_pay18 (k0_pay3 v4)) (k0_pay19 v3 (k0_pay4 i)) (Scalar.ofBits .f32 0x00000000#32))
      (k0_pay21 (k0_pay3 v4)) (k0_pay22 v3 (k0_pay4 i)) (Scalar.ofBits .f32 0x00000000#32))
      (k0_pay24 (k0_pay3 v4)) (k0_pay25 v3 (k0_pay4 i)) (Scalar.ofBits .f32 0x00000000#32))
      (k0_pay27 (k0_pay3 v4)) (k0_pay28 v3 (k0_pay4 i)) (Scalar.ofBits .f32 0x00000000#32))
      (k0_pay30 (k0_pay3 v4)) (k0_pay31 v3 (k0_pay4 i)) (Scalar.ofBits .f32 0x00000000#32))
      (k0_pay33 (k0_pay3 v4)) (k0_pay34 v3 (k0_pay4 i)) (Scalar.ofBits .f32 0x00000000#32))
      (k0_pay36 (k0_pay3 v4)) (k0_pay37 v3 (k0_pay4 i)) (Scalar.ofBits .f32 0x00000000#32))
      (k0_pay39 (k0_pay3 v4)) (k0_pay40 v3 (k0_pay4 i)) (Scalar.ofBits .f32 0x00000000#32))
      (k0_pay42 (k0_pay3 v4)) (k0_pay43 v3 (k0_pay4 i)) (Scalar.ofBits .f32 0x00000000#32))
      (k0_pay45 (k0_pay3 v4)) (k0_pay46 v3 (k0_pay4 i)) (Scalar.ofBits .f32 0x00000000#32))
      (k0_pay48 (k0_pay3 v4)) (k0_pay49 v3 (k0_pay4 i)) (Scalar.ofBits .f32 0x00000000#32))
      (k0_pay51 (k0_pay3 v4)) (k0_pay52 v3 (k0_pay4 i)) (Scalar.ofBits .f32 0x00000000#32))
      (k0_pay54 (k0_pay3 v4)) (k0_pay55 v3 (k0_pay4 i)) (Scalar.ofBits .f32 0x00000000#32))
      (k0_pay57 (k0_pay3 v4)) (k0_pay58 v3 (k0_pay4 i)) (Scalar.ofBits .f32 0x00000000#32))
      (k0_pay60 (k0_pay3 v4)) (k0_pay61 v3 (k0_pay4 i)) (Scalar.ofBits .f32 0x00000000#32))
      (k0_pay63 (k0_pay3 v4)) (k0_pay64 v3 (k0_pay4 i)) (Scalar.ofBits .f32 0x00000000#32))
      (k0_pay66 (k0_pay3 v4)) (k0_pay67 v3 (k0_pay4 i)) (Scalar.ofBits .f32 0x00000000#32) acc

/-- The value written to the output block: the gate of the accumulated block minus the bias row. -/
def outv0 (bias : Vec F S256 .f32) (acc : Vec F S256x256 .f32) : FVec F S256x256 .f32 := k0_pay1 bias acc

/-- The accumulated block's initial value. -/
def zero0 : FVec F S256x256 .f32 := k0_pay2

end Cert.Kernel.Hand
end
-- ==== Proof.KPop0.lean ====
import proofs.«409654_j14731737825611_1_alg».proof.Proof.Gen.Kernel.Launch
import proofs.«409654_j14731737825611_1_alg».proof.Proof.KPop0Defs
import proofs.«409654_j14731737825611_1_alg».proof.Proof.LibWhole
import Idealize.ShloMosaic.Lib.Tactic

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel Cert.Kernel.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev nib0 : ℕ := 25

abbrev cond0 (i : grid0.Coords) : Prop :=
  (Scalar.cmpi .ne (Scalar.extui (Scalar.cmpi .eq (BitVec.ofNat 32 (i 1).val) 0#32)) 0#32) = 1#1

-- The body's branch is taken exactly where a run along the inner grid axis starts.
theorem hcond0 : ∀ t : Fin cfg0.N, cond0 (grid0.coords t) ↔ t.val % nib0 = 0 :=
  (by decide +kernel : ∀ t : Fin grid0.N, cond0 (grid0.coords t) ↔ t.val % nib0 = 0)

-- One point of the body: the scratch block restarts from the initial value where the branch is taken, and goes on from its contents elsewhere.
theorem sound_kernel0 {c : Dev nD} {E : Set ℕ} {i : grid0.Coords}
    {arg2 : Memref sig .tc .vmem S256x128 .f32} {harg2 : arg2.IsWhole} {arg3 : Memref sig .tc .vmem S256x128 .i32} {harg3 : arg3.IsWhole}
    {arg4 : Memref sig .tc .vmem S256x128 .f32} {harg4 : arg4.IsWhole} {arg5 : Memref sig .tc .vmem S256 .f32} {harg5 : arg5.IsWhole}
    {arg6 : Memref sig .tc .vmem S256x256 .f32} {harg6 : arg6.IsWhole} {arg7 : Memref sig .tc .vmem S256x256 .f32} {harg7 : arg7.IsWhole}
    {x0 : Vec F S256x128 .f32} {x1 : Vec F S256x128 .i32} {x2 : Vec F S256x128 .f32} (x3 : Vec F S256 .f32)
    {b a r : Vec F S256x256 .f32} (hr : r = upd0 i x1 x2 x0 (if cond0 i then zero0 else a)) {K : PUnit → sProp 𝕄} :
    iprop(ownsTc c arg2 fullShare x0 ∗ ownsTc c arg3 fullShare x1 ∗ ownsTc c arg4 fullShare x2
        ∗ ownsTc c arg5 fullShare x3 ∗ ownsTc c arg6 fullShare b ∗ ownsTc c arg7 fullShare a
        ∗ (iprop(ownsTc c arg2 fullShare x0 ∗ ownsTc c arg3 fullShare x1 ∗ ownsTc c arg4 fullShare x2
            ∗ ownsTc c arg5 fullShare x3 ∗ ownsTc c arg6 fullShare (outv0 x3 r)
            ∗ ownsTc c arg7 fullShare r) -∗ K ⟨⟩))
      ⊢ wp frame (wpE (defs₀ (F := F)) Variants.none c none) E (cc0__popcnt_kernel i arg2 harg2 arg3 harg3 arg4 harg4 arg5 harg5 arg6 harg6 arg7 harg7) K := by
  subst hr
  sl_unfold [cc0__popcnt_kernel]
  unfold ownsTc owns
  iintro ⟨⟨%f0, %hf0, H0⟩, ⟨%f1, %hf1, H1⟩, ⟨%f2, %hf2, H2⟩, ⟨%f3, %hf3, H3⟩, ⟨%f4, -, H4⟩, ⟨%f5, %hf5, H5⟩, Hk⟩
  subst hf0 hf1 hf2 hf3 hf5
  by_cases hc : cond0 i <;> [rw [if_pos hc]; rw [if_neg hc]] <;>
  · sl_exec (disch := exact hc)
    sl_step
    iapply Hk
    isplitl [H0]; swap; isplitl [H1]; swap; isplitl [H2]; swap; isplitl [H3]; swap; isplitl [H4]
    all_goals iexists _; isplitr; swap; iassumption; ipureintro
    iterate 2
      sl_unfold_words
      simp only [View.readAt_eq_ld, View.ld_unit_zero (S := S256x128) zeroPair, View.ld_unit_zero (S := S256x256) zeroPair, View.ld_unit_zero (S := S256) zeroOne,
        readCov_whole_head (S := S256x256) _ zeroPair, read_writes_whole_head (S := S256x256) _ zeroPair]
      rfl
    all_goals rfl

def step0 (c : Dev nD) (t : Fin cfg0.N) (a : Vec F S256x256 .f32) : FVec F S256x256 .f32 :=
  upd0 (grid0.coords t) (iblk0 V c 1 t) (iblk0 V c 2 t) (iblk0 V c 0 t) a

def acc0 (c : Dev nD) : (n : ℕ) → n < cfg0.N → FVec F S256x256 .f32
  | 0, hn => step0 V c ⟨0, hn⟩ zero0
  | n + 1, hn => step0 V c ⟨n + 1, hn⟩ (if (n + 1) % nib0 = 0 then zero0 else acc0 c n (Nat.lt_of_succ_lt hn))

theorem acc0_reset (c : Dev nD) (t : Fin cfg0.N) (h : t.val % nib0 = 0) :
    acc0 V c t.val t.isLt = upd0 (grid0.coords t) (iblk0 V c 1 t) (iblk0 V c 2 t) (iblk0 V c 0 t) zero0 := by
  obtain ⟨_ | n, hn⟩ := t
  · rfl
  · exact congrArg (step0 V c _) (if_pos h)

theorem acc0_step (c : Dev nD) (t : Fin cfg0.N) (h : ¬t.val % nib0 = 0) :
    acc0 V c t.val t.isLt = upd0 (grid0.coords t) (iblk0 V c 1 t) (iblk0 V c 2 t) (iblk0 V c 0 t)
      (acc0 V c (t.val - 1) (Nat.lt_of_le_of_lt (Nat.sub_le _ _) t.isLt)) := by
  obtain ⟨_ | n, hn⟩ := t
  · exact absurd (Nat.zero_mod _) h
  · exact congrArg (step0 V c _) (if_neg h)

-- Both cases at once: contents d that are the previous point's wherever a run continues give the point's contents.
theorem acc0_eq (c : Dev nD) (t : Fin cfg0.N) (d : Vec F S256x256 .f32)
    (hd : ¬t.val % nib0 = 0 → ∀ hp, d = acc0 V c (t.val - 1) hp) :
    acc0 V c t.val t.isLt = upd0 (grid0.coords t) (iblk0 V c 1 t) (iblk0 V c 2 t) (iblk0 V c 0 t)
      (if cond0 (grid0.coords t) then zero0 else d) := by
  by_cases h : t.val % nib0 = 0
  · rw [if_pos ((hcond0 t).mpr h), acc0_reset V c t h]
  · rw [if_neg (mt (hcond0 t).mp h), acc0_step V c t h, ← hd h]

abbrev scM0 : Memref sig .tc .vmem S256x256 .f32 := Memref.whole cc0_scratch0

abbrev rest0 (c : Dev nD) : sProp 𝕄 := Pipeline.scopedRestBut spec0 c [cc0_scratch0]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outv0 (iblk0 V c 3 t) (acc0 V c t.val t.isLt)
  Φ t := iprop((∃ r, prngReg c r) ∗ rest0 (F := F) c
    ∗ ∃ d, ⌜¬t.val % nib0 = 0 → ∀ hp, d = acc0 V c (t.val - 1) hp⌝ ∗ ownsTc c scM0 fullShare d)
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = outv0 (iblk0 V c 3 t) (acc0 V c t.val t.isLt) := rfl

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t) := by
  refine ⟨?_, ?_, ?_, ?_⟩ <;> exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before0 V c t]
  dsimp only [dat0]
  iintro ⟨⟨Hg, Hr, %d, %hd, Hs⟩, Ho, ⟨%d0, H0⟩, ⟨%d1, H1⟩, ⟨%d2, H2⟩, ⟨%d3, H3⟩, ⟨%d4, H4⟩⟩
  iapply (sound_kernel0 (iblk0 V c 3 t) (acc0_eq V c t d hd))
  iframe H0 H1 H2 H3 H4 Hs
  iintro ⟨H0, H1, H2, H3, H4, Hs⟩
  iframe Hg Hr Ho H0 H1 H2 H3 H4
  iexists _; iframe Hs
  ipureintro; exact fun _ _ => rfl

theorem hin0 (c : Dev nD) (P : sProp 𝕄) :
    iprop((∃ r, prngReg c r) ∗ P
      ∗ Pipeline.scopedRest (Ix := Unit) (Name := ℕ) (U := UR sig nD τ) (Lvl := ℕ) (Val := Elt F) spec0 c) ⊢ (dat0 V c).Φ 0 := by
  rw [scopedRest0_split]
  simp only [dat0, owns_whole]
  iintro ⟨Hg, -, ⟨%d, Hs⟩, Hr⟩
  iframe Hg Hr
  iexists d; iframe Hs
  ipureintro; exact fun h => absurd (Nat.zero_mod _) h

theorem hout0 (c : Dev nD) :
    (dat0 V c).Φ (Fin.last cfg0.N) ⊢ iprop((∃ r, prngReg c r)
      ∗ (Pipeline.ownSems0 (fun k : PEmpty => k.elim) c : sProp 𝕄)
      ∗ Pipeline.scopedRest (Ix := Unit) (Name := ℕ) (U := UR sig nD τ) (Lvl := ℕ) (Val := Elt F) spec0 c) := by
  rw [Pipeline.ownSems0_none, scopedRest0_split]
  simp only [dat0, owns_whole]
  iintro ⟨Hg, Hr, %d, -, Hs⟩
  iframe Hg Hr
  isplitr; · iempintro
  iexists d; iexact Hs

end Cert.Kernel.Hand

end
-- ==== Proof.KLn1.lean ====
import proofs.«409654_j14731737825611_1_alg».proof.Proof.Gen.Kernel.Launch
import proofs.«409654_j14731737825611_1_alg».proof.Proof.Gen.Kernel.Skeleton
import proofs.«409654_j14731737825611_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S128x8192 := Rect.unit (s := S128x8192) ![0, 0] S128x8192.size inb_S128x8192_S128x8192_0_0
abbrev r1_1 : Rect S8192 := Rect.unit (s := S8192) ![0] S8192.size inb_S8192_S8192_0

theorem zeroOff1_0 : (![0, 0] : Fin 2 → Nat) = fun _ => 0 := funext fun a => by fin_cases a <;> rfl
theorem zeroOff1_1 : (![0] : Fin 1 → Nat) = fun _ => 0 := funext fun a => by fin_cases a; rfl

-- a store through the whole rectangle leaves its payload; a load through it reads the contents
theorem out1_3_eq (x0 : Vec F S128x8192 .f32) (x1 x2 : Vec F S8192 .f32) :
    View.canon ([⟨r1_0, k1_pay1 (View.ld x0 r1_0) (View.ld x1 r1_1) (View.ld x2 r1_1)⟩] : List (View.Piece (Elt F) S128x8192 .f32))
      = k1_pay1 x0 x1 x2 := by
  rw [View.canon_unit_zero zeroOff1_0, View.ld_unit_zero zeroOff1_0, View.ld_unit_zero zeroOff1_1, View.ld_unit_zero zeroOff1_1]

-- the body reads the three inputs whole and stores the payload over the whole output
theorem sound_kernel1 (c : Dev nD) (E : Set ℕ) (i : grid1.Coords)
    (arg1 : Memref sig .tc .vmem S128x8192 .f32) (harg1 : arg1.IsWhole) (arg2 : Memref sig .tc .vmem S8192 .f32) (harg2 : arg2.IsWhole)
    (arg3 : Memref sig .tc .vmem S8192 .f32) (harg3 : arg3.IsWhole) (arg4 : Memref sig .tc .vmem S128x8192 .f32) (harg4 : arg4.IsWhole)
    (x0 : Vec F S128x8192 .f32) (x1 x2 : Vec F S8192 .f32) (K : PUnit → sProp 𝕄) :
    iprop(owns c.tc arg1 fullShare x0 ∗ owns c.tc arg2 fullShare x1 ∗ owns c.tc arg3 fullShare x2
        ∗ (∃ d, owns c.tc arg4 fullShare d)
        ∗ (iprop(owns c.tc arg1 fullShare x0 ∗ owns c.tc arg2 fullShare x1 ∗ owns c.tc arg3 fullShare x2
            ∗ owns c.tc arg4 fullShare (k1_pay1 x0 x1 x2)) -∗ K ⟨⟩))
      ⊢ wp frame (wpE (defs₀ (F := F)) Variants.none c none) E (cc1__ln_kernel i arg1 harg1 arg2 harg2 arg3 harg3 arg4 harg4) K := by
  rw [← out1_3_eq x0 x1 x2]
  simp only [cc1__ln_kernel_eq_skeleton]; unfold cc1__ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ fun y => ⟨_, List.mem_singleton_self _, View.mem_set_unit_zero zeroOff1_0 inb_S128x8192_S128x8192_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = k1_pay1 (iblk1 V c 0 t) (iblk1 V c 1 t) (iblk1 V c 2 t) := rfl

-- the body leaves each input block in place, so it is the entry array's block at every point
theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;>
    exact fun d => ((dat1 V c).before_in_eq_fetched _ rfl (fun _ => rfl) (fun _ _ _ => rfl) (fun _ => rfl) t d).trans rfl

-- the inputs are their blocks, so the body's triple applies; everything else is framed
theorem body_obligation1 (c : Dev nD) : BodyObligation (dat1 (F := F) V c) (defs₀ (F := F)) Variants.none () Set.univ := fun t => by
  rw [bigSep_W1, bigSep_W1]
  obtain ⟨b0, b1, b2⟩ := before1 V c t
  change _ ⊢ wp _ _ _ (bodyAt1 t) fun _ => iprop((dat1 V c).Φ t.castSucc ∗ (dat1 V c).owesAt () t.castSucc
    ∗ owns c.tc (st1_0 t) fullShare (iblk1 V c 0 t) ∗ owns c.tc (st1_1 t) fullShare (iblk1 V c 1 t)
    ∗ owns c.tc (st1_2 t) fullShare (iblk1 V c 2 t)
    ∗ owns c.tc (st1_3 t) fullShare (k1_pay1 (iblk1 V c 0 t) (iblk1 V c 1 t) (iblk1 V c 2 t)))
  iintro ⟨HΦ, Ho, ⟨%d0, H0⟩, ⟨%d1, H1⟩, ⟨%d2, H2⟩, ⟨%d3, H3⟩⟩
  rw [b0, b1, b2]
  iapply sound_kernel1 c Set.univ _ _ _ _ _ _ _ _ _ (iblk1 V c 0 t) (iblk1 V c 1 t) (iblk1 V c 2 t)
  iframe H0 H1 H2
  isplitl [H3]; · iexists _; iexact H3
  iintro ⟨H0, H1, H2, H3⟩
  iframe

end Region1

end Cert.Kernel.Hand

end
-- ==== Proof.KPop2Defs.lean ====
import proofs.«409654_j14731737825611_1_alg».proof.Proof.Gen.Kernel.Skeleton

noncomputable section

namespace Cert.Kernel.Hand

open Idealize.ShloMosaic Cert.Kernel Cert.Kernel.Gen

variable {F : FTy → Type} [FloatOps F]

def upd2 (i : grid2.Coords) (v3 : Vec F S256x128 .i32) (v4 v6 : Vec F S256x128 .f32) (acc : Vec F S256x256 .f32) :
    FVec F S256x256 .f32 :=
  k2_pay69 v3 (k2_pay3 v4) (k2_pay4 v6) (k2_pay5 i)
      (k2_pay66 v3 (k2_pay3 v4) (k2_pay5 i)
      (k2_pay63 v3 (k2_pay3 v4) (k2_pay5 i)
      (k2_pay60 v3 (k2_pay3 v4) (k2_pay5 i)
      (k2_pay57 v3 (k2_pay3 v4) (k2_pay5 i)
      (k2_pay54 v3 (k2_pay3 v4) (k2_pay5 i)
      (k2_pay51 v3 (k2_pay3 v4) (k2_pay5 i)
      (k2_pay48 v3 (k2_pay3 v4) (k2_pay5 i)
      (k2_pay45 v3 (k2_pay3 v4) (k2_pay5 i)
      (k2_pay42 v3 (k2_pay3 v4) (k2_pay5 i)
      (k2_pay39 v3 (k2_pay3 v4) (k2_pay5 i)
      (k2_pay36 v3 (k2_pay3 v4) (k2_pay5 i)
      (k2_pay33 v3 (k2_pay3 v4) (k2_pay5 i)
      (k2_pay30 v3 (k2_pay3 v4) (k2_pay5 i)
      (k2_pay27 v3 (k2_pay3 v4) (k2_pay5 i)
      (k2_pay24 v3 (k2_pay3 v4) (k2_pay5 i)
      (k2_pay21 v3 (k2_pay3 v4) (k2_pay5 i)
      (k2_pay18 v3 (k2_pay3 v4) (k2_pay5 i)
      (k2_pay15 v3 (k2_pay3 v4) (k2_pay5 i)
      (k2_pay12 v3 (k2_pay3 v4) (k2_pay5 i)
      (k2_pay9 v3 (k2_pay3 v4) (k2_pay5 i)
      (k2_pay6 i v3 v4)
      (k2_pay7 v4) (k2_pay8 i v3))
      (k2_pay10 (k2_pay3 v4)) (k2_pay11 v3 (k2_pay5 i)))
      (k2_pay13 (k2_pay3 v4)) (k2_pay14 v3 (k2_pay5 i)))
      (k2_pay16 (k2_pay3 v4)) (k2_pay17 v3 (k2_pay5 i)))
      (k2_pay19 (k2_pay3 v4)) (k2_pay20 v3 (k2_pay5 i)))
      (k2_pay22 (k2_pay3 v4)) (k2_pay23 v3 (k2_pay5 i)))
      (k2_pay25 (k2_pay3 v4)) (k2_pay26 v3 (k2_pay5 i)))
      (k2_pay28 (k2_pay3 v4)) (k2_pay29 v3 (k2_pay5 i)))
      (k2_pay31 (k2_pay3 v4)) (k2_pay32 v3 (k2_pay5 i)))
      (k2_pay34 (k2_pay3 v4)) (k2_pay35 v3 (k2_pay5 i)))
      (k2_pay37 (k2_pay3 v4)) (k2_pay38 v3 (k2_pay5 i)))
      (k2_pay40 (k2_pay3 v4)) (k2_pay41 v3 (k2_pay5 i)))
      (k2_pay43 (k2_pay3 v4)) (k2_pay44 v3 (k2_pay5 i)))
      (k2_pay46 (k2_pay3 v4)) (k2_pay47 v3 (k2_pay5 i)))
      (k2_pay49 (k2_pay3 v4)) (k2_pay50 v3 (k2_pay5 i)))
      (k2_pay52 (k2_pay3 v4)) (k2_pay53 v3 (k2_pay5 i)))
      (k2_pay55 (k2_pay3 v4)) (k2_pay56 v3 (k2_pay5 i)))
      (k2_pay58 (k2_pay3 v4)) (k2_pay59 v3 (k2_pay5 i)))
      (k2_pay61 (k2_pay3 v4)) (k2_pay62 v3 (k2_pay5 i)))
      (k2_pay64 (k2_pay3 v4)) (k2_pay65 v3 (k2_pay5 i)))
      (k2_pay67 (k2_pay3 v4)) (k2_pay68 v3 (k2_pay5 i)) acc

def outv2 (bias : Vec F S256 .f32) (acc : Vec F S256x256 .f32) : FVec F S256x256 .f32 := k2_pay1 bias acc

def zero2 : FVec F S256x256 .f32 := k2_pay2 (F := F)

end Cert.Kernel.Hand
-- ==== Proof.KPop2.lean ====
import proofs.«409654_j14731737825611_1_alg».proof.Proof.Gen.Kernel.Launch
import proofs.«409654_j14731737825611_1_alg».proof.Proof.KPop2Defs
import proofs.«409654_j14731737825611_1_alg».proof.Proof.LibWhole
import Idealize.ShloMosaic.Lib.Tactic

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel Cert.Kernel.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev nib2 : ℕ := 64

abbrev cond2 (i : grid2.Coords) : Prop :=
  (Scalar.cmpi .ne (Scalar.extui (Scalar.cmpi .eq (BitVec.ofNat 32 (i 1).val) 0#32)) 0#32) = 1#1

-- The body's branch is taken exactly where a run along the inner grid axis starts.
theorem hcond2 : ∀ t : Fin cfg2.N, cond2 (grid2.coords t) ↔ t.val % nib2 = 0 :=
  (by decide +kernel : ∀ t : Fin grid2.N, cond2 (grid2.coords t) ↔ t.val % nib2 = 0)

-- One point of the body: the scratch block restarts from the initial value where the branch is taken, and goes on from its contents elsewhere.
theorem sound_kernel2 {c : Dev nD} {E : Set ℕ} {i : grid2.Coords}
    {arg2 : Memref sig .tc .vmem S256x128 .f32} {harg2 : arg2.IsWhole} {arg3 : Memref sig .tc .vmem S256x128 .i32} {harg3 : arg3.IsWhole}
    {arg4 : Memref sig .tc .vmem S256x128 .f32} {harg4 : arg4.IsWhole} {arg5 : Memref sig .tc .vmem S256 .f32} {harg5 : arg5.IsWhole}
    {arg6 : Memref sig .tc .vmem S256x256 .f32} {harg6 : arg6.IsWhole} {arg7 : Memref sig .tc .vmem S256x256 .f32} {harg7 : arg7.IsWhole}
    {x0 : Vec F S256x128 .f32} {x1 : Vec F S256x128 .i32} {x2 : Vec F S256x128 .f32} (x3 : Vec F S256 .f32)
    {b a r : Vec F S256x256 .f32} (hr : r = upd2 i x1 x2 x0 (if cond2 i then zero2 else a)) {K : PUnit → sProp 𝕄} :
    iprop(ownsTc c arg2 fullShare x0 ∗ ownsTc c arg3 fullShare x1 ∗ ownsTc c arg4 fullShare x2
        ∗ ownsTc c arg5 fullShare x3 ∗ ownsTc c arg6 fullShare b ∗ ownsTc c arg7 fullShare a
        ∗ (iprop(ownsTc c arg2 fullShare x0 ∗ ownsTc c arg3 fullShare x1 ∗ ownsTc c arg4 fullShare x2
            ∗ ownsTc c arg5 fullShare x3 ∗ ownsTc c arg6 fullShare (outv2 x3 r)
            ∗ ownsTc c arg7 fullShare r) -∗ K ⟨⟩))
      ⊢ wp frame (wpE (defs₀ (F := F)) Variants.none c none) E (cc2__popcnt_kernel i arg2 harg2 arg3 harg3 arg4 harg4 arg5 harg5 arg6 harg6 arg7 harg7) K := by
  subst hr
  sl_unfold [cc2__popcnt_kernel]
  unfold ownsTc owns
  iintro ⟨⟨%f0, %hf0, H0⟩, ⟨%f1, %hf1, H1⟩, ⟨%f2, %hf2, H2⟩, ⟨%f3, %hf3, H3⟩, ⟨%f4, -, H4⟩, ⟨%f5, %hf5, H5⟩, Hk⟩
  subst hf0 hf1 hf2 hf3 hf5
  by_cases hc : cond2 i <;> [rw [if_pos hc]; rw [if_neg hc]] <;>
  · sl_exec (disch := exact hc)
    sl_step
    iapply Hk
    isplitl [H0]; swap; isplitl [H1]; swap; isplitl [H2]; swap; isplitl [H3]; swap; isplitl [H4]
    all_goals iexists _; isplitr; swap; iassumption; ipureintro
    iterate 2
      sl_unfold_words
      simp only [View.readAt_eq_ld, View.ld_unit_zero (S := S256x128) zeroPair, View.ld_unit_zero (S := S256x256) zeroPair, View.ld_unit_zero (S := S256) zeroOne,
        readCov_whole_head (S := S256x256) _ zeroPair, read_writes_whole_head (S := S256x256) _ zeroPair]
      rfl
    all_goals rfl

def step2 (c : Dev nD) (t : Fin cfg2.N) (a : Vec F S256x256 .f32) : FVec F S256x256 .f32 :=
  upd2 (grid2.coords t) (iblk2 V c 1 t) (iblk2 V c 2 t) (iblk2 V c 0 t) a

def acc2 (c : Dev nD) : (n : ℕ) → n < cfg2.N → FVec F S256x256 .f32
  | 0, hn => step2 V c ⟨0, hn⟩ zero2
  | n + 1, hn => step2 V c ⟨n + 1, hn⟩ (if (n + 1) % nib2 = 0 then zero2 else acc2 c n (Nat.lt_of_succ_lt hn))

theorem acc2_reset (c : Dev nD) (t : Fin cfg2.N) (h : t.val % nib2 = 0) :
    acc2 V c t.val t.isLt = upd2 (grid2.coords t) (iblk2 V c 1 t) (iblk2 V c 2 t) (iblk2 V c 0 t) zero2 := by
  obtain ⟨_ | n, hn⟩ := t
  · rfl
  · exact congrArg (step2 V c _) (if_pos h)

theorem acc2_step (c : Dev nD) (t : Fin cfg2.N) (h : ¬t.val % nib2 = 0) :
    acc2 V c t.val t.isLt = upd2 (grid2.coords t) (iblk2 V c 1 t) (iblk2 V c 2 t) (iblk2 V c 0 t)
      (acc2 V c (t.val - 1) (Nat.lt_of_le_of_lt (Nat.sub_le _ _) t.isLt)) := by
  obtain ⟨_ | n, hn⟩ := t
  · exact absurd (Nat.zero_mod _) h
  · exact congrArg (step2 V c _) (if_neg h)

-- Both cases at once: contents d that are the previous point's wherever a run continues give the point's contents.
theorem acc2_eq (c : Dev nD) (t : Fin cfg2.N) (d : Vec F S256x256 .f32)
    (hd : ¬t.val % nib2 = 0 → ∀ hp, d = acc2 V c (t.val - 1) hp) :
    acc2 V c t.val t.isLt = upd2 (grid2.coords t) (iblk2 V c 1 t) (iblk2 V c 2 t) (iblk2 V c 0 t)
      (if cond2 (grid2.coords t) then zero2 else d) := by
  by_cases h : t.val % nib2 = 0
  · rw [if_pos ((hcond2 t).mpr h), acc2_reset V c t h]
  · rw [if_neg (mt (hcond2 t).mp h), acc2_step V c t h, ← hd h]

abbrev scM2 : Memref sig .tc .vmem S256x256 .f32 := Memref.whole cc2_scratch0

abbrev rest2 (c : Dev nD) : sProp 𝕄 := Pipeline.scopedRestBut spec2 c [cc2_scratch0]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outv2 (iblk2 V c 3 t) (acc2 V c t.val t.isLt)
  Φ t := iprop((∃ r, prngReg c r) ∗ rest2 (F := F) c
    ∗ ∃ d, ⌜¬t.val % nib2 = 0 → ∀ hp, d = acc2 V c (t.val - 1) hp⌝ ∗ ownsTc c scM2 fullShare d)
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = outv2 (iblk2 V c 3 t) (acc2 V c t.val t.isLt) := rfl

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;> exact (dat2 V c).before_in_eq_fetched _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  simp only [before2 V c t]
  dsimp only [dat2]
  iintro ⟨⟨Hg, Hr, %d, %hd, Hs⟩, Ho, ⟨%d0, H0⟩, ⟨%d1, H1⟩, ⟨%d2, H2⟩, ⟨%d3, H3⟩, ⟨%d4, H4⟩⟩
  iapply (sound_kernel2 (iblk2 V c 3 t) (acc2_eq V c t d hd))
  iframe H0 H1 H2 H3 H4 Hs
  iintro ⟨H0, H1, H2, H3, H4, Hs⟩
  iframe Hg Hr Ho H0 H1 H2 H3 H4
  iexists _; iframe Hs
  ipureintro; exact fun _ _ => rfl

theorem hin2 (c : Dev nD) (P : sProp 𝕄) :
    iprop((∃ r, prngReg c r) ∗ P
      ∗ Pipeline.scopedRest (Ix := Unit) (Name := ℕ) (U := UR sig nD τ) (Lvl := ℕ) (Val := Elt F) spec2 c) ⊢ (dat2 V c).Φ 0 := by
  rw [scopedRest2_split]
  simp only [dat2, owns_whole]
  iintro ⟨Hg, -, ⟨%d, Hs⟩, Hr⟩
  iframe Hg Hr
  iexists d; iframe Hs
  ipureintro; exact fun h => absurd (Nat.zero_mod _) h

theorem hout2 (c : Dev nD) :
    (dat2 V c).Φ (Fin.last cfg2.N) ⊢ iprop((∃ r, prngReg c r)
      ∗ (Pipeline.ownSems0 (fun k : PEmpty => k.elim) c : sProp 𝕄)
      ∗ Pipeline.scopedRest (Ix := Unit) (Name := ℕ) (U := UR sig nD τ) (Lvl := ℕ) (Val := Elt F) spec2 c) := by
  rw [Pipeline.ownSems0_none, scopedRest2_split]
  simp only [dat2, owns_whole]
  iintro ⟨Hg, Hr, %d, -, Hs⟩
  iframe Hg Hr
  isplitr; · iempintro
  iexists d; iexact Hs

end Cert.Kernel.Hand

end
-- ==== Proof.KLn3.lean ====
import proofs.«409654_j14731737825611_1_alg».proof.Proof.KLn1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = k3_pay1 (iblk3 V c 0 t) (iblk3 V c 1 t) (iblk3 V c 2 t) := rfl

-- the body leaves each input block in place, so it is the entry array's block at every point
theorem before3 (c : Dev nD) (t : Fin cfg3.N) : (∀ d, (dat3 V c).before 0 t d = iblk3 V c 0 t)
    ∧ (∀ d, (dat3 V c).before 1 t d = iblk3 V c 1 t) ∧ ∀ d, (dat3 V c).before 2 t d = iblk3 V c 2 t := by
  refine ⟨?_, ?_, ?_⟩ <;>
    exact fun d => ((dat3 V c).before_in_eq_fetched _ rfl (fun _ => rfl) (fun _ _ _ => rfl) (fun _ => rfl) t d).trans rfl

-- this region's kernel is the first normalisation region's: the two skeletons are one term
theorem cc3__ln_kernel_eq : cc3__ln_kernel (F := F) = cc1__ln_kernel (F := F) :=
  cc3__ln_kernel_eq_skeleton.trans (Eq.trans (show cc3__ln_kernel_skel (F := F) = cc1__ln_kernel_skel from rfl) cc1__ln_kernel_eq_skeleton.symm)

-- the inputs are their blocks, so the first region's triple for the body applies; everything else is framed
theorem body_obligation3 (c : Dev nD) : BodyObligation (dat3 (F := F) V c) (defs₀ (F := F)) Variants.none () Set.univ := fun t => by
  rw [bigSep_W3, bigSep_W3]
  obtain ⟨b0, b1, b2⟩ := before3 V c t
  change _ ⊢ wp _ _ _ (bodyAt3 t) fun _ => iprop((dat3 V c).Φ t.castSucc ∗ (dat3 V c).owesAt () t.castSucc
    ∗ owns c.tc (st3_0 t) fullShare (iblk3 V c 0 t) ∗ owns c.tc (st3_1 t) fullShare (iblk3 V c 1 t)
    ∗ owns c.tc (st3_2 t) fullShare (iblk3 V c 2 t)
    ∗ owns c.tc (st3_3 t) fullShare (k1_pay1 (iblk3 V c 0 t) (iblk3 V c 1 t) (iblk3 V c 2 t)))
  unfold bodyAt3; rw [cc3__ln_kernel_eq]
  iintro ⟨HΦ, Ho, ⟨%d0, H0⟩, ⟨%d1, H1⟩, ⟨%d2, H2⟩, ⟨%d3, H3⟩⟩
  rw [b0, b1, b2]
  iapply sound_kernel1 c Set.univ _ _ _ _ _ _ _ _ _ (iblk3 V c 0 t) (iblk3 V c 1 t) (iblk3 V c 2 t)
  iframe H0 H1 H2
  isplitl [H3]; · iexists _; iexact H3
  iintro ⟨H0, H1, H2, H3⟩
  iframe

end Region3

end Cert.Kernel.Hand

end
-- ==== Proof.KPop4Defs.lean ====
import proofs.«409654_j14731737825611_1_alg».proof.Proof.Gen.Kernel.Skeleton

noncomputable section

namespace Cert.Kernel.Hand

open Idealize.ShloMosaic Cert.Kernel Cert.Kernel.Gen

variable {F : FTy → Type} [FloatOps F]

def upd4 (i : grid4.Coords) (v3 : Vec F S256x128 .i32) (v4 v6 : Vec F S256x128 .f32) (acc : Vec F S256x256 .f32) :
    FVec F S256x256 .f32 :=
  k4_pay69 v3 (k4_pay3 v4) (k4_pay4 v6) (k4_pay5 i)
      (k4_pay66 v3 (k4_pay3 v4) (k4_pay5 i)
      (k4_pay63 v3 (k4_pay3 v4) (k4_pay5 i)
      (k4_pay60 v3 (k4_pay3 v4) (k4_pay5 i)
      (k4_pay57 v3 (k4_pay3 v4) (k4_pay5 i)
      (k4_pay54 v3 (k4_pay3 v4) (k4_pay5 i)
      (k4_pay51 v3 (k4_pay3 v4) (k4_pay5 i)
      (k4_pay48 v3 (k4_pay3 v4) (k4_pay5 i)
      (k4_pay45 v3 (k4_pay3 v4) (k4_pay5 i)
      (k4_pay42 v3 (k4_pay3 v4) (k4_pay5 i)
      (k4_pay39 v3 (k4_pay3 v4) (k4_pay5 i)
      (k4_pay36 v3 (k4_pay3 v4) (k4_pay5 i)
      (k4_pay33 v3 (k4_pay3 v4) (k4_pay5 i)
      (k4_pay30 v3 (k4_pay3 v4) (k4_pay5 i)
      (k4_pay27 v3 (k4_pay3 v4) (k4_pay5 i)
      (k4_pay24 v3 (k4_pay3 v4) (k4_pay5 i)
      (k4_pay21 v3 (k4_pay3 v4) (k4_pay5 i)
      (k4_pay18 v3 (k4_pay3 v4) (k4_pay5 i)
      (k4_pay15 v3 (k4_pay3 v4) (k4_pay5 i)
      (k4_pay12 v3 (k4_pay3 v4) (k4_pay5 i)
      (k4_pay9 v3 (k4_pay3 v4) (k4_pay5 i)
      (k4_pay6 i v3 v4)
      (k4_pay7 v4) (k4_pay8 i v3))
      (k4_pay10 (k4_pay3 v4)) (k4_pay11 v3 (k4_pay5 i)))
      (k4_pay13 (k4_pay3 v4)) (k4_pay14 v3 (k4_pay5 i)))
      (k4_pay16 (k4_pay3 v4)) (k4_pay17 v3 (k4_pay5 i)))
      (k4_pay19 (k4_pay3 v4)) (k4_pay20 v3 (k4_pay5 i)))
      (k4_pay22 (k4_pay3 v4)) (k4_pay23 v3 (k4_pay5 i)))
      (k4_pay25 (k4_pay3 v4)) (k4_pay26 v3 (k4_pay5 i)))
      (k4_pay28 (k4_pay3 v4)) (k4_pay29 v3 (k4_pay5 i)))
      (k4_pay31 (k4_pay3 v4)) (k4_pay32 v3 (k4_pay5 i)))
      (k4_pay34 (k4_pay3 v4)) (k4_pay35 v3 (k4_pay5 i)))
      (k4_pay37 (k4_pay3 v4)) (k4_pay38 v3 (k4_pay5 i)))
      (k4_pay40 (k4_pay3 v4)) (k4_pay41 v3 (k4_pay5 i)))
      (k4_pay43 (k4_pay3 v4)) (k4_pay44 v3 (k4_pay5 i)))
      (k4_pay46 (k4_pay3 v4)) (k4_pay47 v3 (k4_pay5 i)))
      (k4_pay49 (k4_pay3 v4)) (k4_pay50 v3 (k4_pay5 i)))
      (k4_pay52 (k4_pay3 v4)) (k4_pay53 v3 (k4_pay5 i)))
      (k4_pay55 (k4_pay3 v4)) (k4_pay56 v3 (k4_pay5 i)))
      (k4_pay58 (k4_pay3 v4)) (k4_pay59 v3 (k4_pay5 i)))
      (k4_pay61 (k4_pay3 v4)) (k4_pay62 v3 (k4_pay5 i)))
      (k4_pay64 (k4_pay3 v4)) (k4_pay65 v3 (k4_pay5 i)))
      (k4_pay67 (k4_pay3 v4)) (k4_pay68 v3 (k4_pay5 i)) acc

def outv4 (bias : Vec F S256 .f32) (acc : Vec F S256x256 .f32) : FVec F S256x256 .f32 := k4_pay1 bias acc

def zero4 : FVec F S256x256 .f32 := k4_pay2 (F := F)

end Cert.Kernel.Hand
-- ==== Proof.KPop4.lean ====
import proofs.«409654_j14731737825611_1_alg».proof.Proof.Gen.Kernel.Launch
import proofs.«409654_j14731737825611_1_alg».proof.Proof.KPop4Defs
import proofs.«409654_j14731737825611_1_alg».proof.Proof.LibWhole
import Idealize.ShloMosaic.Lib.Tactic

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel Cert.Kernel.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev nib4 : ℕ := 64

abbrev cond4 (i : grid4.Coords) : Prop :=
  (Scalar.cmpi .ne (Scalar.extui (Scalar.cmpi .eq (BitVec.ofNat 32 (i 1).val) 0#32)) 0#32) = 1#1

-- The body's branch is taken exactly where a run along the inner grid axis starts.
theorem hcond4 : ∀ t : Fin cfg4.N, cond4 (grid4.coords t) ↔ t.val % nib4 = 0 :=
  (by decide +kernel : ∀ t : Fin grid4.N, cond4 (grid4.coords t) ↔ t.val % nib4 = 0)

-- One point of the body: the scratch block restarts from the initial value where the branch is taken, and goes on from its contents elsewhere.
theorem sound_kernel4 {c : Dev nD} {E : Set ℕ} {i : grid4.Coords}
    {arg2 : Memref sig .tc .vmem S256x128 .f32} {harg2 : arg2.IsWhole} {arg3 : Memref sig .tc .vmem S256x128 .i32} {harg3 : arg3.IsWhole}
    {arg4 : Memref sig .tc .vmem S256x128 .f32} {harg4 : arg4.IsWhole} {arg5 : Memref sig .tc .vmem S256 .f32} {harg5 : arg5.IsWhole}
    {arg6 : Memref sig .tc .vmem S256x256 .f32} {harg6 : arg6.IsWhole} {arg7 : Memref sig .tc .vmem S256x256 .f32} {harg7 : arg7.IsWhole}
    {x0 : Vec F S256x128 .f32} {x1 : Vec F S256x128 .i32} {x2 : Vec F S256x128 .f32} (x3 : Vec F S256 .f32)
    {b a r : Vec F S256x256 .f32} (hr : r = upd4 i x1 x2 x0 (if cond4 i then zero4 else a)) {K : PUnit → sProp 𝕄} :
    iprop(ownsTc c arg2 fullShare x0 ∗ ownsTc c arg3 fullShare x1 ∗ ownsTc c arg4 fullShare x2
        ∗ ownsTc c arg5 fullShare x3 ∗ ownsTc c arg6 fullShare b ∗ ownsTc c arg7 fullShare a
        ∗ (iprop(ownsTc c arg2 fullShare x0 ∗ ownsTc c arg3 fullShare x1 ∗ ownsTc c arg4 fullShare x2
            ∗ ownsTc c arg5 fullShare x3 ∗ ownsTc c arg6 fullShare (outv4 x3 r)
            ∗ ownsTc c arg7 fullShare r) -∗ K ⟨⟩))
      ⊢ wp frame (wpE (defs₀ (F := F)) Variants.none c none) E (cc4__popcnt_kernel i arg2 harg2 arg3 harg3 arg4 harg4 arg5 harg5 arg6 harg6 arg7 harg7) K := by
  subst hr
  sl_unfold [cc4__popcnt_kernel]
  unfold ownsTc owns
  iintro ⟨⟨%f0, %hf0, H0⟩, ⟨%f1, %hf1, H1⟩, ⟨%f2, %hf2, H2⟩, ⟨%f3, %hf3, H3⟩, ⟨%f4, -, H4⟩, ⟨%f5, %hf5, H5⟩, Hk⟩
  subst hf0 hf1 hf2 hf3 hf5
  by_cases hc : cond4 i <;> [rw [if_pos hc]; rw [if_neg hc]] <;>
  · sl_exec (disch := exact hc)
    sl_step
    iapply Hk
    isplitl [H0]; swap; isplitl [H1]; swap; isplitl [H2]; swap; isplitl [H3]; swap; isplitl [H4]
    all_goals iexists _; isplitr; swap; iassumption; ipureintro
    iterate 2
      sl_unfold_words
      simp only [View.readAt_eq_ld, View.ld_unit_zero (S := S256x128) zeroPair, View.ld_unit_zero (S := S256x256) zeroPair, View.ld_unit_zero (S := S256) zeroOne,
        readCov_whole_head (S := S256x256) _ zeroPair, read_writes_whole_head (S := S256x256) _ zeroPair]
      rfl
    all_goals rfl

def step4 (c : Dev nD) (t : Fin cfg4.N) (a : Vec F S256x256 .f32) : FVec F S256x256 .f32 :=
  upd4 (grid4.coords t) (iblk4 V c 1 t) (iblk4 V c 2 t) (iblk4 V c 0 t) a

def acc4 (c : Dev nD) : (n : ℕ) → n < cfg4.N → FVec F S256x256 .f32
  | 0, hn => step4 V c ⟨0, hn⟩ zero4
  | n + 1, hn => step4 V c ⟨n + 1, hn⟩ (if (n + 1) % nib4 = 0 then zero4 else acc4 c n (Nat.lt_of_succ_lt hn))

theorem acc4_reset (c : Dev nD) (t : Fin cfg4.N) (h : t.val % nib4 = 0) :
    acc4 V c t.val t.isLt = upd4 (grid4.coords t) (iblk4 V c 1 t) (iblk4 V c 2 t) (iblk4 V c 0 t) zero4 := by
  obtain ⟨_ | n, hn⟩ := t
  · rfl
  · exact congrArg (step4 V c _) (if_pos h)

theorem acc4_step (c : Dev nD) (t : Fin cfg4.N) (h : ¬t.val % nib4 = 0) :
    acc4 V c t.val t.isLt = upd4 (grid4.coords t) (iblk4 V c 1 t) (iblk4 V c 2 t) (iblk4 V c 0 t)
      (acc4 V c (t.val - 1) (Nat.lt_of_le_of_lt (Nat.sub_le _ _) t.isLt)) := by
  obtain ⟨_ | n, hn⟩ := t
  · exact absurd (Nat.zero_mod _) h
  · exact congrArg (step4 V c _) (if_neg h)

-- Both cases at once: contents d that are the previous point's wherever a run continues give the point's contents.
theorem acc4_eq (c : Dev nD) (t : Fin cfg4.N) (d : Vec F S256x256 .f32)
    (hd : ¬t.val % nib4 = 0 → ∀ hp, d = acc4 V c (t.val - 1) hp) :
    acc4 V c t.val t.isLt = upd4 (grid4.coords t) (iblk4 V c 1 t) (iblk4 V c 2 t) (iblk4 V c 0 t)
      (if cond4 (grid4.coords t) then zero4 else d) := by
  by_cases h : t.val % nib4 = 0
  · rw [if_pos ((hcond4 t).mpr h), acc4_reset V c t h]
  · rw [if_neg (mt (hcond4 t).mp h), acc4_step V c t h, ← hd h]

abbrev scM4 : Memref sig .tc .vmem S256x256 .f32 := Memref.whole cc4_scratch0

abbrev rest4 (c : Dev nD) : sProp 𝕄 := Pipeline.scopedRestBut spec4 c [cc4_scratch0]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outv4 (iblk4 V c 3 t) (acc4 V c t.val t.isLt)
  Φ t := iprop((∃ r, prngReg c r) ∗ rest4 (F := F) c
    ∗ ∃ d, ⌜¬t.val % nib4 = 0 → ∀ hp, d = acc4 V c (t.val - 1) hp⌝ ∗ ownsTc c scM4 fullShare d)
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = outv4 (iblk4 V c 3 t) (acc4 V c t.val t.isLt) := rfl

theorem before4 (c : Dev nD) (t : Fin cfg4.N) :
    (∀ d, (dat4 V c).before 0 t d = iblk4 V c 0 t) ∧ (∀ d, (dat4 V c).before 1 t d = iblk4 V c 1 t)
      ∧ (∀ d, (dat4 V c).before 2 t d = iblk4 V c 2 t) ∧ (∀ d, (dat4 V c).before 3 t d = iblk4 V c 3 t) := by
  refine ⟨?_, ?_, ?_, ?_⟩ <;> exact (dat4 V c).before_in_eq_fetched _ rfl (fun _ => rfl) (fun _ _ _ => rfl) (fun _ => rfl) t

theorem body_obligation4 (c : Dev nD) : BodyObligation (dat4 (F := F) V c) (defs₀ (F := F)) Variants.none () Set.univ := fun t => by
  rw [bigSep_W4, bigSep_W4, show (dat4 V c).owesAt () t.succ = (dat4 V c).owesAt () t.castSucc from rfl]
  simp only [before4 V c t]
  dsimp only [dat4]
  iintro ⟨⟨Hg, Hr, %d, %hd, Hs⟩, Ho, ⟨%d0, H0⟩, ⟨%d1, H1⟩, ⟨%d2, H2⟩, ⟨%d3, H3⟩, ⟨%d4, H4⟩⟩
  iapply (sound_kernel4 (iblk4 V c 3 t) (acc4_eq V c t d hd))
  iframe H0 H1 H2 H3 H4 Hs
  iintro ⟨H0, H1, H2, H3, H4, Hs⟩
  iframe Hg Hr Ho H0 H1 H2 H3 H4
  iexists _; iframe Hs
  ipureintro; exact fun _ _ => rfl

theorem hin4 (c : Dev nD) (P : sProp 𝕄) :
    iprop((∃ r, prngReg c r) ∗ P
      ∗ Pipeline.scopedRest (Ix := Unit) (Name := ℕ) (U := UR sig nD τ) (Lvl := ℕ) (Val := Elt F) spec4 c) ⊢ (dat4 V c).Φ 0 := by
  rw [scopedRest4_split]
  simp only [dat4, owns_whole]
  iintro ⟨Hg, -, ⟨%d, Hs⟩, Hr⟩
  iframe Hg Hr
  iexists d; iframe Hs
  ipureintro; exact fun h => absurd (Nat.zero_mod _) h

theorem hout4 (c : Dev nD) :
    (dat4 V c).Φ (Fin.last cfg4.N) ⊢ iprop((∃ r, prngReg c r)
      ∗ (Pipeline.ownSems0 (fun k : PEmpty => k.elim) c : sProp 𝕄)
      ∗ Pipeline.scopedRest (Ix := Unit) (Name := ℕ) (U := UR sig nD τ) (Lvl := ℕ) (Val := Elt F) spec4 c) := by
  rw [Pipeline.ownSems0_none, scopedRest4_split]
  simp only [dat4, owns_whole]
  iintro ⟨Hg, Hr, %d, -, Hs⟩
  iframe Hg Hr
  isplitr; · iempintro
  iexists d; iexact Hs

end Cert.Kernel.Hand

end
-- ==== Proof.KRegs.lean ====
import proofs.«409654_j14731737825611_1_alg».proof.Proof.Gen.Kernel.Regions
import proofs.«409654_j14731737825611_1_alg».proof.Proof.KPop0
import proofs.«409654_j14731737825611_1_alg».proof.Proof.KLn1
import proofs.«409654_j14731737825611_1_alg».proof.Proof.KPop2
import proofs.«409654_j14731737825611_1_alg».proof.Proof.KLn3
import proofs.«409654_j14731737825611_1_alg».proof.Proof.KPop4
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

private theorem upd_ne (V : Valuation τ sig (Elt F)) {v r : Ref sig .tc} (x) (h : r ≠ v) : Function.update V v x r = V r :=
  Function.update_of_ne (StableHlo.devRef_ne_of_ne h) ..

/-- For `Vk_eq`: the generated valuation updates at the value ours already reads there. -/
private theorem upd_eq {V W : Valuation τ sig (Elt F)} (h : V = W) (v : Ref sig .tc) (x) :
    Function.update V v (Function.update W v x v) = Function.update W v x := by rw [h, Function.update_self]

abbrev U0 : (c : Dev nD) → (b : Ref sig .tc) → Buf (Elt F) ((c : Thread nD τ).loc b) := fun c b => Gen.V0 m c b

def o1 (c : Dev nD) : Buf (Elt F) ((c : Thread nD τ).loc main_v0) := (dat0 (U0 m) c).arrAt 4 cfg0.N
def W1 (c : Dev nD) : Valuation τ sig (Elt F) := Function.update (Gen.V0 m c) main_v0 (o1 m c)
abbrev U1 : (c : Dev nD) → (b : Ref sig .tc) → Buf (Elt F) ((c : Thread nD τ).loc b) := fun c b => W1 m c b
theorem W1_out (c : Dev nD) : W1 m c main_v0 = o1 m c := Function.update_self ..
theorem W1_ne (c : Dev nD) (r : Ref sig .tc) (h : r ≠ main_v0) : W1 m c r = Gen.V0 m c r := upd_ne _ _ h

def o2 (c : Dev nD) : Buf (Elt F) ((c : Thread nD τ).loc main_v1) := (dat1 (U1 m) c).arrAt 3 cfg1.N
def W2 (c : Dev nD) : Valuation τ sig (Elt F) := Function.update (W1 m c) main_v1 (o2 m c)
abbrev U2 : (c : Dev nD) → (b : Ref sig .tc) → Buf (Elt F) ((c : Thread nD τ).loc b) := fun c b => W2 m c b
theorem W2_out (c : Dev nD) : W2 m c main_v1 = o2 m c := Function.update_self ..
theorem W2_ne (c : Dev nD) (r : Ref sig .tc) (h : r ≠ main_v1) : W2 m c r = W1 m c r := upd_ne _ _ h

def o3 (c : Dev nD) : Buf (Elt F) ((c : Thread nD τ).loc main_v2) := (dat2 (U2 m) c).arrAt 4 cfg2.N
def W3 (c : Dev nD) : Valuation τ sig (Elt F) := Function.update (W2 m c) main_v2 (o3 m c)
abbrev U3 : (c : Dev nD) → (b : Ref sig .tc) → Buf (Elt F) ((c : Thread nD τ).loc b) := fun c b => W3 m c b
theorem W3_out (c : Dev nD) : W3 m c main_v2 = o3 m c := Function.update_self ..
theorem W3_ne (c : Dev nD) (r : Ref sig .tc) (h : r ≠ main_v2) : W3 m c r = W2 m c r := upd_ne _ _ h

def o4 (c : Dev nD) : Buf (Elt F) ((c : Thread nD τ).loc main_v3) := (dat3 (U3 m) c).arrAt 3 cfg3.N
def W4 (c : Dev nD) : Valuation τ sig (Elt F) := Function.update (W3 m c) main_v3 (o4 m c)
abbrev U4 : (c : Dev nD) → (b : Ref sig .tc) → Buf (Elt F) ((c : Thread nD τ).loc b) := fun c b => W4 m c b
theorem W4_out (c : Dev nD) : W4 m c main_v3 = o4 m c := Function.update_self ..
theorem W4_ne (c : Dev nD) (r : Ref sig .tc) (h : r ≠ main_v3) : W4 m c r = W3 m c r := upd_ne _ _ h

def o5 (c : Dev nD) : Buf (Elt F) ((c : Thread nD τ).loc main_v4) := (dat4 (U4 m) c).arrAt 4 cfg4.N
def W5 (c : Dev nD) : Valuation τ sig (Elt F) := Function.update (W4 m c) main_v4 (o5 m c)
theorem W5_out (c : Dev nD) : W5 m c main_v4 = o5 m c := Function.update_self ..
theorem W5_ne (c : Dev nD) (r : Ref sig .tc) (h : r ≠ main_v4) : W5 m c r = W4 m c r := upd_ne _ _ h

def outs : Gen.Outs (F := F) := fun J r c => match J with
  | 1 => W1 m c r
  | 2 => W2 m c r
  | 3 => W3 m c r
  | 4 => W4 m c r
  | 5 => W5 m c r
  | _ => m ((c : Thread nD τ).loc r)

theorem V1_eq (c : Dev nD) : Gen.V1 m (outs m) c = W1 m c := upd_eq rfl ..
theorem V2_eq (c : Dev nD) : Gen.V2 m (outs m) c = W2 m c := upd_eq (V1_eq m c) ..
theorem V3_eq (c : Dev nD) : Gen.V3 m (outs m) c = W3 m c := upd_eq (V2_eq m c) ..
theorem V4_eq (c : Dev nD) : Gen.V4 m (outs m) c = W4 m c := upd_eq (V3_eq m c) ..
theorem V5_eq (c : Dev nD) : Gen.V5 m (outs m) c = W5 m c := upd_eq (V4_eq m c) ..

def pdats : (p : Fin 5) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- What the regions' records need of the proof data, whichever the pipeline. -/
private theorem pdats_std : ∀ (p : Fin 5) (c : Dev nD), (∀ w, (pdats m p c).q w = fullShare) ∧ (∀ t, (pdats m p c).owed t = 0)
    ∧ ∀ t, (pdats m p c).recorded t = Set.univ
  | ⟨0, _⟩, _ | ⟨1, _⟩, _ | ⟨2, _⟩, _ | ⟨3, _⟩, _ | ⟨4, _⟩, _ => ⟨fun _ => rfl, fun _ => rfl, fun _ => rfl⟩

/-- Entry and exit of a region whose invariant is `ΦA` at every point. -/
private theorem hinA {gr W : ℕ} (win : Fin W → Pipeline.WinSpec sig gr) (c : Dev nD) (P : sProp 𝕄) :
    iprop((∃ r, prngReg c r) ∗ P ∗ (Pipeline.scopedRest win c : sProp 𝕄))
      ⊢ Pipeline.ΦA win c := by
  unfold Pipeline.ΦA; iintro ⟨Hp, -, Hr⟩; iframe

private theorem houtA {gr W : ℕ} (win : Fin W → Pipeline.WinSpec sig gr) (c : Dev nD) :
    (Pipeline.ΦA win c : sProp 𝕄) ⊢ iprop((∃ r, prngReg c r) ∗ (Pipeline.ownSems0 (fun k : PEmpty => k.elim) c : sProp 𝕄)
      ∗ (Pipeline.scopedRest win c : sProp 𝕄)) := by
  rw [Pipeline.ownSems0_none]; unfold Pipeline.ΦA; iintro ⟨Hr, Hp⟩; iframe; iempintro

set_option backward.isDefEq.respectTransparency.types false

/-- The record of a region whose windows other than `o` are inputs on arrays other than `o`'s: it changes `o`'s array alone. -/
def regOf (p : Fin 5) (lf : Pipeline.LaunchFacts (nD := nD) (τ := τ) cfgs p) (V : Dev nD → Valuation τ sig (Elt F))
    (o : Fin (cfgs p).W)
    (ho : ∀ w, w ≠ o → ((cfgs p).win w).isOut = false ∧ Pipeline.arrRef (cfgs p).spec w ≠ Pipeline.arrRef (cfgs p).spec o)
    (hb : ∀ c, BodyObligation (pdats m p c) (defs₀ (F := F)) 𝒱₀ () Set.univ)
    (hA : ∀ c w, (pdats m p c).A w = V c (Pipeline.arrRef (cfgs p).spec w))
    (hi : ∀ c (P : sProp 𝕄), iprop((∃ r, prngReg c r) ∗ P
      ∗ (Pipeline.scopedRest (cfgs p).spec c : sProp 𝕄)) ⊢ (pdats m p c).Φ 0)
    (hu : ∀ c, (pdats m p c).Φ (Fin.last (cfgs p).N) ⊢ iprop((∃ r, prngReg c r)
      ∗ (Pipeline.ownSems0 (fun k : PEmpty => k.elim) c : sProp 𝕄)
      ∗ (Pipeline.scopedRest (cfgs p).spec c : sProp 𝕄))) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_std m p c).2.1
  pre c := iprop(StableHlo.held (c : Thread nD τ) (Pipeline.ucRefs τ sig) (V c) ∗ R c)
  post c := iprop(StableHlo.held (c : Thread nD τ) (Pipeline.ucRefs τ sig)
    (Function.update (V c) (Pipeline.arrRef (cfgs p).spec o) ((pdats m p c).arrAt o (cfgs p).N)) ∗ R c)
  X c := iprop(∃ r, prngReg c r)
  Y c := iprop(∃ r, prngReg c r)
  Z c := Pipeline.unscopedRest (cfgs p).spec c (V c ·)
  hentry c := by
    have hs := Pipeline.arrays_of_unscopedBufs (pcfgs (F := F)) adm (pdats m) lf.win lf.arr_whole c
      ((pdats m p c).share_full (pdats_std m p c).1) (V c ·) (hA c)
    rw [Pipeline.unscopedBufs_held] at hs
    unfold Pipeline.Dat.owesAt Pipeline.owesWithin Pipeline.Dat.bound Pipeline.prefHeld
    rw [(pdats_std m p c).2.1, (pdats_std m p c).2.2, show (Finset.univ : Finset (Fin 0)) = ∅ from rfl, BI.bigSep_empty]
    iintro ⟨⟨Hub, Hp, %W, HO⟩, -, -⟩
    ihave H := hs $$ Hub
    icases H with ⟨Ha, Hr⟩
    imodintro
    iframe Ha Hp Hr
    isplitr; · iempintro
    iexists W; isplitr; · ipureintro; exact fun _ _ => Or.inl trivial
    iexact HO
  hin c := hi c _
  hout := hu
  hexit c := by
    have hj := Pipeline.unscopedBufs_of_arrays (pcfgs (F := F)) adm lf.win lf.arr_whole c (pdats m)
      ((pdats m p c).share_full (pdats_std m p c).1) (V c ·)
      (Function.update (V c) (Pipeline.arrRef (cfgs p).spec o) ((pdats m p c).arrAt o (cfgs p).N) ·)
      ((pdats m p c).arrAt · (cfgs p).N)
      (fun w => by
        by_cases h : w = o
        · subst h; exact Eq.symm (Function.update_self ..)
        · rw [upd_ne _ _ (ho w h).2, ← hA c w]; exact Dat.arrAt_in _ w (ho w h).1 _)
      fun b hb => upd_ne _ _ fun e => hb (Finset.mem_image.mpr ⟨o, Finset.mem_univ _, e.symm⟩)
    rw [Pipeline.unscopedBufs_held] at hj
    unfold Pipeline.Dat.owesAt Pipeline.owesWithin; rw [(pdats_std m p c).2.1]
    iintro ⟨Ha, ⟨%W, -, HO⟩, HY, Hr⟩
    imodintro
    isplitl [Ha Hr]
    · iapply hj; iframe
    isplitl [HY]; · iexact HY
    iexists W; iexact HO

def reg0 : Pipeline.RegionSeg (pcfgs (F := F)) adm (pdats m) () defs₀ 𝒱₀ L lv 0 :=
  regOf m 0 launch0 (Gen.V0 m) 4 (by decide) (body_obligation0 (U0 m)) (A_eq0 (U0 m)) (hin0 (U0 m)) (hout0 (U0 m))
def reg1 : Pipeline.RegionSeg (pcfgs (F := F)) adm (pdats m) () defs₀ 𝒱₀ L lv 1 :=
  regOf m 1 launch1 (W1 m) 3 (by decide) (body_obligation1 (U1 m)) (A_eq1 (U1 m)) (hinA spec1) (houtA spec1)
def reg2 : Pipeline.RegionSeg (pcfgs (F := F)) adm (pdats m) () defs₀ 𝒱₀ L lv 2 :=
  regOf m 2 launch2 (W2 m) 4 (by decide) (body_obligation2 (U2 m)) (A_eq2 (U2 m)) (hin2 (U2 m)) (hout2 (U2 m))
def reg3 : Pipeline.RegionSeg (pcfgs (F := F)) adm (pdats m) () defs₀ 𝒱₀ L lv 3 :=
  regOf m 3 launch3 (W3 m) 3 (by decide) (body_obligation3 (U3 m)) (A_eq3 (U3 m)) (hinA spec3) (houtA spec3)
def reg4 : Pipeline.RegionSeg (pcfgs (F := F)) adm (pdats m) () defs₀ 𝒱₀ L lv 4 :=
  regOf m 4 launch4 (W4 m) 4 (by decide) (body_obligation4 (U4 m)) (A_eq4 (U4 m)) (hin4 (U4 m)) (hout4 (U4 m))

end Cert.Kernel.Hand

end
-- ==== Proof.KLaunch.lean ====
import proofs.«409654_j14731737825611_1_alg».proof.Proof.Gen.Kernel.Regions
import Idealize.ShloMosaic.Lib.Pipeline.Kit
import Idealize.ShloMosaic.Lib.Pipeline.Regions
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

abbrev launchL : GSem nD τ sig → Finset Unit := fun _ => ∅

abbrev launchLv : GSem nD τ sig → Unit → ℕ := fun _ _ => 0

abbrev launchO₀ : Dev nD → CellTallies nD τ sig Unit := fun _ => 0

abbrev launchU₀ : UR sig nD τ := initOf (Pipeline.cells cfgs cellOf_inj) (Pipeline.launchToks cfgs cellOf_inj)

abbrev launchEP : Emb (URounds (GSem nD τ sig) Unit) 𝕄 := emb₁

abbrev launchG : Dev nD → sProp 𝕄 := fun _ => iprop(emp)

abbrev launchE : Fin 6 → Dev nD → sProp 𝕄 :=
  fun _ c => iprop((∃ r, prngReg c r) ∗ ∃ W, owes (c : Thread nD τ) (0 : CellTallies nD τ sig Unit) W)

theorem launch_hL : ∀ g : GSem nD τ sig, g.1.2 ≠ .tc → launchL g = ∅ := fun _ _ => rfl

theorem launch_hu₀ :
    (ownU launchU₀ : sProp 𝕄) ⊢ |={Set.univ}=> iprop(BI.own ((launchEP (F := F))
      (initOf (Pipeline.cells cfgs cellOf_inj) (Pipeline.launchToks cfgs cellOf_inj))) ∗ bigSep Finset.univ (launchG (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_hE0 (ρ : Dev nD → PrngReg) :
    iprop((bigSep Finset.univ fun c : Dev nD => iprop(unscopedSems0 c ∗ owes (c : Thread nD τ) (launchO₀ c) ∅
        ∗ Pipeline.launchCred launchO₀ c ∗ prngReg c (ρ c) ∗ launchG (F := F) c)) ∗ levAts launchL launchLv)
      ⊢ (|={Set.univ}=> bigSep Finset.univ (launchE (F := F) 0) : sProp 𝕄) := by
  refine Pipeline.initEach launchL launchLv fun c => ?_
  iintro ⟨⟨-, HO, -, Hp, -⟩, -⟩
  imodintro
  isplitl [Hp]; · iexists _; iexact Hp
  iexists ∅; iexact HO

theorem launch_hE5 : ∀ c : Dev nD, launchE (F := F) 5 c
    ⊢ (iprop(∃ W, owes (c : Thread nD τ) (0 : CellTallies nD τ sig Unit) W) : sProp 𝕄) := by
  intro c
  iintro ⟨-, HO⟩
  iexact HO

end Cert.Kernel.Hand

end
-- ==== Proof.KFrame.lean ====
import proofs.«409654_j14731737825611_1_alg».proof.Proof.KRegs
import proofs.«409654_j14731737825611_1_alg».proof.Proof.KLaunch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD, Kept m r.2.mem c) :=
  Gen.frame_cond m launchEP () Variants.none launchL launchLv launch_hL ρ (outs m) (pdats m) launchO₀ launchG launchU₀
    launch_hu₀ (launchE (F := F)) (launch_hE0 ρ) launch_hE5
    (reg0 m) (fun c => .rfl) (fun c => by rw [V1_eq]; exact .rfl)
    (reg1 m) (fun c => by rw [V1_eq]; exact .rfl) (fun c => by rw [V2_eq]; exact .rfl)
    (reg2 m) (fun c => by rw [V2_eq]; exact .rfl) (fun c => by rw [V3_eq]; exact .rfl)
    (reg3 m) (fun c => by rw [V3_eq]; exact .rfl) (fun c => by rw [V4_eq]; exact .rfl)
    (reg4 m) (fun c => by rw [V4_eq]; exact .rfl) (fun c => by rw [V5_eq]; exact .rfl)

end Cert.Kernel.Hand

end
-- ==== Proof.LibMask.lean ====
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

end Cert.MaskLib
-- ==== Proof.RefPop.lean ====
import proofs.«409654_j14731737825611_1_alg».proof.ReferenceIdeal
import proofs.«409654_j14731737825611_1_alg».proof.Proof.Gen.ReferenceIdeal
import proofs.«409654_j14731737825611_1_alg».proof.Proof.Spec
import proofs.«409654_j14731737825611_1_alg».proof.Proof.LibMask
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.Layer

open Idealize.ShloMosaic Idealize.ShloMosaic.ValueIdx
open Cert.ReferenceIdeal Cert.ReferenceIdeal.Facts₀
open Cert.Spec (at2 at1 nat2)
open scoped BigOperators

def gate (S : Shape) (h : S_.BroadcastsInDim S (![] : Fin 0 → Fin S.rank)) (z : FVec Ideal S .f32) : FVec Ideal S .f32 :=
  Host.divf (broadcastInDim S ![] h (constant (F := Ideal) S_ .f32 0x3F800000#32))
    (addf (broadcastInDim S ![] h (constant (F := Ideal) S_ .f32 0x3F800000#32)) (Host.exp (Host.negf z)))

theorem gate_apply (S : Shape) (h : S_.BroadcastsInDim S (![] : Fin 0 → Fin S.rank)) (z : FVec Ideal S .f32) (i : S.Idx) :
    gate S h z i = Ideal.logistic (z i) := by
  show Ideal.div (Ideal.ofBits .f32 0x3F800000#32) (Ideal.ofBits .f32 0x3F800000#32 + Ideal.exp (-(z i))) = _
  rw [Ideal.ofBits_one_f32]
  rfl

section Take
variable {α : Type}

abbrev takeDims1 (B N O P : Nat)
    (wf : GatherDims.WF ⟨2, ![B, N]⟩ ⟨3, ![O, P, 1]⟩ ⟨3, ![B, O, P]⟩ [0] [1] [] [1] [] 2 ![B, 1]) :
    GatherDims ⟨2, ![B, N]⟩ ⟨3, ![O, P, 1]⟩ ⟨3, ![B, O, P]⟩ where
  offsetDims := [0]
  collapsedSliceDims := [1]
  operandBatchingDims := []
  startIndicesBatchingDims := []
  startIndexMap := [1]
  indexVectorDim := 2
  sliceSizes := ![B, 1]
  wf := wf

-- A take along the second axis reads row b at the column idx[o, p, 0], signed and clamped into [0, N − 1].
theorem gather_axis1_apply {B N O P w : Nat} (hN : 0 < N)
    (wf : GatherDims.WF ⟨2, ![B, N]⟩ ⟨3, ![O, P, 1]⟩ ⟨3, ![B, O, P]⟩ [0] [1] [] [1] [] 2 ![B, 1])
    (x : (⟨2, ![B, N]⟩ : Shape).Idx → α) (idx : IVec ⟨3, ![O, P, 1]⟩ w) (b : Fin B) (o : Fin O) (p : Fin P) :
    Host.gather (takeDims1 B N O P wf) x idx (ix3 b o p)
      = x (ix2 b ⟨min (idx (ix3 o p (0 : Fin 1))).toInt.toNat (N - 1), by omega⟩) := by
  unfold Host.gather
  congr 1
  funext a
  refine Fin.ext ?_
  show (takeDims1 B N O P wf).start (ix3 b o p) idx a + (takeDims1 B N O P wf).batchCoord (ix3 b o p) a
    + (takeDims1 B N O P wf).offCoord (ix3 b o p) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · have hns : (0 : Fin (⟨2, ![B, N]⟩ : Shape).rank) ∉ (takeDims1 B N O P wf).startIndexMap :=
      (by decide : (0 : Fin 2) ∉ [(1 : Fin 2)])
    have hk : (0 : Fin (⟨2, ![B, N]⟩ : Shape).rank) ∈ (takeDims1 B N O P wf).sKept := by
      rw [GatherDims.mem_sKept]
      exact ⟨(by decide : (0 : Fin 2) ∉ [(1 : Fin 2)]), List.not_mem_nil⟩
    unfold GatherDims.start GatherDims.offCoord
    rw [dif_neg hns, dif_pos hk]
    simp only [Nat.zero_add]
    rfl
  · have hs : (1 : Fin (⟨2, ![B, N]⟩ : Shape).rank) ∈ (takeDims1 B N O P wf).startIndexMap :=
      (by decide : (1 : Fin 2) ∈ [(1 : Fin 2)])
    have hk : (1 : Fin (⟨2, ![B, N]⟩ : Shape).rank) ∉ (takeDims1 B N O P wf).sKept := by
      rw [GatherDims.mem_sKept]
      exact fun h => h.1 (by decide : (1 : Fin 2) ∈ [(1 : Fin 2)])
    rw [GatherDims.offCoord_eq_zero _ _ _ hk]
    unfold GatherDims.start
    rw [dif_pos hs]
    have hsi : (takeDims1 B N O P wf).siIdx (ix3 b o p) ⟨List.idxOf (1 : Fin (⟨2, ![B, N]⟩ : Shape).rank)
        (takeDims1 B N O P wf).startIndexMap, List.idxOf_lt_length_iff.2 hs⟩ = ix3 o p (0 : Fin 1) := by
      funext c; refine Fin.ext ?_
      match c with
      | ⟨0, _⟩ => rfl
      | ⟨1, _⟩ => rfl
      | ⟨2, _⟩ => rfl
    rw [hsi]
    rfl

end Take

theorem toNat_of_inrange {v : BitVec 32} {n : ℕ} (h0 : 0 ≤ v.toInt) (h1 : v.toInt < (n : ℤ)) :
    v.toInt.toNat = v.toNat ∧ v.toNat < n := by
  have e := BitVec.toInt_eq_toNat_cond v
  have hlt := v.isLt
  split_ifs at e <;> omega

/-! One gated gather-sum layer over a table of N columns and O output units, its side facts as hypotheses. -/
section Pop
variable {N O : ℕ}
  (c0 : S_.BroadcastsInDim ⟨2, ![O, 128]⟩ (![] : Fin 0 → Fin 2))
  (c1 : (⟨2, ![O, 128]⟩ : Shape).BroadcastsInDim ⟨3, ![O, 128, 1]⟩ (![0, 1] : Fin 2 → Fin 3))
  (c2 : S_.BroadcastsInDim ⟨3, ![O, 128, 1]⟩ (![] : Fin 0 → Fin 3))
  (c3 : S1x1x1.BroadcastsInDim ⟨3, ![O, 128, 1]⟩ (![0, 1, 2] : Fin 3 → Fin 3))
  (c4 : (⟨3, ![O, 128, 1]⟩ : Shape).ReducesTo [2] ⟨2, ![O, 128]⟩)
  (c5 : (⟨2, ![O, 128]⟩ : Shape).BroadcastsInDim ⟨3, ![256, O, 128]⟩ (![1, 2] : Fin 2 → Fin 3))
  (wf : GatherDims.WF ⟨2, ![256, N]⟩ ⟨3, ![O, 128, 1]⟩ ⟨3, ![256, O, 128]⟩ [0] [1] [] [1] [] 2 ![256, 1])
  (c6 : S_.BroadcastsInDim ⟨3, ![256, O, 128]⟩ (![] : Fin 0 → Fin 3))
  (c7 : S_.BroadcastsInDim ⟨2, ![256, O]⟩ (![] : Fin 0 → Fin 2))
  (c8 : (⟨3, ![1, O, 128]⟩ : Shape).BroadcastsInDim ⟨3, ![256, O, 128]⟩ (![0, 1, 2] : Fin 3 → Fin 3))
  (c9 : (⟨2, ![O, 128]⟩ : Shape).BroadcastsInDim ⟨3, ![1, O, 128]⟩ (![1, 2] : Fin 2 → Fin 3))
  (c10 : (⟨3, ![256, O, 128]⟩ : Shape).ReducesTo [2] ⟨2, ![256, O]⟩)
  (c11 : (⟨2, ![1, O]⟩ : Shape).BroadcastsInDim ⟨2, ![256, O]⟩ (![0, 1] : Fin 2 → Fin 2))
  (c12 : (⟨1, ![O]⟩ : Shape).BroadcastsInDim ⟨2, ![1, O]⟩ (![1] : Fin 1 → Fin 2))
  (n m : BitVec 32)

def wrap (sel : IVec ⟨2, ![O, 128]⟩ 32) : IVec ⟨2, ![O, 128]⟩ 32 :=
  select (cmpi .slt sel (broadcastInDim _ ![] c0 (constantI S_ 32 0#32)))
    (addi sel (broadcastInDim _ ![] c0 (constantI S_ 32 n))) sel

def idx (sel : IVec ⟨2, ![O, 128]⟩ 32) : IVec ⟨3, ![O, 128, 1]⟩ 32 :=
  broadcastInDim _ ![0, 1] c1 (wrap c0 n sel)

def mask (sel : IVec ⟨2, ![O, 128]⟩ 32) : IVec ⟨2, ![O, 128]⟩ 1 :=
  Host.reduce IntOp.andi
    (andi (cmpi .sge (idx c0 c1 n sel) (broadcastInDim _ ![] c2 (constantI S_ 32 0#32)))
      (cmpi .sle (idx c0 c1 n sel) (broadcastInDim _ ![0, 1, 2] c3
        (broadcastInDim S1x1x1 ![2] bcast_S1_S1x1x1_2 (constantI S1 32 m)))))
    (constantI S_ 1 1#1) c4 h_S_

def take (x : FVec Ideal ⟨2, ![256, N]⟩ .f32) (sel : IVec ⟨2, ![O, 128]⟩ 32) : FVec Ideal ⟨3, ![256, O, 128]⟩ .f32 :=
  select (broadcastInDim _ ![1, 2] c5 (mask c0 c1 c2 c3 c4 n m sel))
    (Host.gather (takeDims1 256 N O 128 wf) x (idx c0 c1 n sel))
    (broadcastInDim _ ![] c6 (constant (F := Ideal) S_ .f32 0x7FC00000#32))

def pop (x : FVec Ideal ⟨2, ![256, N]⟩ .f32) (sel : IVec ⟨2, ![O, 128]⟩ 32) (w : FVec Ideal ⟨2, ![O, 128]⟩ .f32)
    (b : FVec Ideal ⟨1, ![O]⟩ .f32) : FVec Ideal ⟨2, ![256, O]⟩ .f32 :=
  gate _ c7
    (subf
      (Host.reduceAdd
        (mulf (take c0 c1 c2 c3 c4 c5 wf c6 n m x sel)
          (broadcastInDim _ ![0, 1, 2] c8 (broadcastInDim _ ![1, 2] c9 (gate _ c0 w))))
        (constant (F := Ideal) S_ .f32 0x00000000#32) c10 h_S_)
      (broadcastInDim _ ![0, 1] c11 (broadcastInDim _ ![1] c12 b)))

variable {c0 c1 c2 c3 c4 c5 wf c6 c7 c8 c9 c10 c11 c12 n m}
variable {sel : IVec ⟨2, ![O, 128]⟩ 32} (h : ∀ i, 0 ≤ (sel i).toInt ∧ (sel i).toInt < (N : ℤ))
include h

theorem wrap_eq : wrap c0 n sel = sel :=
  Cert.MaskLib.wrap_id sel _ _ (fun _ => rfl) (fun i => (h i).1)

omit h in
theorem idx_apply (hO : O ≠ 1) (i : (⟨3, ![O, 128, 1]⟩ : Shape).Idx) : idx c0 c1 n sel i = wrap c0 n sel (ix2 (i 0) (i 1)) :=
  broadcastInDim_apply _ _ _ i (ix2 (i 0) (i 1)) (fun a => match a with | ⟨0, _⟩ => (if_neg hO).symm | ⟨1, _⟩ => rfl)

theorem mask_eq (hO : O ≠ 1) (hm : m.toInt = (N : ℤ) - 1) : mask c0 c1 c2 c3 c4 n m sel = fun _ => 1#1 := by
  unfold mask
  refine Cert.MaskLib.reduce_and_ones _ _ _ _ (fun i => ?_) (fun _ => rfl)
  refine congrFun (Cert.MaskLib.inrange_and (idx c0 c1 n sel) _ _ _ (fun _ => rfl) (fun _ => hm) (fun j => ?_)) i
  rw [idx_apply hO, wrap_eq h]
  have := h (ix2 (j 0) (j 1))
  omega

theorem take_apply (hO : O ≠ 1) (hm : m.toInt = (N : ℤ) - 1) (hN : 0 < N) {x : FVec Ideal ⟨2, ![256, N]⟩ .f32}
    (b : Fin 256) (o : Fin O) (p : Fin 128) (hlt : (sel (ix2 o p)).toNat < N) :
    take c0 c1 c2 c3 c4 c5 wf c6 n m x sel (ix3 b o p) = x (ix2 b ⟨(sel (ix2 o p)).toNat, hlt⟩) := by
  unfold take
  rw [mask_eq h hO hm]
  show Scalar.select 1#1 (Host.gather (takeDims1 256 N O 128 wf) x (idx c0 c1 n sel) (ix3 b o p)) _ = _
  rw [select_one, gather_axis1_apply hN]
  refine congrArg x (congrArg (ix2 b) (Fin.ext ?_))
  show min (idx c0 c1 n sel (ix3 o p (0 : Fin 1))).toInt.toNat (N - 1) = (sel (ix2 o p)).toNat
  rw [idx_apply hO, wrap_eq h]
  have hr := toNat_of_inrange (h (ix2 o p)).1 (h (ix2 o p)).2
  show min (sel (ix2 o p)).toInt.toNat (N - 1) = (sel (ix2 o p)).toNat
  omega

-- With every index word inside the table the layer is the specification's.
theorem pop_eq (hO : O ≠ 1) (hm : m.toInt = (N : ℤ) - 1) (hN : 0 < N)
    (hR : (⟨3, ![256, O, 128]⟩ : Shape).Reduces [2] ⟨2, ![256, O]⟩)
    {x : FVec Ideal ⟨2, ![256, N]⟩ .f32} {w : FVec Ideal ⟨2, ![O, 128]⟩ .f32} {b : FVec Ideal ⟨1, ![O]⟩ .f32} :
    pop c0 c1 c2 c3 c4 c5 wf c6 c7 c8 c9 c10 c11 c12 n m x sel w b
      = fun i => Cert.Spec.pop (at2 x) (nat2 sel) (at2 w) (at1 b) (i 0) (i 1) := by
  funext i
  obtain ⟨r, o, rfl⟩ : ∃ r o, i = ix2 r o := ⟨i 0, i 1, eq_ix2 i⟩
  unfold pop
  have hsum : ∀ f : (⟨3, ![256, O, 128]⟩ : Shape).Idx → EReal,
      (∑ k : Fin ((⟨3, ![256, O, 128]⟩ : Shape).size 2), f (hR.lift (ix2 r o) k)) = ∑ p : Fin 128, f (ix3 r o p) := fun f =>
    Finset.sum_congr rfl (fun p _ => congrArg f (by
      funext a
      match a with
      | ⟨0, _⟩ => exact Fin.ext rfl
      | ⟨1, _⟩ => exact Fin.ext rfl
      | ⟨2, _⟩ => exact Fin.ext rfl))
  rw [gate_apply, subf_apply,
    broadcastInDim_apply _ _ _ (ix2 r o) (ix2 (0 : Fin 1) o) (fun a => match a with | ⟨0, _⟩ => rfl | ⟨1, _⟩ => (if_neg hO).symm),
    broadcastInDim_apply _ _ _ _ (ix1 o) (fun a => match a with | ⟨0, _⟩ => (if_neg hO).symm),
    hostReduceAdd_apply, Ideal.hostReduceAdd_single _ hR, hsum]
  show Ideal.logistic (Ideal.ofBits .f32 0x00000000#32 + _ - _) = _
  rw [Ideal.ofBits_zero_f32, zero_add]
  unfold Cert.Spec.pop
  refine congrArg Ideal.logistic (congrArg (· - b (ix1 o)) (Finset.sum_congr rfl (fun p _ => ?_)))
  have hr := toNat_of_inrange (h (ix2 o p)).1 (h (ix2 o p)).2
  rw [mulf_apply, take_apply h hO hm hN r o p hr.2,
    broadcastInDim_apply _ _ _ (ix3 r o p) (ix3 (0 : Fin 1) o p)
      (fun a => match a with | ⟨0, _⟩ => rfl | ⟨1, _⟩ => (if_neg hO).symm | ⟨2, _⟩ => rfl),
    broadcastInDim_apply _ _ _ _ (ix2 o p) (fun a => match a with | ⟨0, _⟩ => (if_neg hO).symm | ⟨1, _⟩ => rfl), gate_apply]
  show _ = (if hh : (sel (ix2 o p)).toNat < N then x (ix2 r ⟨(sel (ix2 o p)).toNat, hh⟩) else 0) * Ideal.logistic (w (ix2 o p))
  rw [dif_pos hr.2]

end Pop

def pop1 : FVec Ideal S256x3200 .f32 → IVec S8192x128 32 → FVec Ideal S8192x128 .f32 → FVec Ideal S8192 .f32 →
    FVec Ideal S256x8192 .f32 :=
  pop bcast_S_S8192x128 bcast_S8192x128_S8192x128x1_0_1 bcast_S_S8192x128x1 bcast_S1x1x1_S8192x128x1_0_1_2
    reducesTo_S8192x128x1_S8192x128_d2 bcast_S8192x128_S256x8192x128_1_2
    gather_S256x3200_S8192x128x1_S256x8192x128_0_1_n_n_1_2_2561_wf bcast_S_S256x8192x128 bcast_S_S256x8192
    bcast_S1x8192x128_S256x8192x128_0_1_2 bcast_S8192x128_S1x8192x128_1_2 reducesTo_S256x8192x128_S256x8192_d2
    bcast_S1x8192_S256x8192_0_1 bcast_S8192_S1x8192_1 3200#32 3199#32

def pop2 : FVec Ideal S256x8192 .f32 → IVec S8192x128 32 → FVec Ideal S8192x128 .f32 → FVec Ideal S8192 .f32 →
    FVec Ideal S256x8192 .f32 :=
  pop bcast_S_S8192x128 bcast_S8192x128_S8192x128x1_0_1 bcast_S_S8192x128x1 bcast_S1x1x1_S8192x128x1_0_1_2
    reducesTo_S8192x128x1_S8192x128_d2 bcast_S8192x128_S256x8192x128_1_2
    gather_S256x8192_S8192x128x1_S256x8192x128_0_1_n_n_1_2_2561_wf bcast_S_S256x8192x128 bcast_S_S256x8192
    bcast_S1x8192x128_S256x8192x128_0_1_2 bcast_S8192x128_S1x8192x128_1_2 reducesTo_S256x8192x128_S256x8192_d2
    bcast_S1x8192_S256x8192_0_1 bcast_S8192_S1x8192_1 8192#32 8191#32

def pop3 : FVec Ideal S256x8192 .f32 → IVec S4096x128 32 → FVec Ideal S4096x128 .f32 → FVec Ideal S4096 .f32 →
    FVec Ideal S256x4096 .f32 :=
  pop bcast_S_S4096x128 bcast_S4096x128_S4096x128x1_0_1 bcast_S_S4096x128x1 bcast_S1x1x1_S4096x128x1_0_1_2
    reducesTo_S4096x128x1_S4096x128_d2 bcast_S4096x128_S256x4096x128_1_2
    gather_S256x8192_S4096x128x1_S256x4096x128_0_1_n_n_1_2_2561_wf bcast_S_S256x4096x128 bcast_S_S256x4096
    bcast_S1x4096x128_S256x4096x128_0_1_2 bcast_S4096x128_S1x4096x128_1_2 reducesTo_S256x4096x128_S256x4096_d2
    bcast_S1x4096_S256x4096_0_1 bcast_S4096_S1x4096_1 8192#32 8191#32

theorem pop1_eq {x : FVec Ideal S256x3200 .f32} {sel : IVec S8192x128 32} {w : FVec Ideal S8192x128 .f32} {b : FVec Ideal S8192 .f32}
    (h : Cert.Spec.InRange 3200 sel) :
    pop1 x sel w b = fun i => Cert.Spec.pop (at2 x) (nat2 sel) (at2 w) (at1 b) (i 0) (i 1) :=
  pop_eq h (by decide) (by decide) (by decide) (by decide)

theorem pop2_eq {x : FVec Ideal S256x8192 .f32} {sel : IVec S8192x128 32} {w : FVec Ideal S8192x128 .f32} {b : FVec Ideal S8192 .f32}
    (h : Cert.Spec.InRange 8192 sel) :
    pop2 x sel w b = fun i => Cert.Spec.pop (at2 x) (nat2 sel) (at2 w) (at1 b) (i 0) (i 1) :=
  pop_eq h (by decide) (by decide) (by decide) (by decide)

theorem pop3_eq {x : FVec Ideal S256x8192 .f32} {sel : IVec S4096x128 32} {w : FVec Ideal S4096x128 .f32} {b : FVec Ideal S4096 .f32}
    (h : Cert.Spec.InRange 8192 sel) :
    pop3 x sel w b = fun i => Cert.Spec.pop (at2 x) (nat2 sel) (at2 w) (at1 b) (i 0) (i 1) :=
  pop_eq h (by decide) (by decide) (by decide) (by decide)

end Cert.ReferenceIdeal.Layer

end
-- ==== Proof.RefLn.lean ====
import proofs.«409654_j14731737825611_1_alg».proof.ReferenceIdeal
import proofs.«409654_j14731737825611_1_alg».proof.Proof.Gen.ReferenceIdeal
import proofs.«409654_j14731737825611_1_alg».proof.Proof.Spec
import Idealize.ShloMosaic.Lib.IdealHost
import Idealize.ShloMosaic.Lib.ValueLayout
import Idealize.ShloMosaic.Lib.Pipeline.Value

noncomputable section

namespace Cert.ReferenceIdeal.Layer

open Idealize.ShloMosaic Idealize.ShloMosaic.ValueIdx
open Cert.ReferenceIdeal Cert.ReferenceIdeal.Facts₀ Cert.ReferenceIdeal.Facts
open Cert.Spec (at1 at2)
open scoped BigOperators

def lnA (h : FVec Ideal S256x8192 .f32) (g be : FVec Ideal S8192 .f32) : FVec Ideal S256x8192 .f32 :=
  let c4 : FVec Ideal S_ .f32 := constant S_ .f32 0x00000000#32
  let v20 : FVec Ideal S256 .f32 := Host.reduceAdd h c4 reducesTo_S256x8192_S256_d1 h_S_
  let v21 : FVec Ideal S256x1 .f32 := broadcastInDim S256x1 ![0] bcast_S256_S256x1_0 v20
  let c5 : FVec Ideal S_ .f32 := constant S_ .f32 0x46000000#32
  let v22 : FVec Ideal S256x1 .f32 := broadcastInDim S256x1 ![] bcast_S_S256x1 c5
  let v23 : FVec Ideal S256x1 .f32 := Host.divf v21 v22
  let v24 : FVec Ideal S256x8192 .f32 := broadcastInDim S256x8192 ![0, 1] bcast_S256x1_S256x8192_0_1 v23
  let v25 : FVec Ideal S256x8192 .f32 := subf h v24
  let v26 : FVec Ideal S256x8192 .f32 := mulf v25 v25
  let c6 : FVec Ideal S_ .f32 := constant S_ .f32 0x00000000#32
  let v27 : FVec Ideal S256 .f32 := Host.reduceAdd v26 c6 reducesTo_S256x8192_S256_d1 h_S_
  let v28 : FVec Ideal S256x1 .f32 := broadcastInDim S256x1 ![0] bcast_S256_S256x1_0 v27
  let c7 : FVec Ideal S_ .f32 := constant S_ .f32 0x46000000#32
  let v29 : FVec Ideal S256x1 .f32 := broadcastInDim S256x1 ![] bcast_S_S256x1 c7
  let v30 : FVec Ideal S256x1 .f32 := Host.divf v28 v29
  let v31 : FVec Ideal S256x8192 .f32 := broadcastInDim S256x8192 ![0, 1] bcast_S256x1_S256x8192_0_1 v23
  let v32 : FVec Ideal S256x8192 .f32 := subf h v31
  let c8 : FVec Ideal S_ .f32 := constant S_ .f32 0x2B8CBCCC#32
  let v33 : FVec Ideal S256x1 .f32 := broadcastInDim S256x1 ![] bcast_S_S256x1 c8
  let v34 : FVec Ideal S256x1 .f32 := addf v30 v33
  let v35 : FVec Ideal S256x1 .f32 := Host.rsqrt v34
  let v36 : FVec Ideal S256x8192 .f32 := broadcastInDim S256x8192 ![0, 1] bcast_S256x1_S256x8192_0_1 v35
  let v37 : FVec Ideal S256x8192 .f32 := mulf v32 v36
  let v38 : FVec Ideal S1x8192 .f32 := broadcastInDim S1x8192 ![1] bcast_S8192_S1x8192_1 g
  let v39 : FVec Ideal S256x8192 .f32 := broadcastInDim S256x8192 ![0, 1] bcast_S1x8192_S256x8192_0_1 v38
  let v40 : FVec Ideal S256x8192 .f32 := mulf v37 v39
  let v41 : FVec Ideal S1x8192 .f32 := broadcastInDim S1x8192 ![1] bcast_S8192_S1x8192_1 be
  let v42 : FVec Ideal S256x8192 .f32 := broadcastInDim S256x8192 ![0, 1] bcast_S1x8192_S256x8192_0_1 v41
  addf v40 v42

def tailA (h : FVec Ideal S256x4096 .f32) : FVec Ideal S256x256 .f32 :=
  let v108 : FVec Ideal S256x256x16 .f32 := fun i => shapeCast S256x256x16 h shapeCasts_S256x4096_S256x256x16 i
  let c24 : FVec Ideal S_ .f32 := constant S_ .f32 0x00000000#32
  let v109 : FVec Ideal S256x256 .f32 := Host.reduceAdd v108 c24 reducesTo_S256x256x16_S256x256_d2 h_S_
  let c25 : FVec Ideal S_ .f32 := constant S_ .f32 0x41000000#32
  let v110 : FVec Ideal S256x256 .f32 := broadcastInDim S256x256 ![] bcast_S_S256x256 c25
  subf v109 v110

section Reads

theorem rowSum_eq (x : FVec Ideal S256x8192 .f32) :
    Host.reduceAdd x (constant S_ .f32 0x00000000#32 : FVec Ideal S_ .f32) reducesTo_S256x8192_S256_d1 h_S_
      = fun i => ∑ k : Fin 8192, x (ix2 (i 0) k) := by
  funext i
  have h' : S256x8192.ReducesTo [1] S256 := reducesTo_S256x8192_S256_d1
  have hR : S256x8192.Reduces [1] S256 := ⟨h'.1, Nat.one_pos, h'.2⟩
  show Ideal.hostReduceAdd h' x (Ideal.ofBits .f32 0x00000000#32) i = _
  rw [Ideal.hostReduceAdd_single h' hR, Ideal.ofBits_zero_f32, zero_add]
  refine Finset.sum_congr rfl fun k _ => congrArg x (funext fun a => Fin.ext ?_)
  match a with
  | ⟨0, _⟩ => rfl
  | ⟨1, _⟩ => rfl

theorem bcast_col_eq {α : Type} (v : S256.Idx → α) :
    broadcastInDim S256x1 ![0] bcast_S256_S256x1_0 v = fun i => v (ix1 (i 0)) :=
  funext fun i => broadcastInDim_apply _ _ v i _ fun a => match a with | ⟨0, _⟩ => rfl

theorem bcast_scalar_col_eq {α : Type} (c : S_.Idx → α) :
    broadcastInDim S256x1 ![] bcast_S_S256x1 c = fun _ => c ix0 :=
  funext fun i => broadcastInDim_scalar_apply _ c i

theorem bcast_row_eq {α : Type} (v : S256x1.Idx → α) :
    broadcastInDim S256x8192 ![0, 1] bcast_S256x1_S256x8192_0_1 v = fun i => v (ix2 (i 0) 0) :=
  funext fun i => broadcastInDim_apply _ _ v i _ fun a => match a with | ⟨0, _⟩ => rfl | ⟨1, _⟩ => rfl

theorem bcast_lead_eq {α : Type} (v : S8192.Idx → α) :
    broadcastInDim S1x8192 ![1] bcast_S8192_S1x8192_1 v = fun i => v (ix1 (i 1)) :=
  funext fun i => broadcastInDim_apply _ _ v i _ fun a => match a with | ⟨0, _⟩ => rfl

theorem bcast_rows_eq {α : Type} (v : S1x8192.Idx → α) :
    broadcastInDim S256x8192 ![0, 1] bcast_S1x8192_S256x8192_0_1 v = fun i => v (ix2 0 (i 1)) :=
  funext fun i => broadcastInDim_apply _ _ v i _ fun a => match a with | ⟨0, _⟩ => rfl | ⟨1, _⟩ => rfl

end Reads

theorem lnA_eq (h : FVec Ideal S256x8192 .f32) (g be : FVec Ideal S8192 .f32) :
    lnA h g be = fun i => Cert.Spec.ln (at2 h) (at1 g) (at1 be) (i 0) (i 1) := by
  funext i
  obtain ⟨b, j, rfl⟩ : ∃ b j, i = ix2 b j := ⟨i 0, i 1, eq_ix2 i⟩
  show lnA h g be (ix2 b j) = Cert.Spec.ln (at2 h) (at1 g) (at1 be) b j
  simp only [lnA]
  rw [rowSum_eq h, bcast_col_eq, bcast_scalar_col_eq, bcast_row_eq, rowSum_eq, bcast_col_eq, bcast_scalar_col_eq,
    bcast_row_eq, bcast_lead_eq, bcast_rows_eq, bcast_lead_eq, bcast_rows_eq]
  rfl

section TailReads

theorem tailSum_eq (x : FVec Ideal S256x256x16 .f32) :
    Host.reduceAdd x (constant S_ .f32 0x00000000#32 : FVec Ideal S_ .f32) reducesTo_S256x256x16_S256x256_d2 h_S_
      = fun i => ∑ r : Fin 16, x (ix3 (i 0) (i 1) r) := by
  funext i
  have h' : S256x256x16.ReducesTo [2] S256x256 := reducesTo_S256x256x16_S256x256_d2
  have hR : S256x256x16.Reduces [2] S256x256 := ⟨h'.1, Nat.two_pos, h'.2⟩
  show Ideal.hostReduceAdd h' x (Ideal.ofBits .f32 0x00000000#32) i = _
  rw [Ideal.hostReduceAdd_single h' hR, Ideal.ofBits_zero_f32, zero_add]
  refine Finset.sum_congr rfl fun r _ => congrArg x (funext fun a => Fin.ext ?_)
  match a with
  | ⟨0, _⟩ => rfl
  | ⟨1, _⟩ => rfl
  | ⟨2, _⟩ => rfl

theorem bcast_scalar_sq_eq {α : Type} (c : S_.Idx → α) :
    broadcastInDim S256x256 ![] bcast_S_S256x256 c = fun _ => c ix0 :=
  funext fun i => broadcastInDim_scalar_apply _ c i

theorem reshape_apply {α : Type} (h : S256x4096.Idx → α) (b q : Fin 256) (r : Fin 16) :
    shapeCast S256x256x16 h shapeCasts_S256x4096_S256x256x16 (ix3 b q r)
      = h (ix2 b ⟨q.val * 16 + r.val, by have := q.isLt; have := r.isLt; omega⟩) :=
  shapeCast_apply h _ _ _ (by
    rw [Shape.rowMajor_val_three, Shape.rowMajor_val_two]
    show b.val * 4096 + (q.val * 16 + r.val) = (b.val * 256 + q.val) * 16 + r.val
    omega)

end TailReads

theorem tailA_eq (h : FVec Ideal S256x4096 .f32) :
    tailA h = fun i => Cert.Spec.tail (at2 h) (i 0) (i 1) := by
  funext i
  obtain ⟨b, q, rfl⟩ : ∃ b q, i = ix2 b q := ⟨i 0, i 1, eq_ix2 i⟩
  show tailA h (ix2 b q) = Cert.Spec.tail (at2 h) b q
  simp only [tailA]
  rw [tailSum_eq, bcast_scalar_sq_eq]
  show (∑ r : Fin 16, shapeCast S256x256x16 h shapeCasts_S256x4096_S256x256x16 (ix3 b q r)) - Cert.Spec.c8
    = (∑ r : Fin 16, h (ix2 b ⟨q.val * 16 + r.val, by have := q.isLt; have := r.isLt; omega⟩)) - Cert.Spec.c8
  exact congrArg (· - Cert.Spec.c8) (Finset.sum_congr rfl fun r _ => reshape_apply h b q r)

end Cert.ReferenceIdeal.Layer

end
-- ==== Proof.RefTerm.lean ====
import proofs.«409654_j14731737825611_1_alg».proof.Proof.RefPop
import proofs.«409654_j14731737825611_1_alg».proof.Proof.RefLn

noncomputable section

namespace Cert.ReferenceIdeal.Layer

open Idealize.ShloMosaic Idealize.ShloMosaic.ValueIdx
open Cert.ReferenceIdeal
open Cert.Spec (at1 at2 nat2 InRange)

def refTerm (a0 : FVec Ideal S256x3200 .f32)
    (a1 : IVec S8192x128 32) (a2 : FVec Ideal S8192x128 .f32) (a3 a4 a5 : FVec Ideal S8192 .f32)
    (a6 : IVec S8192x128 32) (a7 : FVec Ideal S8192x128 .f32) (a8 a9 a10 : FVec Ideal S8192 .f32)
    (a11 : IVec S4096x128 32) (a12 : FVec Ideal S4096x128 .f32) (a13 : FVec Ideal S4096 .f32) :
    FVec Ideal S256x256 .f32 :=
  tailA (pop3 (lnA (pop2 (lnA (pop1 a0 a1 a2 a3) a4 a5) a6 a7 a8) a9 a10) a11 a12 a13)

theorem refTerm_eq {a0 : FVec Ideal S256x3200 .f32}
    {a1 : IVec S8192x128 32} {a2 : FVec Ideal S8192x128 .f32} {a3 a4 a5 : FVec Ideal S8192 .f32}
    {a6 : IVec S8192x128 32} {a7 : FVec Ideal S8192x128 .f32} {a8 a9 a10 : FVec Ideal S8192 .f32}
    {a11 : IVec S4096x128 32} {a12 : FVec Ideal S4096x128 .f32} {a13 : FVec Ideal S4096 .f32}
    (h1 : InRange 3200 a1) (h6 : InRange 8192 a6) (h11 : InRange 8192 a11) :
    refTerm a0 a1 a2 a3 a4 a5 a6 a7 a8 a9 a10 a11 a12 a13
      = Cert.Spec.GArr a0 a1 a2 a3 a4 a5 a6 a7 a8 a9 a10 a11 a12 a13 := by
  unfold refTerm Cert.Spec.GArr Cert.Spec.G
  rw [pop1_eq h1, lnA_eq, pop2_eq h6, lnA_eq, pop3_eq h11, tailA_eq]

end Cert.ReferenceIdeal.Layer

end
-- ==== Proof.RefRunHand.lean ====
import proofs.«409654_j14731737825611_1_alg».proof.Proof.Gen.ReferenceIdeal
import proofs.«409654_j14731737825611_1_alg».proof.Proof.RefPop
import proofs.«409654_j14731737825611_1_alg».proof.Proof.RefLn
import proofs.«409654_j14731737825611_1_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- A step: an operation together with the one reference it writes.
structure Step (F : FTy → Type) where
  op : HloOp τ sig (Elt F)
  y : Ref sig .tc
  sub : op.bufs ⊆ tcRefs τ sig
  fresh : op.fresh = ∅
  writes : op.writes = {Proc.devRef .tc y}

namespace Step

abbrev OnDev (y : Ref sig .tc) : Prop := y.space ≠ .host ∧ (y : DevRef τ sig).isScoped = false

abbrev nullary (y : Ref sig .tc) (v : y.ty.Contents (Elt F)) (hy : OnDev y := by exact ⟨by decide, rfl⟩) : Step F :=
  ⟨StableHlo.nullary y v hy, y, nullary_bufs_sub .., rfl, rfl⟩
abbrev unary (x y : Ref sig .tc) (f : x.ty.Contents (Elt F) → y.ty.Contents (Elt F))
    (hx : OnDev x := by exact ⟨by decide, rfl⟩) (hy : OnDev y := by exact ⟨by decide, rfl⟩) : Step F :=
  ⟨StableHlo.unary x y f hx hy, y, unary_bufs_sub .., rfl, rfl⟩
abbrev binary (a b y : Ref sig .tc) (f : a.ty.Contents (Elt F) → b.ty.Contents (Elt F) → y.ty.Contents (Elt F))
    (ha : OnDev a := by exact ⟨by decide, rfl⟩) (hb : OnDev b := by exact ⟨by decide, rfl⟩)
    (hy : OnDev y := by exact ⟨by decide, rfl⟩) : Step F :=
  ⟨StableHlo.binary a b y f ha hb hy, y, binary_bufs_sub .., rfl, rfl⟩
abbrev ternary (c a b y : Ref sig .tc)
    (f : c.ty.Contents (Elt F) → a.ty.Contents (Elt F) → b.ty.Contents (Elt F) → y.ty.Contents (Elt F))
    (hc : OnDev c := by exact ⟨by decide, rfl⟩) (ha : OnDev a := by exact ⟨by decide, rfl⟩)
    (hb : OnDev b := by exact ⟨by decide, rfl⟩) (hy : OnDev y := by exact ⟨by decide, rfl⟩) : Step F :=
  ⟨StableHlo.ternary c a b y f hc ha hb hy, y, ternary_bufs_sub .., rfl, rfl⟩
abbrev reshape (x y : Ref sig .tc) (he : x.ty.elt = y.ty.elt) (hn : x.ty.shape.ShapeCasts y.ty.shape)
    (hx : OnDev x := by exact ⟨by decide, rfl⟩) (hy : OnDev y := by exact ⟨by decide, rfl⟩) : Step F :=
  ⟨StableHlo.reshape x y he hn hx hy, y, reshape_bufs_sub .., rfl, rfl⟩

theorem map_sub (l : List (Step F)) : (l.map op).Forall fun o => o.bufs ⊆ tcRefs τ sig :=
  List.forall_iff_forall_mem.mpr fun _ h => by obtain ⟨s, -, rfl⟩ := List.mem_map.mp h; exact s.sub

theorem map_fresh (l : List (Step F)) : ∀ o ∈ l.map op, o.fresh = ∅ :=
  fun _ h => by obtain ⟨s, -, rfl⟩ := List.mem_map.mp h; exact s.fresh

-- A reference that no step of the list writes keeps its contents.
theorem keep (l : List (Step F)) (V : Valuation τ sig (Elt F)) {r : Ref sig .tc} (h : r ∉ l.map y) :
    after (l.map op) V (Proc.devRef .tc r) = V (Proc.devRef .tc r) :=
  after_of_forall_not_mem _ V fun _ ho hb => by
    obtain ⟨s, hs, rfl⟩ := List.mem_map.mp ho
    rw [s.writes, Finset.mem_singleton] at hb
    exact h (List.mem_map.mpr ⟨s, hs, (Proc.devRef_injective _ hb).symm⟩)

end Step

abbrev opsA : List (Step F) :=
  [ .nullary main_call0_c (constantI S_ 32 0#32),
    .unary main_call0_c main_call0_v0 (broadcastInDim S8192x128 ![] bcast_S_S8192x128),
    .binary main_arg1 main_call0_v0 main_call0_v1 (cmpi .slt),
    .nullary main_call0_c_0 (constantI S_ 32 3200#32),
    .unary main_call0_c_0 main_call0_v2 (broadcastInDim S8192x128 ![] bcast_S_S8192x128),
    .binary main_arg1 main_call0_v2 main_call0_v3 addi,
    .ternary main_call0_v1 main_call0_v3 main_arg1 main_call0_v4 select,
    .unary main_call0_v4 main_call0_v5 (broadcastInDim S8192x128x1 ![0, 1] bcast_S8192x128_S8192x128x1_0_1),
    .nullary main_call0_c_1 (constantI S1 32 3199#32),
    .nullary main_call0_c_2 (constantI S_ 32 0#32),
    .unary main_call0_c_2 main_call0_v6 (broadcastInDim S8192x128x1 ![] bcast_S_S8192x128x1),
    .binary main_call0_v5 main_call0_v6 main_call0_v7 (cmpi .sge),
    .unary main_call0_c_1 main_call0_v8 (broadcastInDim S1x1x1 ![2] bcast_S1_S1x1x1_2),
    .unary main_call0_v8 main_call0_v9 (broadcastInDim S8192x128x1 ![0, 1, 2] bcast_S1x1x1_S8192x128x1_0_1_2),
    .binary main_call0_v5 main_call0_v9 main_call0_v10 (cmpi .sle),
    .binary main_call0_v7 main_call0_v10 main_call0_v11 andi,
    .nullary main_call0_c_3 (constantI S_ 1 1#1),
    .binary main_call0_v11 main_call0_c_3 main_call0_v12 (fun x v => Host.reduce IntOp.andi x v reducesTo_S8192x128x1_S8192x128_d2 h_S_),
    .binary main_arg0 main_call0_v5 main_call0_v13 (fun x i => Host.gather gather_S256x3200_S8192x128x1_S256x8192x128_0_1_n_n_1_2_2561 x i),
    .unary main_call0_v12 main_call0_v14 (broadcastInDim S256x8192x128 ![1, 2] bcast_S8192x128_S256x8192x128_1_2),
    .nullary main_call0_cst (constant S_ .f32 0x7FC00000#32),
    .unary main_call0_cst main_call0_v15 (broadcastInDim S256x8192x128 ![] bcast_S_S256x8192x128),
    .ternary main_call0_v14 main_call0_v13 main_call0_v15 main_v0 select,
    .unary main_arg2 main_v1 Host.negf,
    .unary main_v1 main_v2 Host.exp,
    .nullary main_cst (constant S_ .f32 0x3F800000#32),
    .unary main_cst main_v3 (broadcastInDim S8192x128 ![] bcast_S_S8192x128),
    .binary main_v3 main_v2 main_v4 addf,
    .nullary main_cst_0 (constant S_ .f32 0x3F800000#32),
    .unary main_cst_0 main_v5 (broadcastInDim S8192x128 ![] bcast_S_S8192x128),
    .binary main_v5 main_v4 main_v6 Host.divf,
    .unary main_v6 main_v7 (broadcastInDim S1x8192x128 ![1, 2] bcast_S8192x128_S1x8192x128_1_2),
    .unary main_v7 main_v8 (broadcastInDim S256x8192x128 ![0, 1, 2] bcast_S1x8192x128_S256x8192x128_0_1_2),
    .binary main_v0 main_v8 main_v9 mulf,
    .nullary main_cst_1 (constant S_ .f32 0x00000000#32),
    .binary main_v9 main_cst_1 main_v10 (fun x v => Host.reduceAdd x v reducesTo_S256x8192x128_S256x8192_d2 h_S_),
    .unary main_arg3 main_v11 (broadcastInDim S1x8192 ![1] bcast_S8192_S1x8192_1),
    .unary main_v11 main_v12 (broadcastInDim S256x8192 ![0, 1] bcast_S1x8192_S256x8192_0_1),
    .binary main_v10 main_v12 main_v13 subf,
    .unary main_v13 main_v14 Host.negf,
    .unary main_v14 main_v15 Host.exp,
    .nullary main_cst_2 (constant S_ .f32 0x3F800000#32),
    .unary main_cst_2 main_v16 (broadcastInDim S256x8192 ![] bcast_S_S256x8192),
    .binary main_v16 main_v15 main_v17 addf,
    .nullary main_cst_3 (constant S_ .f32 0x3F800000#32),
    .unary main_cst_3 main_v18 (broadcastInDim S256x8192 ![] bcast_S_S256x8192),
    .binary main_v18 main_v17 main_v19 Host.divf ]

abbrev opsB : List (Step F) :=
  [ .nullary main_cst_4 (constant S_ .f32 0x00000000#32),
    .binary main_v19 main_cst_4 main_v20 (fun x v => Host.reduceAdd x v reducesTo_S256x8192_S256_d1 h_S_),
    .unary main_v20 main_v21 (broadcastInDim S256x1 ![0] bcast_S256_S256x1_0),
    .nullary main_cst_5 (constant S_ .f32 0x46000000#32),
    .unary main_cst_5 main_v22 (broadcastInDim S256x1 ![] bcast_S_S256x1),
    .binary main_v21 main_v22 main_v23 Host.divf,
    .unary main_v23 main_v24 (broadcastInDim S256x8192 ![0, 1] bcast_S256x1_S256x8192_0_1),
    .binary main_v19 main_v24 main_v25 subf,
    .binary main_v25 main_v25 main_v26 mulf,
    .nullary main_cst_6 (constant S_ .f32 0x00000000#32),
    .binary main_v26 main_cst_6 main_v27 (fun x v => Host.reduceAdd x v reducesTo_S256x8192_S256_d1 h_S_),
    .unary main_v27 main_v28 (broadcastInDim S256x1 ![0] bcast_S256_S256x1_0),
    .nullary main_cst_7 (constant S_ .f32 0x46000000#32),
    .unary main_cst_7 main_v29 (broadcastInDim S256x1 ![] bcast_S_S256x1),
    .binary main_v28 main_v29 main_v30 Host.divf,
    .unary main_v23 main_v31 (broadcastInDim S256x8192 ![0, 1] bcast_S256x1_S256x8192_0_1),
    .binary main_v19 main_v31 main_v32 subf,
    .nullary main_cst_8 (constant S_ .f32 0x2B8CBCCC#32),
    .unary main_cst_8 main_v33 (broadcastInDim S256x1 ![] bcast_S_S256x1),
    .binary main_v30 main_v33 main_v34 addf,
    .unary main_v34 main_v35 Host.rsqrt,
    .unary main_v35 main_v36 (broadcastInDim S256x8192 ![0, 1] bcast_S256x1_S256x8192_0_1),
    .binary main_v32 main_v36 main_v37 mulf,
    .unary main_arg4 main_v38 (broadcastInDim S1x8192 ![1] bcast_S8192_S1x8192_1),
    .unary main_v38 main_v39 (broadcastInDim S256x8192 ![0, 1] bcast_S1x8192_S256x8192_0_1),
    .binary main_v37 main_v39 main_v40 mulf,
    .unary main_arg5 main_v41 (broadcastInDim S1x8192 ![1] bcast_S8192_S1x8192_1),
    .unary main_v41 main_v42 (broadcastInDim S256x8192 ![0, 1] bcast_S1x8192_S256x8192_0_1),
    .binary main_v40 main_v42 main_v43 addf ]

abbrev opsC1 : List (Step F) :=
  [ .nullary main_call1_c (constantI S_ 32 0#32),
    .unary main_call1_c main_call1_v0 (broadcastInDim S8192x128 ![] bcast_S_S8192x128),
    .binary main_arg6 main_call1_v0 main_call1_v1 (cmpi .slt),
    .nullary main_call1_c_0 (constantI S_ 32 8192#32),
    .unary main_call1_c_0 main_call1_v2 (broadcastInDim S8192x128 ![] bcast_S_S8192x128),
    .binary main_arg6 main_call1_v2 main_call1_v3 addi,
    .ternary main_call1_v1 main_call1_v3 main_arg6 main_call1_v4 select,
    .unary main_call1_v4 main_call1_v5 (broadcastInDim S8192x128x1 ![0, 1] bcast_S8192x128_S8192x128x1_0_1),
    .nullary main_call1_c_1 (constantI S1 32 8191#32),
    .nullary main_call1_c_2 (constantI S_ 32 0#32),
    .unary main_call1_c_2 main_call1_v6 (broadcastInDim S8192x128x1 ![] bcast_S_S8192x128x1),
    .binary main_call1_v5 main_call1_v6 main_call1_v7 (cmpi .sge),
    .unary main_call1_c_1 main_call1_v8 (broadcastInDim S1x1x1 ![2] bcast_S1_S1x1x1_2),
    .unary main_call1_v8 main_call1_v9 (broadcastInDim S8192x128x1 ![0, 1, 2] bcast_S1x1x1_S8192x128x1_0_1_2),
    .binary main_call1_v5 main_call1_v9 main_call1_v10 (cmpi .sle),
    .binary main_call1_v7 main_call1_v10 main_call1_v11 andi,
    .nullary main_call1_c_3 (constantI S_ 1 1#1),
    .binary main_call1_v11 main_call1_c_3 main_call1_v12 (fun x v => Host.reduce IntOp.andi x v reducesTo_S8192x128x1_S8192x128_d2 h_S_),
    .binary main_v43 main_call1_v5 main_call1_v13 (fun x i => Host.gather gather_S256x8192_S8192x128x1_S256x8192x128_0_1_n_n_1_2_2561 x i),
    .unary main_call1_v12 main_call1_v14 (broadcastInDim S256x8192x128 ![1, 2] bcast_S8192x128_S256x8192x128_1_2),
    .nullary main_call1_cst (constant S_ .f32 0x7FC00000#32),
    .unary main_call1_cst main_call1_v15 (broadcastInDim S256x8192x128 ![] bcast_S_S256x8192x128),
    .ternary main_call1_v14 main_call1_v13 main_call1_v15 main_v44 select,
    .unary main_arg7 main_v45 Host.negf,
    .unary main_v45 main_v46 Host.exp,
    .nullary main_cst_9 (constant S_ .f32 0x3F800000#32),
    .unary main_cst_9 main_v47 (broadcastInDim S8192x128 ![] bcast_S_S8192x128),
    .binary main_v47 main_v46 main_v48 addf ]

abbrev opsC2 : List (Step F) :=
  [ .nullary main_cst_10 (constant S_ .f32 0x3F800000#32),
    .unary main_cst_10 main_v49 (broadcastInDim S8192x128 ![] bcast_S_S8192x128),
    .binary main_v49 main_v48 main_v50 Host.divf,
    .unary main_v50 main_v51 (broadcastInDim S1x8192x128 ![1, 2] bcast_S8192x128_S1x8192x128_1_2),
    .unary main_v51 main_v52 (broadcastInDim S256x8192x128 ![0, 1, 2] bcast_S1x8192x128_S256x8192x128_0_1_2),
    .binary main_v44 main_v52 main_v53 mulf,
    .nullary main_cst_11 (constant S_ .f32 0x00000000#32),
    .binary main_v53 main_cst_11 main_v54 (fun x v => Host.reduceAdd x v reducesTo_S256x8192x128_S256x8192_d2 h_S_),
    .unary main_arg8 main_v55 (broadcastInDim S1x8192 ![1] bcast_S8192_S1x8192_1),
    .unary main_v55 main_v56 (broadcastInDim S256x8192 ![0, 1] bcast_S1x8192_S256x8192_0_1),
    .binary main_v54 main_v56 main_v57 subf,
    .unary main_v57 main_v58 Host.negf,
    .unary main_v58 main_v59 Host.exp,
    .nullary main_cst_12 (constant S_ .f32 0x3F800000#32),
    .unary main_cst_12 main_v60 (broadcastInDim S256x8192 ![] bcast_S_S256x8192),
    .binary main_v60 main_v59 main_v61 addf,
    .nullary main_cst_13 (constant S_ .f32 0x3F800000#32),
    .unary main_cst_13 main_v62 (broadcastInDim S256x8192 ![] bcast_S_S256x8192),
    .binary main_v62 main_v61 main_v63 Host.divf ]

abbrev opsD : List (Step F) :=
  [ .nullary main_cst_14 (constant S_ .f32 0x00000000#32),
    .binary main_v63 main_cst_14 main_v64 (fun x v => Host.reduceAdd x v reducesTo_S256x8192_S256_d1 h_S_),
    .unary main_v64 main_v65 (broadcastInDim S256x1 ![0] bcast_S256_S256x1_0),
    .nullary main_cst_15 (constant S_ .f32 0x46000000#32),
    .unary main_cst_15 main_v66 (broadcastInDim S256x1 ![] bcast_S_S256x1),
    .binary main_v65 main_v66 main_v67 Host.divf,
    .unary main_v67 main_v68 (broadcastInDim S256x8192 ![0, 1] bcast_S256x1_S256x8192_0_1),
    .binary main_v63 main_v68 main_v69 subf,
    .binary main_v69 main_v69 main_v70 mulf,
    .nullary main_cst_16 (constant S_ .f32 0x00000000#32),
    .binary main_v70 main_cst_16 main_v71 (fun x v => Host.reduceAdd x v reducesTo_S256x8192_S256_d1 h_S_),
    .unary main_v71 main_v72 (broadcastInDim S256x1 ![0] bcast_S256_S256x1_0),
    .nullary main_cst_17 (constant S_ .f32 0x46000000#32),
    .unary main_cst_17 main_v73 (broadcastInDim S256x1 ![] bcast_S_S256x1),
    .binary main_v72 main_v73 main_v74 Host.divf,
    .unary main_v67 main_v75 (broadcastInDim S256x8192 ![0, 1] bcast_S256x1_S256x8192_0_1),
    .binary main_v63 main_v75 main_v76 subf,
    .nullary main_cst_18 (constant S_ .f32 0x2B8CBCCC#32),
    .unary main_cst_18 main_v77 (broadcastInDim S256x1 ![] bcast_S_S256x1),
    .binary main_v74 main_v77 main_v78 addf,
    .unary main_v78 main_v79 Host.rsqrt,
    .unary main_v79 main_v80 (broadcastInDim S256x8192 ![0, 1] bcast_S256x1_S256x8192_0_1),
    .binary main_v76 main_v80 main_v81 mulf,
    .unary main_arg9 main_v82 (broadcastInDim S1x8192 ![1] bcast_S8192_S1x8192_1),
    .unary main_v82 main_v83 (broadcastInDim S256x8192 ![0, 1] bcast_S1x8192_S256x8192_0_1),
    .binary main_v81 main_v83 main_v84 mulf,
    .unary main_arg10 main_v85 (broadcastInDim S1x8192 ![1] bcast_S8192_S1x8192_1),
    .unary main_v85 main_v86 (broadcastInDim S256x8192 ![0, 1] bcast_S1x8192_S256x8192_0_1),
    .binary main_v84 main_v86 main_v87 addf ]

abbrev opsE1 : List (Step F) :=
  [ .nullary main_call2_c (constantI S_ 32 0#32),
    .unary main_call2_c main_call2_v0 (broadcastInDim S4096x128 ![] bcast_S_S4096x128),
    .binary main_arg11 main_call2_v0 main_call2_v1 (cmpi .slt),
    .nullary main_call2_c_0 (constantI S_ 32 8192#32),
    .unary main_call2_c_0 main_call2_v2 (broadcastInDim S4096x128 ![] bcast_S_S4096x128),
    .binary main_arg11 main_call2_v2 main_call2_v3 addi,
    .ternary main_call2_v1 main_call2_v3 main_arg11 main_call2_v4 select,
    .unary main_call2_v4 main_call2_v5 (broadcastInDim S4096x128x1 ![0, 1] bcast_S4096x128_S4096x128x1_0_1),
    .nullary main_call2_c_1 (constantI S1 32 8191#32),
    .nullary main_call2_c_2 (constantI S_ 32 0#32),
    .unary main_call2_c_2 main_call2_v6 (broadcastInDim S4096x128x1 ![] bcast_S_S4096x128x1),
    .binary main_call2_v5 main_call2_v6 main_call2_v7 (cmpi .sge),
    .unary main_call2_c_1 main_call2_v8 (broadcastInDim S1x1x1 ![2] bcast_S1_S1x1x1_2),
    .unary main_call2_v8 main_call2_v9 (broadcastInDim S4096x128x1 ![0, 1, 2] bcast_S1x1x1_S4096x128x1_0_1_2),
    .binary main_call2_v5 main_call2_v9 main_call2_v10 (cmpi .sle),
    .binary main_call2_v7 main_call2_v10 main_call2_v11 andi,
    .nullary main_call2_c_3 (constantI S_ 1 1#1),
    .binary main_call2_v11 main_call2_c_3 main_call2_v12 (fun x v => Host.reduce IntOp.andi x v reducesTo_S4096x128x1_S4096x128_d2 h_S_),
    .binary main_v87 main_call2_v5 main_call2_v13 (fun x i => Host.gather gather_S256x8192_S4096x128x1_S256x4096x128_0_1_n_n_1_2_2561 x i),
    .unary main_call2_v12 main_call2_v14 (broadcastInDim S256x4096x128 ![1, 2] bcast_S4096x128_S256x4096x128_1_2),
    .nullary main_call2_cst (constant S_ .f32 0x7FC00000#32),
    .unary main_call2_cst main_call2_v15 (broadcastInDim S256x4096x128 ![] bcast_S_S256x4096x128),
    .ternary main_call2_v14 main_call2_v13 main_call2_v15 main_v88 select,
    .unary main_arg12 main_v89 Host.negf,
    .unary main_v89 main_v90 Host.exp,
    .nullary main_cst_19 (constant S_ .f32 0x3F800000#32),
    .unary main_cst_19 main_v91 (broadcastInDim S4096x128 ![] bcast_S_S4096x128),
    .binary main_v91 main_v90 main_v92 addf,
    .nullary main_cst_20 (constant S_ .f32 0x3F800000#32),
    .unary main_cst_20 main_v93 (broadcastInDim S4096x128 ![] bcast_S_S4096x128),
    .binary main_v93 main_v92 main_v94 Host.divf,
    .unary main_v94 main_v95 (broadcastInDim S1x4096x128 ![1, 2] bcast_S4096x128_S1x4096x128_1_2),
    .unary main_v95 main_v96 (broadcastInDim S256x4096x128 ![0, 1, 2] bcast_S1x4096x128_S256x4096x128_0_1_2),
    .binary main_v88 main_v96 main_v97 mulf ]

abbrev opsE2 : List (Step F) :=
  [ .nullary main_cst_21 (constant S_ .f32 0x00000000#32),
    .binary main_v97 main_cst_21 main_v98 (fun x v => Host.reduceAdd x v reducesTo_S256x4096x128_S256x4096_d2 h_S_),
    .unary main_arg13 main_v99 (broadcastInDim S1x4096 ![1] bcast_S4096_S1x4096_1),
    .unary main_v99 main_v100 (broadcastInDim S256x4096 ![0, 1] bcast_S1x4096_S256x4096_0_1),
    .binary main_v98 main_v100 main_v101 subf,
    .unary main_v101 main_v102 Host.negf,
    .unary main_v102 main_v103 Host.exp,
    .nullary main_cst_22 (constant S_ .f32 0x3F800000#32),
    .unary main_cst_22 main_v104 (broadcastInDim S256x4096 ![] bcast_S_S256x4096),
    .binary main_v104 main_v103 main_v105 addf,
    .nullary main_cst_23 (constant S_ .f32 0x3F800000#32),
    .unary main_cst_23 main_v106 (broadcastInDim S256x4096 ![] bcast_S_S256x4096),
    .binary main_v106 main_v105 main_v107 Host.divf ]

abbrev opsF : List (Step F) :=
  [ .reshape main_v107 main_v108 rfl shapeCasts_S256x4096_S256x256x16,
    .nullary main_cst_24 (constant S_ .f32 0x00000000#32),
    .binary main_v108 main_cst_24 main_v109 (fun x v => Host.reduceAdd x v reducesTo_S256x256x16_S256x256_d2 h_S_),
    .nullary main_cst_25 (constant S_ .f32 0x41000000#32),
    .unary main_cst_25 main_v110 (broadcastInDim S256x256 ![] bcast_S_S256x256),
    .binary main_v109 main_v110 main_v111 subf ]

abbrev ops : List (Step F) := opsA ++ (opsB ++ (opsC1 ++ (opsC2 ++ (opsD ++ (opsE1 ++ (opsE2 ++ opsF))))))

section Bridge

attribute [local irreducible] Host.reduce Host.reduceAdd Host.gather
set_option maxRecDepth 8192
set_option maxHeartbeats 4000000

theorem part0_eq (c : Dev nD) : main_part0 (F := F) c = seq ((opsA ++ (opsB ++ opsC1)).map Step.op) := rfl

theorem part1_eq (c : Dev nD) : main_part1 (F := F) c = seq ((opsC2 ++ (opsD ++ opsE1)).map Step.op) := rfl

theorem part2_eq (c : Dev nD) : main_part2 (F := F) c = seq ((opsE2 ++ opsF).map Step.op) := rfl

end Bridge

-- The three parts of @main in sequence are the whole list run as one.
theorem main_eq (c : Dev nD) : main (F := F) c = seq (ops.map Step.op) := by
  show (main_part0 (F := F) c >>= fun _ => main_part1 (F := F) c >>= fun _ => main_part2 (F := F) c) = _
  rw [part0_eq, part1_eq, part2_eq, ← seq_append, ← seq_append]
  simp only [ops, List.map_append, List.append_assoc]

section Value

attribute [local irreducible] Host.reduce Host.reduceAdd Host.gather
set_option maxRecDepth 8192
set_option maxHeartbeats 4000000

theorem layerA (W : Valuation τ sig (Elt Ideal)) :
    after (opsA.map Step.op) W main_v19
      = Layer.pop1 (W main_arg0) (W main_arg1) (W main_arg2) (W main_arg3) := by
  simp only [opsA, List.map]
  after_results_simp
  rfl

theorem layerB (W : Valuation τ sig (Elt Ideal)) :
    after (opsB.map Step.op) W main_v43
      = Layer.lnA (W main_v19) (W main_arg4) (W main_arg5) := by
  simp only [opsB, List.map]
  after_results_simp
  rfl

theorem layerC (W : Valuation τ sig (Elt Ideal)) :
    after (opsC2.map Step.op) (after (opsC1.map Step.op) W) main_v63
      = Layer.pop2 (W main_v43) (W main_arg6) (W main_arg7) (W main_arg8) := by
  rw [← StableHlo.after_append]
  simp only [opsC1, opsC2, List.map, List.cons_append, List.nil_append]
  after_results_simp
  rfl

theorem layerD (W : Valuation τ sig (Elt Ideal)) :
    after (opsD.map Step.op) W main_v87
      = Layer.lnA (W main_v63) (W main_arg9) (W main_arg10) := by
  simp only [opsD, List.map]
  after_results_simp
  rfl

theorem layerE (W : Valuation τ sig (Elt Ideal)) :
    after (opsE2.map Step.op) (after (opsE1.map Step.op) W) main_v107
      = Layer.pop3 (W main_v87) (W main_arg11) (W main_arg12) (W main_arg13) := by
  rw [← StableHlo.after_append]
  simp only [opsE1, opsE2, List.map, List.cons_append, List.nil_append]
  after_results_simp
  rfl

theorem layerF (W : Valuation τ sig (Elt Ideal)) :
    after (opsF.map Step.op) W main_v111
      = Layer.tailA (W main_v107) := by
  simp only [opsF, List.map]
  after_results_simp
  rfl

end Value

-- The fold at the result reference is the layers composed; each argument is read where no step has written it.
theorem result_eq (V : Valuation τ sig (Elt Ideal)) :
    after (ops.map Step.op) V main_v111
      = Layer.refTerm (V main_arg0)
          (V main_arg1)
          (V main_arg2)
          (V main_arg3)
          (V main_arg4)
          (V main_arg5)
          (V main_arg6)
          (V main_arg7)
          (V main_arg8)
          (V main_arg9)
          (V main_arg10)
          (V main_arg11)
          (V main_arg12)
          (V main_arg13) := by
  simp only [ops, List.map_append, StableHlo.after_append]
  rw [layerF, layerE, layerD, layerC, layerB, layerA]
  repeat (rw [Step.keep]; rotate_left; exact of_decide_eq_true rfl)
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v111)
        = Layer.refTerm (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun _ h c => ⟨(h c _).trans (result_eq (launchContents m c)), ?_⟩)
    (run_seq (by decide) (by decide) defs main (fun _ => (ops.map Step.op)) main_eq (fun _ => Step.map_sub ops) m ρ fun _ => Step.map_fresh ops)
  and_intros <;> exact (h c _).trans (Step.keep ops (launchContents m c) (of_decide_eq_true rfl))

end Cert.ReferenceIdeal.RefRun

end
-- ==== Proof.RefTop.lean ====
import proofs.«409654_j14731737825611_1_alg».proof.Defs
import proofs.«409654_j14731737825611_1_alg».proof.Proof.Spec
import proofs.«409654_j14731737825611_1_alg».proof.Proof.Gen.ReferenceIdeal
import proofs.«409654_j14731737825611_1_alg».proof.Proof.RefRunHand

noncomputable section

namespace Cert.ReferenceIdeal.Run
open Idealize.ShloMosaic Idealize.SL.Sem Cert.ReferenceIdeal

variable (m : (ℓ : Loc nD τ sig) → Buf (Elt Ideal) ℓ)

abbrev GR (c : Dev nD) : Buf (Elt Ideal) ((c.tc : Thread nD τ).loc main_v111) :=
  Cert.Spec.GArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

abbrev Kept (m' : (ℓ : Loc nD τ sig) → Buf (Elt Ideal) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)

def SelOk : Prop :=
  ∀ c : Dev nD, Cert.Spec.InRange 3200 (m ((c.tc : Thread nD τ).loc main_arg1))
    ∧ Cert.Spec.InRange 8192 (m ((c.tc : Thread nD τ).loc main_arg6))
    ∧ Cert.Spec.InRange 8192 (m ((c.tc : Thread nD τ).loc main_arg11))

theorem frame (ρ : Dev nD → PrngReg) :
    θ_run (defs (F := Ideal)) (onTc (τ := τ) (main (F := Ideal))) ⟨m, fun _ => 0, ρ⟩ (fun r => ∀ c : Dev nD, Kept m r.2.mem c) :=
  (θ_run (defs (F := Ideal)) _ _).mono (fun _ h c => (h c).2) (RefRun.run m ρ)

theorem run_value (ρ : Dev nD → PrngReg) (hsel : SelOk m) :
    θ_run (defs (F := Ideal)) (onTc (τ := τ) (main (F := Ideal))) ⟨m, fun _ => 0, ρ⟩
      (fun r => ∀ c : Dev nD, r.2.mem ((c.tc : Thread nD τ).loc main_v111) = GR m c ∧ Kept m r.2.mem c) :=
  (θ_run (defs (F := Ideal)) _ _).mono
    (fun _ h c => ⟨(h c).1.trans (Layer.refTerm_eq (hsel c).1 (hsel c).2.1 (hsel c).2.2), (h c).2⟩) (RefRun.run m ρ)

end Cert.ReferenceIdeal.Run
end
-- ==== Proof.PreDecode.lean ====
import proofs.«409654_j14731737825611_1_alg».proof.Pre_finite_inputs
import proofs.«409654_j14731737825611_1_alg».proof.Proof.Spec
import proofs.«409654_j14731737825611_1_alg».proof.Proof.Gen.Pre_finite_inputs
import Idealize.ShloMosaic.Lib.ReduceAll

noncomputable section

namespace Cert.PreDecode
open Idealize.ShloMosaic Cert.Pre_finite_inputs

local instance subsingleton_S_ : Subsingleton S_.Idx := ⟨fun _ _ => funext fun d => d.elim0⟩

theorem range_of_all {n0 n1 : ℕ} {axes : List (Fin 2)} (x : IVec ⟨2, ![n0, n1]⟩ 32) (k : BitVec 32) (n : ℕ) (hk : k.toInt = n)
    (bc : S_.BroadcastsInDim ⟨2, ![n0, n1]⟩ (![] : Fin 0 → Fin 2)) (rt : (⟨2, ![n0, n1]⟩ : Shape).ReducesTo axes S_)
    (hu : 0 < S_.numel) (j : S_.Idx)
    (e : Host.reduce IntOp.andi
          (andi (cmpi .sge x (broadcastInDim _ ![] bc (constantI S_ 32 0#32)))
            (cmpi .slt x (broadcastInDim _ ![] bc (constantI S_ 32 k))))
          (constantI S_ 1 1#1) rt hu j = 1#1) : Cert.Spec.InRange n x := fun i => by
  obtain ⟨h0, h1⟩ := IntOp.andi_eq_one.1 (Host.reduce_andi_all _ _ rt hu j e i)
  have h0' : (0#32 : BitVec 32).toInt ≤ (x i).toInt := IntOp.cmpi_sge.1 h0
  have h1' : (x i).toInt < k.toInt := IntOp.cmpi_slt.1 h1
  have hz : (0#32 : BitVec 32).toInt = 0 := by decide
  exact ⟨by omega, by omega⟩

theorem part4 [Cert.Pre_finite_inputs.Facts] (a11 : IVec S4096x128 32) (v67 : IVec S_ 1) (j : S_.Idx)
    (e : fn_part4 (F := Ideal) a11 v67 j = 1#1) : v67 j = 1#1 ∧ Cert.Spec.InRange 8192 a11 :=
  have ⟨h67, h73⟩ := IntOp.andi_eq_one.1 e
  ⟨h67, range_of_all a11 8192#32 8192 (by decide) Facts.bcast_S_S4096x128 Facts.reducesTo_S4096x128_S_d0_1 Facts.h_S_ j h73⟩

theorem part3 [Cert.Pre_finite_inputs.Facts] (a1 a6 : IVec S8192x128 32) (a11 : IVec S4096x128 32) (v48 : IVec S_ 1)
    (v49 v50 : FVec Ideal S4096 .f32) (j : S_.Idx)
    (e : fn_part3 (F := Ideal) a1 a6 a11 v48 v49 v50 j = 1#1) :
    Cert.Spec.InRange 3200 a1 ∧ Cert.Spec.InRange 8192 a6 ∧ Cert.Spec.InRange 8192 a11 := by
  obtain ⟨h67, h11⟩ := part4 a11 _ j e
  obtain ⟨h60, h66⟩ := IntOp.andi_eq_one.1 h67
  obtain ⟨_, h59⟩ := IntOp.andi_eq_one.1 h60
  exact ⟨range_of_all a1 3200#32 3200 (by decide) Facts.bcast_S_S8192x128 Facts.reducesTo_S8192x128_S_d0_1 Facts.h_S_ j h59,
    range_of_all a6 8192#32 8192 (by decide) Facts.bcast_S_S8192x128 Facts.reducesTo_S8192x128_S_d0_1 Facts.h_S_ j h66, h11⟩

theorem inRange_of_fn [Cert.Pre_finite_inputs.Facts]
    (a0 : FVec Ideal S256x3200 .f32) (a1 : IVec S8192x128 32) (a2 : FVec Ideal S8192x128 .f32)
    (a3 a4 a5 : FVec Ideal S8192 .f32) (a6 : IVec S8192x128 32) (a7 : FVec Ideal S8192x128 .f32)
    (a8 a9 a10 : FVec Ideal S8192 .f32) (a11 : IVec S4096x128 32) (a12 : FVec Ideal S4096x128 .f32) (a13 : FVec Ideal S4096 .f32)
    (h : Cert.Pre_finite_inputs.fn (F := Ideal) a0 a1 a2 a3 a4 a5 a6 a7 a8 a9 a10 a11 a12 a13 = fun _ => 1#1) :
    Cert.Spec.InRange 3200 a1 ∧ Cert.Spec.InRange 8192 a6 ∧ Cert.Spec.InRange 8192 a11 :=
  part3 a1 a6 a11 _ _ _ ValueIdx.ix0 (congrFun h ValueIdx.ix0)

end Cert.PreDecode
end
-- ==== Proof.lean ====
import proofs.«409654_j14731737825611_1_alg».proof.Defs
import proofs.«409654_j14731737825611_1_alg».proof.Proof.Spec
import proofs.«409654_j14731737825611_1_alg».proof.Proof.KIValueRun
import proofs.«409654_j14731737825611_1_alg».proof.Proof.KFrame
import proofs.«409654_j14731737825611_1_alg».proof.Proof.RefTop
import proofs.«409654_j14731737825611_1_alg».proof.Proof.PreDecode
import proofs.«409654_j14731737825611_1_alg».proof.Proof.Gen.Kernel
import proofs.«409654_j14731737825611_1_alg».proof.Proof.Gen.KernelIdeal
import proofs.«409654_j14731737825611_1_alg».proof.Proof.Gen.ReferenceIdeal
import proofs.«409654_j14731737825611_1_alg».proof.Proof.Gen.Pre_finite_inputs

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Run.frame m ρ,
  trivial,
  fun m ρ m' ρ' hpre hagree => by
    have key : ∀ c : Dev Cert.KernelIdeal.nD, Cert.ReferenceIdeal.Run.GR m' c = Cert.KernelIdeal.Hand.GK m c := by
      intro c
      obtain ⟨h0, h1, h2, h3, h4, h5, h6, h7, h8, h9, h10, h11, h12, h13⟩ := hagree c
      show Cert.Spec.GArr _ _ _ _ _ _ _ _ _ _ _ _ _ _ = Cert.Spec.GArr _ _ _ _ _ _ _ _ _ _ _ _ _ _
      rw [h0, h1, h2, h3, h4, h5, h6, h7, h8, h9, h10, h11, h12, h13]
    exact ⟨fun c => Cert.KernelIdeal.Hand.GK m c, Cert.KernelIdeal.Hand.run_value m ρ,
      (θ_run Cert.ReferenceIdeal.defs _ _).mono (fun r h c => ⟨(h c).1.trans (key c), (h c).2⟩)
        (Cert.ReferenceIdeal.Run.run_value m' ρ' fun c => by
          rw [(hagree c).2.1, (hagree c).2.2.2.2.2.2.1, (hagree c).2.2.2.2.2.2.2.2.2.2.2.1]
          exact Cert.PreDecode.inRange_of_fn _ _ _ _ _ _ _ _ _ _ _ _ _ _ (hpre c))⟩⟩

end Cert.Proof

end
